-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S512x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S16384x256 : Shape := ⟨2, ![16384, 256]⟩
abbrev S256x16384 : Shape := ⟨2, ![256, 16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x16384 : S_.BroadcastsInDim S256x16384 (![] : Fin 0 → Fin S256x16384.rank)
  reducesTo_S256x16384_S_d0_1 : S256x16384.ReducesTo [0, 1] S_

variable [Facts]

def fn_part1 {F : FTy → Type} [FloatOps F] (main_arg4 : FVec F S16384x256 .f32) (main_arg5 : FVec F S256x16384 .f32) (main_arg6 : FVec F S16384x256 .f32) (main_v13 : IVec S_ 1) (main_v16 : IVec S256x16384 1) : IVec S_ 1 :=
  let main_c_5 : IVec S_ 1 := constantI S_ 1 1#1
  let main_v17 : IVec S_ 1 := (fun x v => Host.reduce IntOp.andi x v reducesTo_S256x16384_S_d0_1 h_S_) main_v16 main_c_5
  let main_v18 : IVec S_ 1 := andi main_v13 main_v17
  let main_v19 : FVec F S16384x256 .f32 := Host.absf main_arg4
  let main_cst_6 : FVec F S_ .f32 := constant S_ .f32 0x7F800000#32
  let main_v20 : FVec F S16384x256 .f32 := broadcastInDim S16384x256 ![] bcast_S_S16384x256 main_cst_6
  let main_v21 : IVec S16384x256 1 := cmpf .olt main_v19 main_v20
  let main_c_7 : IVec S_ 1 := constantI S_ 1 1#1
  let main_v22 : IVec S_ 1 := (fun x v => Host.reduce IntOp.andi x v reducesTo_S16384x256_S_d0_1 h_S_) main_v21 main_c_7
  let main_v23 : IVec S_ 1 := andi main_v18 main_v22
  let main_v24 : FVec F S256x16384 .f32 := Host.absf main_arg5
  let main_cst_8 : FVec F S_ .f32 := constant S_ .f32 0x7F800000#32
  let main_v25 : FVec F S256x16384 .f32 := broadcastInDim S256x16384 ![] bcast_S_S256x16384 main_cst_8
  let main_v26 : IVec S256x16384 1 := cmpf .olt main_v24 main_v25
  let main_c_9 : IVec S_ 1 := constantI S_ 1 1#1
  let main_v27 : IVec S_ 1 := (fun x v => Host.reduce IntOp.andi x v reducesTo_S256x16384_S_d0_1 h_S_) main_v26 main_c_9
  let main_v28 : IVec S_ 1 := andi main_v23 main_v27
  let main_v29 : FVec F S16384x256 .f32 := Host.absf main_arg6
  let main_cst_10 : FVec F S_ .f32 := constant S_ .f32 0x7F800000#32
  let main_v30 : FVec F S16384x256 .f32 := broadcastInDim S16384x256 ![] bcast_S_S16384x256 main_cst_10
  let main_v31 : IVec S16384x256 1 := cmpf .olt main_v29 main_v30
  let main_c_11 : IVec S_ 1 := constantI S_ 1 1#1
  let main_v32 : IVec S_ 1 := (fun x v => Host.reduce IntOp.andi x v reducesTo_S16384x256_S_d0_1 h_S_) main_v31 main_c_11
  let main_v33 : IVec S_ 1 := andi main_v28 main_v32
  main_v33

def fn {F : FTy → Type} [FloatOps F] (main_arg0 : FVec F S16384x256 .f32) (main_arg1 : FVec F S256x16384 .f32) (main_arg2 : FVec F S16384x256 .f32) (main_arg3 : FVec F S256x16384 .f32) (main_arg4 : FVec F S16384x256 .f32) (main_arg5 : FVec F S256x16384 .f32) (main_arg6 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x16384 .f32 := Host.absf main_arg1
  let main_cst_0 : FVec F S_ .f32 := constant S_ .f32 0x7F800000#32
  let main_v5 : FVec F S256x16384 .f32 := broadcastInDim S256x16384 ![] bcast_S_S256x16384 main_cst_0
  let main_v6 : IVec S256x16384 1 := cmpf .olt main_v4 main_v5
  let main_c_1 : IVec S_ 1 := constantI S_ 1 1#1
  let main_v7 : IVec S_ 1 := (fun x v => Host.reduce IntOp.andi x v reducesTo_S256x16384_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S256x16384 .f32 := Host.absf main_arg3
  let main_cst_4 : FVec F S_ .f32 := constant S_ .f32 0x7F800000#32
  let main_v15 : FVec F S256x16384 .f32 := broadcastInDim S256x16384 ![] bcast_S_S256x16384 main_cst_4
  let main_v16 : IVec S256x16384 1 := cmpf .olt main_v14 main_v15
  fn_part1 (F := F) main_arg4 main_arg5 main_arg6 main_v13 main_v16
-- ==== Kernel.lean ====
abbrev S512x256 : Shape := ⟨2, ![512, 256]⟩
abbrev S256x512 : Shape := ⟨2, ![256, 512]⟩
abbrev S16384x256 : Shape := ⟨2, ![16384, 256]⟩
abbrev S32x6x512x256 : Shape := ⟨4, ![32, 6, 512, 256]⟩
abbrev S31 : Shape := ⟨1, ![31]⟩
abbrev S1x1x512x256 : Shape := ⟨4, ![1, 1, 512, 256]⟩
abbrev S_ : Shape := ⟨0, ![]⟩
abbrev S1 : Shape := ⟨1, ![1]⟩
abbrev S1x6x512x256 : Shape := ⟨4, ![1, 6, 512, 256]⟩
abbrev S6x512x256 : Shape := ⟨3, ![6, 512, 256]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S16384x256, .bf16⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S16384x256, .bf16⟩
  | .local _ .vmem, ⟨8, _⟩ => ⟨S32x6x512x256, .bf16⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v189 : Index := Scalar.indexCast v2
  let c0_96 : Index := 0#32
  let c0_97 : Index := 0#32
  let c0_98 : Index := 0#32
  ![v189.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v197 : Index := Scalar.indexCast v2
  let c1 : Index := 1#32
  let c0_101 : Index := 0#32
  let c0_102 : Index := 0#32
  ![v197.toNat, 1, 0, 0]
def k0_off3 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v205 : Index := Scalar.indexCast v2
  let c2 : Index := 2#32
  let c0_105 : Index := 0#32
  let c0_106 : Index := 0#32
  ![v205.toNat, 2, 0, 0]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v212 : Index := Scalar.indexCast v2
  let c3 : Index := 3#32
  let c0_109 : Index := 0#32
  let c0_110 : Index := 0#32
  ![v212.toNat, 3, 0, 0]
def k0_off5 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v219 : Index := Scalar.indexCast v2
  let c4 : Index := 4#32
  let c0_113 : Index := 0#32
  let c0_114 : Index := 0#32
  ![v219.toNat, 4, 0, 0]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v226 : Index := Scalar.indexCast v2
  let c5 : Index := 5#32
  let c0_117 : Index := 0#32
  let c0_118 : Index := 0#32
  ![v226.toNat, 5, 0, 0]
def k0_dev1 (d0 : Dev nD) : Nat :=
  let c0_i32_121 : BitVec 32 := 0#32
  let c8_i32_93 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c32_i32_61 : BitVec 32 := 32#32
  let v128 : BitVec 32 := Scalar.addi v71 c32_i32_61
  let c1_i32_62 : BitVec 32 := 1#32
  let v129 : BitVec 32 := Scalar.subi v128 c1_i32_62
  let c32_i32_63 : BitVec 32 := 32#32
  let v130 : BitVec 32 := Scalar.remsi v129 c32_i32_63
  let c16_i32_64 : BitVec 32 := 16#32
  let v131 : BitVec 1 := Scalar.cmpi .sge v130 c16_i32_64
  let c1_i32_65 : BitVec 32 := 1#32
  let c0_i32_66 : BitVec 32 := 0#32
  let v132 : BitVec 32 := Scalar.select v131 c1_i32_65 c0_i32_66
  let c1_i32_67 : BitVec 32 := 1#32
  let v133 : BitVec 1 := Scalar.cmpi .eq v132 c1_i32_67
  let c31_i32_68 : BitVec 32 := 31#32
  let v134 : BitVec 32 := Scalar.subi c31_i32_68 v130
  let v135 : BitVec 32 := Scalar.select v133 v134 v130
  let c0_i32_70 : BitVec 32 := 0#32
  let v137 : BitVec 1 := Scalar.cmpi .sgt v135 c0_i32_70
  let v138 : BitVec 32 := Scalar.extui v137
  let c0_i32_71 : BitVec 32 := 0#32
  let v139 : BitVec 1 := Scalar.cmpi .slt v135 c0_i32_71
  let v140 : BitVec 32 := Scalar.extui v139
  let v141 : BitVec 32 := Scalar.subi v138 v140
  let c4_i32_69 : BitVec 32 := 4#32
  let c0_i32_72 : BitVec 32 := 0#32
  let v142 : BitVec 1 := Scalar.cmpi .sgt c4_i32_69 c0_i32_72
  let v143 : BitVec 32 := Scalar.extui v142
  let c0_i32_73 : BitVec 32 := 0#32
  let v144 : BitVec 1 := Scalar.cmpi .slt c4_i32_69 c0_i32_73
  let v145 : BitVec 32 := Scalar.extui v144
  let v146 : BitVec 32 := Scalar.subi v143 v145
  let v147 : BitVec 1 := Scalar.cmpi .ne v141 v146
  let v148 : BitVec 32 := Scalar.remsi v135 c4_i32_69
  let c0_i32_74 : BitVec 32 := 0#32
  let v149 : BitVec 1 := Scalar.cmpi .ne v148 c0_i32_74
  let v150 : BitVec 1 := Scalar.andi v147 v149
  let v136 : BitVec 32 := Scalar.divsi v135 c4_i32_69
  let c1_i32_75 : BitVec 32 := 1#32
  let v151 : BitVec 32 := Scalar.subi v136 c1_i32_75
  let v152 : BitVec 32 := Scalar.select v150 v151 v136
  let v181 : BitVec 32 := Scalar.muli c8_i32_93 v152
  let c2_i32_94 : BitVec 32 := 2#32
  let c2_i32_77 : BitVec 32 := 2#32
  let c0_i32_78 : BitVec 32 := 0#32
  let v155 : BitVec 1 := Scalar.cmpi .eq c2_i32_77 c0_i32_78
  let c1_i32_79 : BitVec 32 := 1#32
  let v156 : BitVec 32 := Scalar.select v155 c1_i32_79 c2_i32_77
  let v157 : BitVec 32 := Scalar.remsi v152 v156
  let c0_i32_81 : BitVec 32 := 0#32
  let v159 : BitVec 1 := Scalar.cmpi .slt v157 c0_i32_81
  let c0_i32_82 : BitVec 32 := 0#32
  let v160 : BitVec 1 := Scalar.cmpi .slt v156 c0_i32_82
  let v161 : BitVec 1 := Scalar.xori v159 v160
  let c0_i32_80 : BitVec 32 := 0#32
  let v158 : BitVec 1 := Scalar.cmpi .ne v157 c0_i32_80
  let v162 : BitVec 1 := Scalar.andi v161 v158
  let v163 : BitVec 32 := Scalar.addi v157 v156
  let v164 : BitVec 32 := Scalar.select v162 v163 v157
  let c0_i32_83 : BitVec 32 := 0#32
  let v165 : BitVec 1 := Scalar.cmpi .eq v164 c0_i32_83
  let c4_i32_76 : BitVec 32 := 4#32
  let v153 : BitVec 32 := Scalar.muli c4_i32_76 v152
  let v154 : BitVec 32 := Scalar.subi v135 v153
  let c3_i32_84 : BitVec 32 := 3#32
  let v166 : BitVec 32 := Scalar.subi c3_i32_84 v154
  let v167 : BitVec 32 := Scalar.select v165 v154 v166
  let v182 : BitVec 32 := Scalar.muli c2_i32_94 v167
  let v183 : BitVec 32 := Scalar.addi v181 v182
  let c2_i32_85 : BitVec 32 := 2#32
  let c0_i32_86 : BitVec 32 := 0#32
  let v168 : BitVec 1 := Scalar.cmpi .eq c2_i32_85 c0_i32_86
  let c1_i32_87 : BitVec 32 := 1#32
  let v169 : BitVec 32 := Scalar.select v168 c1_i32_87 c2_i32_85
  let v170 : BitVec 32 := Scalar.remsi v167 v169
  let c0_i32_89 : BitVec 32 := 0#32
  let v172 : BitVec 1 := Scalar.cmpi .slt v170 c0_i32_89
  let c0_i32_90 : BitVec 32 := 0#32
  let v173 : BitVec 1 := Scalar.cmpi .slt v169 c0_i32_90
  let v174 : BitVec 1 := Scalar.xori v172 v173
  let c0_i32_88 : BitVec 32 := 0#32
  let v171 : BitVec 1 := Scalar.cmpi .ne v170 c0_i32_88
  let v175 : BitVec 1 := Scalar.andi v174 v171
  let v176 : BitVec 32 := Scalar.addi v170 v169
  let v177 : BitVec 32 := Scalar.select v175 v176 v170
  let c0_i32_91 : BitVec 32 := 0#32
  let v178 : BitVec 1 := Scalar.cmpi .eq v177 c0_i32_91
  let c1_i32_92 : BitVec 32 := 1#32
  let v179 : BitVec 32 := Scalar.subi c1_i32_92 v132
  let v180 : BitVec 32 := Scalar.select v178 v132 v179
  let v184 : BitVec 32 := Scalar.addi v183 v180
  let c1_i32_120 : BitVec 32 := 1#32
  let v231 : BitVec 32 := Scalar.muli v184 c1_i32_120
  let v232 : BitVec 32 := Scalar.addi c0_i32_121 v231
  v232.toNat
def k0_dev2 (d0 : Dev nD) : Nat :=
  let c0_i32_124 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_123 : BitVec 32 := 1#32
  let v233 : BitVec 32 := Scalar.muli v127 c1_i32_123
  let v234 : BitVec 32 := Scalar.addi c0_i32_124 v233
  v234.toNat
def k0_off7 (d0 : Dev nD) (c0_i32_127 : BitVec 32) : Fin 4 → Nat :=
  let c8_i32_158 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c32_i32_126 : BitVec 32 := 32#32
  let v235 : BitVec 32 := Scalar.addi v71 c32_i32_126
  let v236 : BitVec 32 := Scalar.subi v235 c0_i32_127
  let c32_i32_128 : BitVec 32 := 32#32
  let v237 : BitVec 32 := Scalar.remsi v236 c32_i32_128
  let c16_i32_129 : BitVec 32 := 16#32
  let v238 : BitVec 1 := Scalar.cmpi .sge v237 c16_i32_129
  let c1_i32_130 : BitVec 32 := 1#32
  let c0_i32_131 : BitVec 32 := 0#32
  let v239 : BitVec 32 := Scalar.select v238 c1_i32_130 c0_i32_131
  let c1_i32_132 : BitVec 32 := 1#32
  let v240 : BitVec 1 := Scalar.cmpi .eq v239 c1_i32_132
  let c31_i32_133 : BitVec 32 := 31#32
  let v241 : BitVec 32 := Scalar.subi c31_i32_133 v237
  let v242 : BitVec 32 := Scalar.select v240 v241 v237
  let c0_i32_135 : BitVec 32 := 0#32
  let v244 : BitVec 1 := Scalar.cmpi .sgt v242 c0_i32_135
  let v245 : BitVec 32 := Scalar.extui v244
  let c0_i32_136 : BitVec 32 := 0#32
  let v246 : BitVec 1 := Scalar.cmpi .slt v242 c0_i32_136
  let v247 : BitVec 32 := Scalar.extui v246
  let v248 : BitVec 32 := Scalar.subi v245 v247
  let c4_i32_134 : BitVec 32 := 4#32
  let c0_i32_137 : BitVec 32 := 0#32
  let v249 : BitVec 1 := Scalar.cmpi .sgt c4_i32_134 c0_i32_137
  let v250 : BitVec 32 := Scalar.extui v249
  let c0_i32_138 : BitVec 32 := 0#32
  let v251 : BitVec 1 := Scalar.cmpi .slt c4_i32_134 c0_i32_138
  let v252 : BitVec 32 := Scalar.extui v251
  let v253 : BitVec 32 := Scalar.subi v250 v252
  let v254 : BitVec 1 := Scalar.cmpi .ne v248 v253
  let v255 : BitVec 32 := Scalar.remsi v242 c4_i32_134
  let c0_i32_139 : BitVec 32 := 0#32
  let v256 : BitVec 1 := Scalar.cmpi .ne v255 c0_i32_139
  let v257 : BitVec 1 := Scalar.andi v254 v256
  let v243 : BitVec 32 := Scalar.divsi v242 c4_i32_134
  let c1_i32_140 : BitVec 32 := 1#32
  let v258 : BitVec 32 := Scalar.subi v243 c1_i32_140
  let v259 : BitVec 32 := Scalar.select v257 v258 v243
  let v288 : BitVec 32 := Scalar.muli c8_i32_158 v259
  let c2_i32_159 : BitVec 32 := 2#32
  let c2_i32_142 : BitVec 32 := 2#32
  let c0_i32_143 : BitVec 32 := 0#32
  let v262 : BitVec 1 := Scalar.cmpi .eq c2_i32_142 c0_i32_143
  let c1_i32_144 : BitVec 32 := 1#32
  let v263 : BitVec 32 := Scalar.select v262 c1_i32_144 c2_i32_142
  let v264 : BitVec 32 := Scalar.remsi v259 v263
  let c0_i32_146 : BitVec 32 := 0#32
  let v266 : BitVec 1 := Scalar.cmpi .slt v264 c0_i32_146
  let c0_i32_147 : BitVec 32 := 0#32
  let v267 : BitVec 1 := Scalar.cmpi .slt v263 c0_i32_147
  let v268 : BitVec 1 := Scalar.xori v266 v267
  let c0_i32_145 : BitVec 32 := 0#32
  let v265 : BitVec 1 := Scalar.cmpi .ne v264 c0_i32_145
  let v269 : BitVec 1 := Scalar.andi v268 v265
  let v270 : BitVec 32 := Scalar.addi v264 v263
  let v271 : BitVec 32 := Scalar.select v269 v270 v264
  let c0_i32_148 : BitVec 32 := 0#32
  let v272 : BitVec 1 := Scalar.cmpi .eq v271 c0_i32_148
  let c4_i32_141 : BitVec 32 := 4#32
  let v260 : BitVec 32 := Scalar.muli c4_i32_141 v259
  let v261 : BitVec 32 := Scalar.subi v242 v260
  let c3_i32_149 : BitVec 32 := 3#32
  let v273 : BitVec 32 := Scalar.subi c3_i32_149 v261
  let v274 : BitVec 32 := Scalar.select v272 v261 v273
  let v289 : BitVec 32 := Scalar.muli c2_i32_159 v274
  let v290 : BitVec 32 := Scalar.addi v288 v289
  let c2_i32_150 : BitVec 32 := 2#32
  let c0_i32_151 : BitVec 32 := 0#32
  let v275 : BitVec 1 := Scalar.cmpi .eq c2_i32_150 c0_i32_151
  let c1_i32_152 : BitVec 32 := 1#32
  let v276 : BitVec 32 := Scalar.select v275 c1_i32_152 c2_i32_150
  let v277 : BitVec 32 := Scalar.remsi v274 v276
  let c0_i32_154 : BitVec 32 := 0#32
  let v279 : BitVec 1 := Scalar.cmpi .slt v277 c0_i32_154
  let c0_i32_155 : BitVec 32 := 0#32
  let v280 : BitVec 1 := Scalar.cmpi .slt v276 c0_i32_155
  let v281 : BitVec 1 := Scalar.xori v279 v280
  let c0_i32_153 : BitVec 32 := 0#32
  let v278 : BitVec 1 := Scalar.cmpi .ne v277 c0_i32_153
  let v282 : BitVec 1 := Scalar.andi v281 v278
  let v283 : BitVec 32 := Scalar.addi v277 v276
  let v284 : BitVec 32 := Scalar.select v282 v283 v277
  let c0_i32_156 : BitVec 32 := 0#32
  let v285 : BitVec 1 := Scalar.cmpi .eq v284 c0_i32_156
  let c1_i32_157 : BitVec 32 := 1#32
  let v286 : BitVec 32 := Scalar.subi c1_i32_157 v239
  let v287 : BitVec 32 := Scalar.select v285 v239 v286
  let v291 : BitVec 32 := Scalar.addi v290 v287
  let c0_i32_164 : BitVec 32 := 0#32
  let c0_i32_165 : BitVec 32 := 0#32
  let c0_i32_166 : BitVec 32 := 0#32
  ![v291.toNat, 0, 0, 0]
def k0_dev3 (d0 : Dev nD) : Nat :=
  let c0_i32_163 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_162 : BitVec 32 := 1#32
  let v292 : BitVec 32 := Scalar.muli v127 c1_i32_162
  let v293 : BitVec 32 := Scalar.addi c0_i32_163 v292
  v293.toNat
def k0_dev4 (d0 : Dev nD) : Nat :=
  let c0_i32_226 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_225 : BitVec 32 := 1#32
  let v373 : BitVec 32 := Scalar.muli v127 c1_i32_225
  let v374 : BitVec 32 := Scalar.addi c0_i32_226 v373
  v374.toNat
def k0_dev5 (d0 : Dev nD) : Nat :=
  let c0_i32_289 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_288 : BitVec 32 := 1#32
  let v454 : BitVec 32 := Scalar.muli v127 c1_i32_288
  let v455 : BitVec 32 := Scalar.addi c0_i32_289 v454
  v455.toNat
def k0_dev6 (d0 : Dev nD) : Nat :=
  let c0_i32_352 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_351 : BitVec 32 := 1#32
  let v535 : BitVec 32 := Scalar.muli v127 c1_i32_351
  let v536 : BitVec 32 := Scalar.addi c0_i32_352 v535
  v536.toNat
def k0_dev7 (d0 : Dev nD) : Nat :=
  let c0_i32_415 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_414 : BitVec 32 := 1#32
  let v616 : BitVec 32 := Scalar.muli v127 c1_i32_414
  let v617 : BitVec 32 := Scalar.addi c0_i32_415 v616
  v617.toNat
def k0_dev8 (d0 : Dev nD) : Nat :=
  let c0_i32_477 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_476 : BitVec 32 := 1#32
  let v697 : BitVec 32 := Scalar.muli v127 c1_i32_476
  let v698 : BitVec 32 := Scalar.addi c0_i32_477 v697
  v698.toNat
def k0_dev9 (d0 : Dev nD) : Nat :=
  let c0_i32_539 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_538 : BitVec 32 := 1#32
  let v778 : BitVec 32 := Scalar.muli v127 c1_i32_538
  let v779 : BitVec 32 := Scalar.addi c0_i32_539 v778
  v779.toNat
def k0_dev10 (d0 : Dev nD) : Nat :=
  let c0_i32_601 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_600 : BitVec 32 := 1#32
  let v859 : BitVec 32 := Scalar.muli v127 c1_i32_600
  let v860 : BitVec 32 := Scalar.addi c0_i32_601 v859
  v860.toNat
def k0_dev11 (d0 : Dev nD) : Nat :=
  let c0_i32_664 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_663 : BitVec 32 := 1#32
  let v940 : BitVec 32 := Scalar.muli v127 c1_i32_663
  let v941 : BitVec 32 := Scalar.addi c0_i32_664 v940
  v941.toNat
def k0_dev12 (d0 : Dev nD) : Nat :=
  let c0_i32_726 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_725 : BitVec 32 := 1#32
  let v1021 : BitVec 32 := Scalar.muli v127 c1_i32_725
  let v1022 : BitVec 32 := Scalar.addi c0_i32_726 v1021
  v1022.toNat
def k0_dev13 (d0 : Dev nD) : Nat :=
  let c0_i32_788 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_787 : BitVec 32 := 1#32
  let v1102 : BitVec 32 := Scalar.muli v127 c1_i32_787
  let v1103 : BitVec 32 := Scalar.addi c0_i32_788 v1102
  v1103.toNat
def k0_dev14 (d0 : Dev nD) : Nat :=
  let c0_i32_850 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_849 : BitVec 32 := 1#32
  let v1183 : BitVec 32 := Scalar.muli v127 c1_i32_849
  let v1184 : BitVec 32 := Scalar.addi c0_i32_850 v1183
  v1184.toNat
def k0_dev15 (d0 : Dev nD) : Nat :=
  let c0_i32_912 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_911 : BitVec 32 := 1#32
  let v1264 : BitVec 32 := Scalar.muli v127 c1_i32_911
  let v1265 : BitVec 32 := Scalar.addi c0_i32_912 v1264
  v1265.toNat
def k0_dev16 (d0 : Dev nD) : Nat :=
  let c0_i32_974 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_973 : BitVec 32 := 1#32
  let v1345 : BitVec 32 := Scalar.muli v127 c1_i32_973
  let v1346 : BitVec 32 := Scalar.addi c0_i32_974 v1345
  v1346.toNat
def k0_dev17 (d0 : Dev nD) : Nat :=
  let c0_i32_1036 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1035 : BitVec 32 := 1#32
  let v1426 : BitVec 32 := Scalar.muli v127 c1_i32_1035
  let v1427 : BitVec 32 := Scalar.addi c0_i32_1036 v1426
  v1427.toNat
def k0_dev18 (d0 : Dev nD) : Nat :=
  let c0_i32_1098 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1097 : BitVec 32 := 1#32
  let v1507 : BitVec 32 := Scalar.muli v127 c1_i32_1097
  let v1508 : BitVec 32 := Scalar.addi c0_i32_1098 v1507
  v1508.toNat
def k0_dev19 (d0 : Dev nD) : Nat :=
  let c0_i32_1161 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1160 : BitVec 32 := 1#32
  let v1588 : BitVec 32 := Scalar.muli v127 c1_i32_1160
  let v1589 : BitVec 32 := Scalar.addi c0_i32_1161 v1588
  v1589.toNat
def k0_dev20 (d0 : Dev nD) : Nat :=
  let c0_i32_1223 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1222 : BitVec 32 := 1#32
  let v1669 : BitVec 32 := Scalar.muli v127 c1_i32_1222
  let v1670 : BitVec 32 := Scalar.addi c0_i32_1223 v1669
  v1670.toNat
def k0_dev21 (d0 : Dev nD) : Nat :=
  let c0_i32_1285 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1284 : BitVec 32 := 1#32
  let v1750 : BitVec 32 := Scalar.muli v127 c1_i32_1284
  let v1751 : BitVec 32 := Scalar.addi c0_i32_1285 v1750
  v1751.toNat
def k0_dev22 (d0 : Dev nD) : Nat :=
  let c0_i32_1347 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1346 : BitVec 32 := 1#32
  let v1831 : BitVec 32 := Scalar.muli v127 c1_i32_1346
  let v1832 : BitVec 32 := Scalar.addi c0_i32_1347 v1831
  v1832.toNat
def k0_dev23 (d0 : Dev nD) : Nat :=
  let c0_i32_1409 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1408 : BitVec 32 := 1#32
  let v1912 : BitVec 32 := Scalar.muli v127 c1_i32_1408
  let v1913 : BitVec 32 := Scalar.addi c0_i32_1409 v1912
  v1913.toNat
def k0_dev24 (d0 : Dev nD) : Nat :=
  let c0_i32_1471 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1470 : BitVec 32 := 1#32
  let v1993 : BitVec 32 := Scalar.muli v127 c1_i32_1470
  let v1994 : BitVec 32 := Scalar.addi c0_i32_1471 v1993
  v1994.toNat
def k0_dev25 (d0 : Dev nD) : Nat :=
  let c0_i32_1533 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1532 : BitVec 32 := 1#32
  let v2074 : BitVec 32 := Scalar.muli v127 c1_i32_1532
  let v2075 : BitVec 32 := Scalar.addi c0_i32_1533 v2074
  v2075.toNat
def k0_dev26 (d0 : Dev nD) : Nat :=
  let c0_i32_1595 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1594 : BitVec 32 := 1#32
  let v2155 : BitVec 32 := Scalar.muli v127 c1_i32_1594
  let v2156 : BitVec 32 := Scalar.addi c0_i32_1595 v2155
  v2156.toNat
def k0_dev27 (d0 : Dev nD) : Nat :=
  let c0_i32_1657 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1656 : BitVec 32 := 1#32
  let v2236 : BitVec 32 := Scalar.muli v127 c1_i32_1656
  let v2237 : BitVec 32 := Scalar.addi c0_i32_1657 v2236
  v2237.toNat
def k0_dev28 (d0 : Dev nD) : Nat :=
  let c0_i32_1719 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1718 : BitVec 32 := 1#32
  let v2317 : BitVec 32 := Scalar.muli v127 c1_i32_1718
  let v2318 : BitVec 32 := Scalar.addi c0_i32_1719 v2317
  v2318.toNat
def k0_dev29 (d0 : Dev nD) : Nat :=
  let c0_i32_1781 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1780 : BitVec 32 := 1#32
  let v2398 : BitVec 32 := Scalar.muli v127 c1_i32_1780
  let v2399 : BitVec 32 := Scalar.addi c0_i32_1781 v2398
  v2399.toNat
def k0_dev30 (d0 : Dev nD) : Nat :=
  let c0_i32_1843 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1842 : BitVec 32 := 1#32
  let v2479 : BitVec 32 := Scalar.muli v127 c1_i32_1842
  let v2480 : BitVec 32 := Scalar.addi c0_i32_1843 v2479
  v2480.toNat
def k0_dev31 (d0 : Dev nD) : Nat :=
  let c0_i32_1905 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1904 : BitVec 32 := 1#32
  let v2560 : BitVec 32 := Scalar.muli v127 c1_i32_1904
  let v2561 : BitVec 32 := Scalar.addi c0_i32_1905 v2560
  v2561.toNat
def k0_dev32 (d0 : Dev nD) : Nat :=
  let c0_i32_1967 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_1966 : BitVec 32 := 1#32
  let v2641 : BitVec 32 := Scalar.muli v127 c1_i32_1966
  let v2642 : BitVec 32 := Scalar.addi c0_i32_1967 v2641
  v2642.toNat
def k0_dev33 (d0 : Dev nD) : Nat :=
  let c0_i32_2029 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2028 : BitVec 32 := 1#32
  let v2722 : BitVec 32 := Scalar.muli v127 c1_i32_2028
  let v2723 : BitVec 32 := Scalar.addi c0_i32_2029 v2722
  v2723.toNat
@[reducible] def k0_t1_loop : Scf.Loop 32 :=
  let c0_i32_2057 : BitVec 32 := 0#32
  let c32_i32_2058 : BitVec 32 := 32#32
  let v2750 : BitVec 32 := Scalar.addi c0_i32_2057 c32_i32_2058
  let c1_i32_2059 : BitVec 32 := 1#32
  ⟨c0_i32_2057, v2750, c1_i32_2059⟩
def k0_off8 (k0_t1 : Fin k0_t1_loop.trips) : Fin 4 → Nat :=
  let c0_i32_2057 : BitVec 32 := 0#32
  let c1_i32_2059 : BitVec 32 := 1#32
  let arg13 : BitVec 32 := Scf.iv c0_i32_2057 c1_i32_2059 k0_t1
  let v5151 : Index := Scalar.indexCast arg13
  let c0_3715 : Index := 0#32
  let c0_3716 : Index := 0#32
  let c0_3717 : Index := 0#32
  ![v5151.toNat, 0, 0, 0]
def k0_off9 (k0_t1 : Fin k0_t1_loop.trips) : Fin 4 → Nat :=
  let c0_i32_2057 : BitVec 32 := 0#32
  let c1_i32_2059 : BitVec 32 := 1#32
  let arg13 : BitVec 32 := Scf.iv c0_i32_2057 c1_i32_2059 k0_t1
  let v5154 : Index := Scalar.indexCast arg13
  let c3_3718 : Index := 3#32
  let c0_3719 : Index := 0#32
  let c0_3720 : Index := 0#32
  ![v5154.toNat, 3, 0, 0]
@[reducible] def k0_t2_loop : Scf.Loop 32 :=
  let c0_i32_2062 : BitVec 32 := 0#32
  let c32_i32_2063 : BitVec 32 := 32#32
  let v2754 : BitVec 32 := Scalar.addi c0_i32_2062 c32_i32_2063
  let c1_i32_2064 : BitVec 32 := 1#32
  ⟨c0_i32_2062, v2754, c1_i32_2064⟩
def k0_off10 (k0_t2 : Fin k0_t2_loop.trips) : Fin 4 → Nat :=
  let c0_i32_2062 : BitVec 32 := 0#32
  let c1_i32_2064 : BitVec 32 := 1#32
  let arg13 : BitVec 32 := Scf.iv c0_i32_2062 c1_i32_2064 k0_t2
  let v5151 : Index := Scalar.indexCast arg13
  let c1_3715 : Index := 1#32
  let c0_3716 : Index := 0#32
  let c0_3717 : Index := 0#32
  ![v5151.toNat, 1, 0, 0]
def k0_off11 (k0_t2 : Fin k0_t2_loop.trips) : Fin 4 → Nat :=
  let c0_i32_2062 : BitVec 32 := 0#32
  let c1_i32_2064 : BitVec 32 := 1#32
  let arg13 : BitVec 32 := Scf.iv c0_i32_2062 c1_i32_2064 k0_t2
  let v5154 : Index := Scalar.indexCast arg13
  let c4_3718 : Index := 4#32
  let c0_3719 : Index := 0#32
  let c0_3720 : Index := 0#32
  ![v5154.toNat, 4, 0, 0]
@[reducible] def k0_t3_loop : Scf.Loop 32 :=
  let c0_i32_2067 : BitVec 32 := 0#32
  let c32_i32_2068 : BitVec 32 := 32#32
  let v2758 : BitVec 32 := Scalar.addi c0_i32_2067 c32_i32_2068
  let c1_i32_2069 : BitVec 32 := 1#32
  ⟨c0_i32_2067, v2758, c1_i32_2069⟩
def k0_off12 (k0_t3 : Fin k0_t3_loop.trips) : Fin 4 → Nat :=
  let c0_i32_2067 : BitVec 32 := 0#32
  let c1_i32_2069 : BitVec 32 := 1#32
  let arg13 : BitVec 32 := Scf.iv c0_i32_2067 c1_i32_2069 k0_t3
  let v5151 : Index := Scalar.indexCast arg13
  let c2_3715 : Index := 2#32
  let c0_3716 : Index := 0#32
  let c0_3717 : Index := 0#32
  ![v5151.toNat, 2, 0, 0]
def k0_off13 (k0_t3 : Fin k0_t3_loop.trips) : Fin 4 → Nat :=
  let c0_i32_2067 : BitVec 32 := 0#32
  let c1_i32_2069 : BitVec 32 := 1#32
  let arg13 : BitVec 32 := Scf.iv c0_i32_2067 c1_i32_2069 k0_t3
  let v5154 : Index := Scalar.indexCast arg13
  let c5_3718 : Index := 5#32
  let c0_3719 : Index := 0#32
  let c0_3720 : Index := 0#32
  ![v5154.toNat, 5, 0, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32 : BitVec 32 := 512#32
  let v2761 : BitVec 32 := Scalar.muli v2 c512_i32
  let v2762 : Index := Scalar.indexCast v2761
  let c0_2071 : Index := 0#32
  ![v2762.toNat, 0]
def k0_off15 (d0 : Dev nD) (c0_i32_2073 : BitVec 32) : Fin 2 → Nat :=
  let c8_i32_2104 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c32_i32_2072 : BitVec 32 := 32#32
  let v2764 : BitVec 32 := Scalar.addi v71 c32_i32_2072
  let v2765 : BitVec 32 := Scalar.subi v2764 c0_i32_2073
  let c32_i32_2074 : BitVec 32 := 32#32
  let v2766 : BitVec 32 := Scalar.remsi v2765 c32_i32_2074
  let c16_i32_2075 : BitVec 32 := 16#32
  let v2767 : BitVec 1 := Scalar.cmpi .sge v2766 c16_i32_2075
  let c1_i32_2076 : BitVec 32 := 1#32
  let c0_i32_2077 : BitVec 32 := 0#32
  let v2768 : BitVec 32 := Scalar.select v2767 c1_i32_2076 c0_i32_2077
  let c1_i32_2078 : BitVec 32 := 1#32
  let v2769 : BitVec 1 := Scalar.cmpi .eq v2768 c1_i32_2078
  let c31_i32_2079 : BitVec 32 := 31#32
  let v2770 : BitVec 32 := Scalar.subi c31_i32_2079 v2766
  let v2771 : BitVec 32 := Scalar.select v2769 v2770 v2766
  let c0_i32_2081 : BitVec 32 := 0#32
  let v2773 : BitVec 1 := Scalar.cmpi .sgt v2771 c0_i32_2081
  let v2774 : BitVec 32 := Scalar.extui v2773
  let c0_i32_2082 : BitVec 32 := 0#32
  let v2775 : BitVec 1 := Scalar.cmpi .slt v2771 c0_i32_2082
  let v2776 : BitVec 32 := Scalar.extui v2775
  let v2777 : BitVec 32 := Scalar.subi v2774 v2776
  let c4_i32_2080 : BitVec 32 := 4#32
  let c0_i32_2083 : BitVec 32 := 0#32
  let v2778 : BitVec 1 := Scalar.cmpi .sgt c4_i32_2080 c0_i32_2083
  let v2779 : BitVec 32 := Scalar.extui v2778
  let c0_i32_2084 : BitVec 32 := 0#32
  let v2780 : BitVec 1 := Scalar.cmpi .slt c4_i32_2080 c0_i32_2084
  let v2781 : BitVec 32 := Scalar.extui v2780
  let v2782 : BitVec 32 := Scalar.subi v2779 v2781
  let v2783 : BitVec 1 := Scalar.cmpi .ne v2777 v2782
  let v2784 : BitVec 32 := Scalar.remsi v2771 c4_i32_2080
  let c0_i32_2085 : BitVec 32 := 0#32
  let v2785 : BitVec 1 := Scalar.cmpi .ne v2784 c0_i32_2085
  let v2786 : BitVec 1 := Scalar.andi v2783 v2785
  let v2772 : BitVec 32 := Scalar.divsi v2771 c4_i32_2080
  let c1_i32_2086 : BitVec 32 := 1#32
  let v2787 : BitVec 32 := Scalar.subi v2772 c1_i32_2086
  let v2788 : BitVec 32 := Scalar.select v2786 v2787 v2772
  let v2817 : BitVec 32 := Scalar.muli c8_i32_2104 v2788
  let c2_i32_2105 : BitVec 32 := 2#32
  let c2_i32_2088 : BitVec 32 := 2#32
  let c0_i32_2089 : BitVec 32 := 0#32
  let v2791 : BitVec 1 := Scalar.cmpi .eq c2_i32_2088 c0_i32_2089
  let c1_i32_2090 : BitVec 32 := 1#32
  let v2792 : BitVec 32 := Scalar.select v2791 c1_i32_2090 c2_i32_2088
  let v2793 : BitVec 32 := Scalar.remsi v2788 v2792
  let c0_i32_2092 : BitVec 32 := 0#32
  let v2795 : BitVec 1 := Scalar.cmpi .slt v2793 c0_i32_2092
  let c0_i32_2093 : BitVec 32 := 0#32
  let v2796 : BitVec 1 := Scalar.cmpi .slt v2792 c0_i32_2093
  let v2797 : BitVec 1 := Scalar.xori v2795 v2796
  let c0_i32_2091 : BitVec 32 := 0#32
  let v2794 : BitVec 1 := Scalar.cmpi .ne v2793 c0_i32_2091
  let v2798 : BitVec 1 := Scalar.andi v2797 v2794
  let v2799 : BitVec 32 := Scalar.addi v2793 v2792
  let v2800 : BitVec 32 := Scalar.select v2798 v2799 v2793
  let c0_i32_2094 : BitVec 32 := 0#32
  let v2801 : BitVec 1 := Scalar.cmpi .eq v2800 c0_i32_2094
  let c4_i32_2087 : BitVec 32 := 4#32
  let v2789 : BitVec 32 := Scalar.muli c4_i32_2087 v2788
  let v2790 : BitVec 32 := Scalar.subi v2771 v2789
  let c3_i32_2095 : BitVec 32 := 3#32
  let v2802 : BitVec 32 := Scalar.subi c3_i32_2095 v2790
  let v2803 : BitVec 32 := Scalar.select v2801 v2790 v2802
  let v2818 : BitVec 32 := Scalar.muli c2_i32_2105 v2803
  let v2819 : BitVec 32 := Scalar.addi v2817 v2818
  let c2_i32_2096 : BitVec 32 := 2#32
  let c0_i32_2097 : BitVec 32 := 0#32
  let v2804 : BitVec 1 := Scalar.cmpi .eq c2_i32_2096 c0_i32_2097
  let c1_i32_2098 : BitVec 32 := 1#32
  let v2805 : BitVec 32 := Scalar.select v2804 c1_i32_2098 c2_i32_2096
  let v2806 : BitVec 32 := Scalar.remsi v2803 v2805
  let c0_i32_2100 : BitVec 32 := 0#32
  let v2808 : BitVec 1 := Scalar.cmpi .slt v2806 c0_i32_2100
  let c0_i32_2101 : BitVec 32 := 0#32
  let v2809 : BitVec 1 := Scalar.cmpi .slt v2805 c0_i32_2101
  let v2810 : BitVec 1 := Scalar.xori v2808 v2809
  let c0_i32_2099 : BitVec 32 := 0#32
  let v2807 : BitVec 1 := Scalar.cmpi .ne v2806 c0_i32_2099
  let v2811 : BitVec 1 := Scalar.andi v2810 v2807
  let v2812 : BitVec 32 := Scalar.addi v2806 v2805
  let v2813 : BitVec 32 := Scalar.select v2811 v2812 v2806
  let c0_i32_2102 : BitVec 32 := 0#32
  let v2814 : BitVec 1 := Scalar.cmpi .eq v2813 c0_i32_2102
  let c1_i32_2103 : BitVec 32 := 1#32
  let v2815 : BitVec 32 := Scalar.subi c1_i32_2103 v2768
  let v2816 : BitVec 32 := Scalar.select v2814 v2768 v2815
  let v2820 : BitVec 32 := Scalar.addi v2819 v2816
  let c512_i32_2107 : BitVec 32 := 512#32
  let v2822 : BitVec 32 := Scalar.muli v2820 c512_i32_2107
  let c0_i32_2112 : BitVec 32 := 0#32
  ![v2822.toNat, 0]
def k0_dev34 (d0 : Dev nD) : Nat :=
  let c0_i32_2111 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2110 : BitVec 32 := 1#32
  let v2823 : BitVec 32 := Scalar.muli v127 c1_i32_2110
  let v2824 : BitVec 32 := Scalar.addi c0_i32_2111 v2823
  v2824.toNat
def k0_dev35 (d0 : Dev nD) : Nat :=
  let c0_i32_2164 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2163 : BitVec 32 := 1#32
  let v2900 : BitVec 32 := Scalar.muli v127 c1_i32_2163
  let v2901 : BitVec 32 := Scalar.addi c0_i32_2164 v2900
  v2901.toNat
def k0_dev36 (d0 : Dev nD) : Nat :=
  let c0_i32_2217 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2216 : BitVec 32 := 1#32
  let v2977 : BitVec 32 := Scalar.muli v127 c1_i32_2216
  let v2978 : BitVec 32 := Scalar.addi c0_i32_2217 v2977
  v2978.toNat
def k0_dev37 (d0 : Dev nD) : Nat :=
  let c0_i32_2270 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2269 : BitVec 32 := 1#32
  let v3054 : BitVec 32 := Scalar.muli v127 c1_i32_2269
  let v3055 : BitVec 32 := Scalar.addi c0_i32_2270 v3054
  v3055.toNat
def k0_dev38 (d0 : Dev nD) : Nat :=
  let c0_i32_2323 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2322 : BitVec 32 := 1#32
  let v3131 : BitVec 32 := Scalar.muli v127 c1_i32_2322
  let v3132 : BitVec 32 := Scalar.addi c0_i32_2323 v3131
  v3132.toNat
def k0_dev39 (d0 : Dev nD) : Nat :=
  let c0_i32_2376 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2375 : BitVec 32 := 1#32
  let v3208 : BitVec 32 := Scalar.muli v127 c1_i32_2375
  let v3209 : BitVec 32 := Scalar.addi c0_i32_2376 v3208
  v3209.toNat
def k0_dev40 (d0 : Dev nD) : Nat :=
  let c0_i32_2429 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2428 : BitVec 32 := 1#32
  let v3285 : BitVec 32 := Scalar.muli v127 c1_i32_2428
  let v3286 : BitVec 32 := Scalar.addi c0_i32_2429 v3285
  v3286.toNat
def k0_dev41 (d0 : Dev nD) : Nat :=
  let c0_i32_2482 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2481 : BitVec 32 := 1#32
  let v3362 : BitVec 32 := Scalar.muli v127 c1_i32_2481
  let v3363 : BitVec 32 := Scalar.addi c0_i32_2482 v3362
  v3363.toNat
def k0_dev42 (d0 : Dev nD) : Nat :=
  let c0_i32_2535 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2534 : BitVec 32 := 1#32
  let v3439 : BitVec 32 := Scalar.muli v127 c1_i32_2534
  let v3440 : BitVec 32 := Scalar.addi c0_i32_2535 v3439
  v3440.toNat
def k0_dev43 (d0 : Dev nD) : Nat :=
  let c0_i32_2588 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2587 : BitVec 32 := 1#32
  let v3516 : BitVec 32 := Scalar.muli v127 c1_i32_2587
  let v3517 : BitVec 32 := Scalar.addi c0_i32_2588 v3516
  v3517.toNat
def k0_dev44 (d0 : Dev nD) : Nat :=
  let c0_i32_2641 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2640 : BitVec 32 := 1#32
  let v3593 : BitVec 32 := Scalar.muli v127 c1_i32_2640
  let v3594 : BitVec 32 := Scalar.addi c0_i32_2641 v3593
  v3594.toNat
def k0_dev45 (d0 : Dev nD) : Nat :=
  let c0_i32_2694 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2693 : BitVec 32 := 1#32
  let v3670 : BitVec 32 := Scalar.muli v127 c1_i32_2693
  let v3671 : BitVec 32 := Scalar.addi c0_i32_2694 v3670
  v3671.toNat
def k0_dev46 (d0 : Dev nD) : Nat :=
  let c0_i32_2747 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2746 : BitVec 32 := 1#32
  let v3747 : BitVec 32 := Scalar.muli v127 c1_i32_2746
  let v3748 : BitVec 32 := Scalar.addi c0_i32_2747 v3747
  v3748.toNat
def k0_dev47 (d0 : Dev nD) : Nat :=
  let c0_i32_2800 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2799 : BitVec 32 := 1#32
  let v3824 : BitVec 32 := Scalar.muli v127 c1_i32_2799
  let v3825 : BitVec 32 := Scalar.addi c0_i32_2800 v3824
  v3825.toNat
def k0_dev48 (d0 : Dev nD) : Nat :=
  let c0_i32_2853 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2852 : BitVec 32 := 1#32
  let v3901 : BitVec 32 := Scalar.muli v127 c1_i32_2852
  let v3902 : BitVec 32 := Scalar.addi c0_i32_2853 v3901
  v3902.toNat
def k0_dev49 (d0 : Dev nD) : Nat :=
  let c0_i32_2906 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2905 : BitVec 32 := 1#32
  let v3978 : BitVec 32 := Scalar.muli v127 c1_i32_2905
  let v3979 : BitVec 32 := Scalar.addi c0_i32_2906 v3978
  v3979.toNat
def k0_dev50 (d0 : Dev nD) : Nat :=
  let c0_i32_2959 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_2958 : BitVec 32 := 1#32
  let v4055 : BitVec 32 := Scalar.muli v127 c1_i32_2958
  let v4056 : BitVec 32 := Scalar.addi c0_i32_2959 v4055
  v4056.toNat
def k0_dev51 (d0 : Dev nD) : Nat :=
  let c0_i32_3012 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3011 : BitVec 32 := 1#32
  let v4132 : BitVec 32 := Scalar.muli v127 c1_i32_3011
  let v4133 : BitVec 32 := Scalar.addi c0_i32_3012 v4132
  v4133.toNat
def k0_dev52 (d0 : Dev nD) : Nat :=
  let c0_i32_3065 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3064 : BitVec 32 := 1#32
  let v4209 : BitVec 32 := Scalar.muli v127 c1_i32_3064
  let v4210 : BitVec 32 := Scalar.addi c0_i32_3065 v4209
  v4210.toNat
def k0_dev53 (d0 : Dev nD) : Nat :=
  let c0_i32_3118 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3117 : BitVec 32 := 1#32
  let v4286 : BitVec 32 := Scalar.muli v127 c1_i32_3117
  let v4287 : BitVec 32 := Scalar.addi c0_i32_3118 v4286
  v4287.toNat
def k0_dev54 (d0 : Dev nD) : Nat :=
  let c0_i32_3171 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3170 : BitVec 32 := 1#32
  let v4363 : BitVec 32 := Scalar.muli v127 c1_i32_3170
  let v4364 : BitVec 32 := Scalar.addi c0_i32_3171 v4363
  v4364.toNat
def k0_dev55 (d0 : Dev nD) : Nat :=
  let c0_i32_3224 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3223 : BitVec 32 := 1#32
  let v4440 : BitVec 32 := Scalar.muli v127 c1_i32_3223
  let v4441 : BitVec 32 := Scalar.addi c0_i32_3224 v4440
  v4441.toNat
def k0_dev56 (d0 : Dev nD) : Nat :=
  let c0_i32_3277 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3276 : BitVec 32 := 1#32
  let v4517 : BitVec 32 := Scalar.muli v127 c1_i32_3276
  let v4518 : BitVec 32 := Scalar.addi c0_i32_3277 v4517
  v4518.toNat
def k0_dev57 (d0 : Dev nD) : Nat :=
  let c0_i32_3330 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3329 : BitVec 32 := 1#32
  let v4594 : BitVec 32 := Scalar.muli v127 c1_i32_3329
  let v4595 : BitVec 32 := Scalar.addi c0_i32_3330 v4594
  v4595.toNat
def k0_dev58 (d0 : Dev nD) : Nat :=
  let c0_i32_3383 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3382 : BitVec 32 := 1#32
  let v4671 : BitVec 32 := Scalar.muli v127 c1_i32_3382
  let v4672 : BitVec 32 := Scalar.addi c0_i32_3383 v4671
  v4672.toNat
def k0_dev59 (d0 : Dev nD) : Nat :=
  let c0_i32_3436 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3435 : BitVec 32 := 1#32
  let v4748 : BitVec 32 := Scalar.muli v127 c1_i32_3435
  let v4749 : BitVec 32 := Scalar.addi c0_i32_3436 v4748
  v4749.toNat
def k0_dev60 (d0 : Dev nD) : Nat :=
  let c0_i32_3489 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3488 : BitVec 32 := 1#32
  let v4825 : BitVec 32 := Scalar.muli v127 c1_i32_3488
  let v4826 : BitVec 32 := Scalar.addi c0_i32_3489 v4825
  v4826.toNat
def k0_dev61 (d0 : Dev nD) : Nat :=
  let c0_i32_3542 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3541 : BitVec 32 := 1#32
  let v4902 : BitVec 32 := Scalar.muli v127 c1_i32_3541
  let v4903 : BitVec 32 := Scalar.addi c0_i32_3542 v4902
  v4903.toNat
def k0_dev62 (d0 : Dev nD) : Nat :=
  let c0_i32_3595 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3594 : BitVec 32 := 1#32
  let v4979 : BitVec 32 := Scalar.muli v127 c1_i32_3594
  let v4980 : BitVec 32 := Scalar.addi c0_i32_3595 v4979
  v4980.toNat
def k0_dev63 (d0 : Dev nD) : Nat :=
  let c0_i32_3648 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3647 : BitVec 32 := 1#32
  let v5056 : BitVec 32 := Scalar.muli v127 c1_i32_3647
  let v5057 : BitVec 32 := Scalar.addi c0_i32_3648 v5056
  v5057.toNat
def k0_dev64 (d0 : Dev nD) : Nat :=
  let c0_i32_3701 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.addi v71 c1_i32_29
  let c32_i32_30 : BitVec 32 := 32#32
  let v73 : BitVec 32 := Scalar.remsi v72 c32_i32_30
  let c16_i32 : BitVec 32 := 16#32
  let v74 : BitVec 1 := Scalar.cmpi .sge v73 c16_i32
  let c1_i32_31 : BitVec 32 := 1#32
  let c0_i32_32 : BitVec 32 := 0#32
  let v75 : BitVec 32 := Scalar.select v74 c1_i32_31 c0_i32_32
  let c1_i32_33 : BitVec 32 := 1#32
  let v76 : BitVec 1 := Scalar.cmpi .eq v75 c1_i32_33
  let c31_i32_34 : BitVec 32 := 31#32
  let v77 : BitVec 32 := Scalar.subi c31_i32_34 v73
  let v78 : BitVec 32 := Scalar.select v76 v77 v73
  let c0_i32_36 : BitVec 32 := 0#32
  let v80 : BitVec 1 := Scalar.cmpi .sgt v78 c0_i32_36
  let v81 : BitVec 32 := Scalar.extui v80
  let c0_i32_37 : BitVec 32 := 0#32
  let v82 : BitVec 1 := Scalar.cmpi .slt v78 c0_i32_37
  let v83 : BitVec 32 := Scalar.extui v82
  let v84 : BitVec 32 := Scalar.subi v81 v83
  let c4_i32_35 : BitVec 32 := 4#32
  let c0_i32_38 : BitVec 32 := 0#32
  let v85 : BitVec 1 := Scalar.cmpi .sgt c4_i32_35 c0_i32_38
  let v86 : BitVec 32 := Scalar.extui v85
  let c0_i32_39 : BitVec 32 := 0#32
  let v87 : BitVec 1 := Scalar.cmpi .slt c4_i32_35 c0_i32_39
  let v88 : BitVec 32 := Scalar.extui v87
  let v89 : BitVec 32 := Scalar.subi v86 v88
  let v90 : BitVec 1 := Scalar.cmpi .ne v84 v89
  let v91 : BitVec 32 := Scalar.remsi v78 c4_i32_35
  let c0_i32_40 : BitVec 32 := 0#32
  let v92 : BitVec 1 := Scalar.cmpi .ne v91 c0_i32_40
  let v93 : BitVec 1 := Scalar.andi v90 v92
  let v79 : BitVec 32 := Scalar.divsi v78 c4_i32_35
  let c1_i32_41 : BitVec 32 := 1#32
  let v94 : BitVec 32 := Scalar.subi v79 c1_i32_41
  let v95 : BitVec 32 := Scalar.select v93 v94 v79
  let v124 : BitVec 32 := Scalar.muli c8_i32_59 v95
  let c2_i32_60 : BitVec 32 := 2#32
  let c2_i32_43 : BitVec 32 := 2#32
  let c0_i32_44 : BitVec 32 := 0#32
  let v98 : BitVec 1 := Scalar.cmpi .eq c2_i32_43 c0_i32_44
  let c1_i32_45 : BitVec 32 := 1#32
  let v99 : BitVec 32 := Scalar.select v98 c1_i32_45 c2_i32_43
  let v100 : BitVec 32 := Scalar.remsi v95 v99
  let c0_i32_47 : BitVec 32 := 0#32
  let v102 : BitVec 1 := Scalar.cmpi .slt v100 c0_i32_47
  let c0_i32_48 : BitVec 32 := 0#32
  let v103 : BitVec 1 := Scalar.cmpi .slt v99 c0_i32_48
  let v104 : BitVec 1 := Scalar.xori v102 v103
  let c0_i32_46 : BitVec 32 := 0#32
  let v101 : BitVec 1 := Scalar.cmpi .ne v100 c0_i32_46
  let v105 : BitVec 1 := Scalar.andi v104 v101
  let v106 : BitVec 32 := Scalar.addi v100 v99
  let v107 : BitVec 32 := Scalar.select v105 v106 v100
  let c0_i32_49 : BitVec 32 := 0#32
  let v108 : BitVec 1 := Scalar.cmpi .eq v107 c0_i32_49
  let c4_i32_42 : BitVec 32 := 4#32
  let v96 : BitVec 32 := Scalar.muli c4_i32_42 v95
  let v97 : BitVec 32 := Scalar.subi v78 v96
  let c3_i32_50 : BitVec 32 := 3#32
  let v109 : BitVec 32 := Scalar.subi c3_i32_50 v97
  let v110 : BitVec 32 := Scalar.select v108 v97 v109
  let v125 : BitVec 32 := Scalar.muli c2_i32_60 v110
  let v126 : BitVec 32 := Scalar.addi v124 v125
  let c2_i32_51 : BitVec 32 := 2#32
  let c0_i32_52 : BitVec 32 := 0#32
  let v111 : BitVec 1 := Scalar.cmpi .eq c2_i32_51 c0_i32_52
  let c1_i32_53 : BitVec 32 := 1#32
  let v112 : BitVec 32 := Scalar.select v111 c1_i32_53 c2_i32_51
  let v113 : BitVec 32 := Scalar.remsi v110 v112
  let c0_i32_55 : BitVec 32 := 0#32
  let v115 : BitVec 1 := Scalar.cmpi .slt v113 c0_i32_55
  let c0_i32_56 : BitVec 32 := 0#32
  let v116 : BitVec 1 := Scalar.cmpi .slt v112 c0_i32_56
  let v117 : BitVec 1 := Scalar.xori v115 v116
  let c0_i32_54 : BitVec 32 := 0#32
  let v114 : BitVec 1 := Scalar.cmpi .ne v113 c0_i32_54
  let v118 : BitVec 1 := Scalar.andi v117 v114
  let v119 : BitVec 32 := Scalar.addi v113 v112
  let v120 : BitVec 32 := Scalar.select v118 v119 v113
  let c0_i32_57 : BitVec 32 := 0#32
  let v121 : BitVec 1 := Scalar.cmpi .eq v120 c0_i32_57
  let c1_i32_58 : BitVec 32 := 1#32
  let v122 : BitVec 32 := Scalar.subi c1_i32_58 v75
  let v123 : BitVec 32 := Scalar.select v121 v75 v122
  let v127 : BitVec 32 := Scalar.addi v126 v123
  let c1_i32_3700 : BitVec 32 := 1#32
  let v5133 : BitVec 32 := Scalar.muli v127 c1_i32_3700
  let v5134 : BitVec 32 := Scalar.addi c0_i32_3701 v5133
  v5134.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  bitsLt_bf16_f32 : FTy.bits .bf16 < FTy.bits .f32
  h_S1x1x512x256 : 0 < S1x1x512x256.numel
  shapeCasts_S1x1x512x256_S512x256 : S1x1x512x256.ShapeCasts S512x256
  shapeCasts_S512x256_S1x1x512x256 : S512x256.ShapeCasts S1x1x512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  hamt_1 : (1#32 : BitVec 32).msb = false
  hamt_2 : (2#32 : BitVec 32).msb = false
  inb_S31_S1_0 : ∀ a, (![0] : Fin 1 → Nat) a + S1.size a ≤ S31.size a
  squeezes_S1_S_ : S1.Squeezes S_
  squeezes_S1x6x512x256_S6x512x256 : S1x6x512x256.Squeezes S6x512x256
  inb_S31_S1_1 : ∀ a, (![1] : Fin 1 → Nat) a + S1.size a ≤ S31.size a
  inb_S31_S1_2 : ∀ a, (![2] : Fin 1 → Nat) a + S1.size a ≤ S31.size a
  inb_S31_S1_3 : ∀ a, (![3] : Fin 1 → Nat) a + S1.size a ≤ S31.size a
  inb_S31_S1_4 : ∀ a, (![4] : Fin 1 → Nat) a + S1.size a ≤ S31.size a
  inb_S31_S1_5 : ∀ a, (![5] : Fin 1 → Nat) a + S1.size a ≤ S31.size a
  inb_S31_S1_6 : ∀ a, (![6] : Fin 1 → Nat) a + S1.size a ≤ S31.size a
  inb_S31_S1_7 : ∀ a, (![7] : Fin 1 → Nat) a + S1.size a ≤ S31.size a
  inb_S31_S1_8 : ∀ a, (![8] : Fin 1 → Nat) a + S1.size a ≤ S31.size a
  inb_S31_S1_9 : ∀ a, (![9] : Fin 1 → Nat) a + S1.size a ≤ S31.size a
  inb_S31_S1_10 : ∀ a, (![10] : Fin 1 → Nat) a + S1.size a ≤ S31.size a
  inb_S31_S1_11 : ∀ a, (![11] : Fin 1 → Nat) a + S1.size a ≤ S31.size a
  inb_S31_S1_12 : ∀ a, (![12] : Fin 1 → Nat) a + S1.size a ≤ S31.size a
  inb_S31_S1_13 : ∀ a, (![13] : Fin 1 → Nat) a + S1.size a ≤ S31.size a
  inb_S31_S1_14 : ∀ a, (![14] : Fin 1 → Nat) a + S1.size a ≤ S31.size a
  inb_S31_S1_15 : ∀ a, (![15] : Fin 1 → Nat) a + S1.size a ≤ S31.size a
  inb_S31_S1_16 : ∀ a, (![16] : Fin 1 → Nat) a + S1.size a ≤ S31.size a
  inb_S31_S1_17 : ∀ a, (![17] : Fin 1 → Nat) a + S1.size a ≤ S31.size a
  inb_S31_S1_18 : ∀ a, (![18] : Fin 1 → Nat) a + S1.size a ≤ S31.size a
  inb_S31_S1_19 : ∀ a, (![19] : Fin 1 → Nat) a + S1.size a ≤ S31.size a
  inb_S31_S1_20 : ∀ a, (![20] : Fin 1 → Nat) a + S1.size a ≤ S31.size a
  inb_S31_S1_21 : ∀ a, (![21] : Fin 1 → Nat) a + S1.size a ≤ S31.size a
  inb_S31_S1_22 : ∀ a, (![22] : Fin 1 → Nat) a + S1.size a ≤ S31.size a
  inb_S31_S1_23 : ∀ a, (![23] : Fin 1 → Nat) a + S1.size a ≤ S31.size a
  inb_S31_S1_24 : ∀ a, (![24] : Fin 1 → Nat) a + S1.size a ≤ S31.size a
  inb_S31_S1_25 : ∀ a, (![25] : Fin 1 → Nat) a + S1.size a ≤ S31.size a
  inb_S31_S1_26 : ∀ a, (![26] : Fin 1 → Nat) a + S1.size a ≤ S31.size a
  inb_S31_S1_27 : ∀ a, (![27] : Fin 1 → Nat) a + S1.size a ≤ S31.size a
  inb_S31_S1_28 : ∀ a, (![28] : Fin 1 → Nat) a + S1.size a ≤ S31.size a
  inb_S31_S1_29 : ∀ a, (![29] : Fin 1 → Nat) a + S1.size a ≤ S31.size a
  inb_S31_S1_30 : ∀ a, (![30] : Fin 1 → Nat) a + S1.size a ≤ S31.size a
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  hcc0_scratch1 : 8 + S31.numel ≤ 132
  hcc0_scratch2 : 39 + S31.numel ≤ 132
  hcc0_scratch3 : 70 + S31.numel ≤ 132
  hcc0_scratch4 : 101 + S31.numel ≤ 132
  k0_off1_inb : ∀ d0 : Dev nD, ∀ a, (k0_off1 d0) a + S1x1x512x256.size a ≤ S32x6x512x256.size a
  k0_off1_packedbf16 : ∀ d0 : Dev nD, (Rect.unit (s := S32x6x512x256) (k0_off1 d0) S1x1x512x256.size (k0_off1_inb d0)).PackedRows (EltTy.packing .bf16)
  k0_off2_inb : ∀ d0 : Dev nD, ∀ a, (k0_off2 d0) a + S1x1x512x256.size a ≤ S32x6x512x256.size a
  k0_off2_packedbf16 : ∀ d0 : Dev nD, (Rect.unit (s := S32x6x512x256) (k0_off2 d0) S1x1x512x256.size (k0_off2_inb d0)).PackedRows (EltTy.packing .bf16)
  k0_off3_inb : ∀ d0 : Dev nD, ∀ a, (k0_off3 d0) a + S1x1x512x256.size a ≤ S32x6x512x256.size a
  k0_off3_packedbf16 : ∀ d0 : Dev nD, (Rect.unit (s := S32x6x512x256) (k0_off3 d0) S1x1x512x256.size (k0_off3_inb d0)).PackedRows (EltTy.packing .bf16)
  k0_off4_inb : ∀ d0 : Dev nD, ∀ a, (k0_off4 d0) a + S1x1x512x256.size a ≤ S32x6x512x256.size a
  k0_off4_packedbf16 : ∀ d0 : Dev nD, (Rect.unit (s := S32x6x512x256) (k0_off4 d0) S1x1x512x256.size (k0_off4_inb d0)).PackedRows (EltTy.packing .bf16)
  k0_off5_inb : ∀ d0 : Dev nD, ∀ a, (k0_off5 d0) a + S1x1x512x256.size a ≤ S32x6x512x256.size a
  k0_off5_packedbf16 : ∀ d0 : Dev nD, (Rect.unit (s := S32x6x512x256) (k0_off5 d0) S1x1x512x256.size (k0_off5_inb d0)).PackedRows (EltTy.packing .bf16)
  k0_off6_inb : ∀ d0 : Dev nD, ∀ a, (k0_off6 d0) a + S1x1x512x256.size a ≤ S32x6x512x256.size a
  k0_off6_packedbf16 : ∀ d0 : Dev nD, (Rect.unit (s := S32x6x512x256) (k0_off6 d0) S1x1x512x256.size (k0_off6_inb d0)).PackedRows (EltTy.packing .bf16)
  k0_dev1_lt : ∀ d0 : Dev nD, (k0_dev1 d0) < nD
  k0_dev2_lt : ∀ d0 : Dev nD, (k0_dev2 d0) < nD
  k0_off7_inb : ∀ d0 : Dev nD, ∀ (r : Fin 31), ∀ a, (k0_off7 d0 (BitVec.ofNat 32 r.val)) a + S1x6x512x256.size a ≤ S32x6x512x256.size a
  k0_off7_wordsbf16 : ∀ d0 : Dev nD, ∀ (r : Fin 31), (Rect.unit (s := S32x6x512x256) (k0_off7 d0 (BitVec.ofNat 32 r.val)) S1x6x512x256.size (k0_off7_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_t1_ok : k0_t1_loop.OK
  k0_off8_inb : ∀ k0_t1 : Fin k0_t1_loop.trips, ∀ a, (k0_off8 k0_t1) a + S1x1x512x256.size a ≤ S32x6x512x256.size a
  k0_off9_inb : ∀ k0_t1 : Fin k0_t1_loop.trips, ∀ a, (k0_off9 k0_t1) a + S1x1x512x256.size a ≤ S32x6x512x256.size a
  k0_t2_ok : k0_t2_loop.OK
  k0_off10_inb : ∀ k0_t2 : Fin k0_t2_loop.trips, ∀ a, (k0_off10 k0_t2) a + S1x1x512x256.size a ≤ S32x6x512x256.size a
  k0_off11_inb : ∀ k0_t2 : Fin k0_t2_loop.trips, ∀ a, (k0_off11 k0_t2) a + S1x1x512x256.size a ≤ S32x6x512x256.size a
  k0_t3_ok : k0_t3_loop.OK
  k0_off12_inb : ∀ k0_t3 : Fin k0_t3_loop.trips, ∀ a, (k0_off12 k0_t3) a + S1x1x512x256.size a ≤ S32x6x512x256.size a
  k0_off13_inb : ∀ k0_t3 : Fin k0_t3_loop.trips, ∀ a, (k0_off13 k0_t3) a + S1x1x512x256.size a ≤ S32x6x512x256.size a
  k0_off14_inb : ∀ d0 : Dev nD, ∀ a, (k0_off14 d0) a + S512x256.size a ≤ S16384x256.size a
  k0_off14_packedbf16 : ∀ d0 : Dev nD, (Rect.unit (s := S16384x256) (k0_off14 d0) S512x256.size (k0_off14_inb d0)).PackedRows (EltTy.packing .bf16)
  k0_off15_inb : ∀ d0 : Dev nD, ∀ (r : Fin 31), ∀ a, (k0_off15 d0 (BitVec.ofNat 32 r.val)) a + S512x256.size a ≤ S16384x256.size a
  k0_off15_wordsbf16 : ∀ d0 : Dev nD, ∀ (r : Fin 31), (Rect.unit (s := S16384x256) (k0_off15 d0 (BitVec.ofNat 32 r.val)) S512x256.size (k0_off15_inb d0 r)).WholeWords (EltTy.packing .bf16)
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch1 : DmaSems sig S31 := SemArray.consecutive 8 S31 hcc0_scratch1
abbrev cc0_scratch2 : DmaSems sig S31 := SemArray.consecutive 39 S31 hcc0_scratch2
abbrev cc0_scratch3 : DmaSems sig S31 := SemArray.consecutive 70 S31 hcc0_scratch3
abbrev cc0_scratch4 : DmaSems sig S31 := SemArray.consecutive 101 S31 hcc0_scratch4
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x16384, .f32⟩
  | .hbm, ⟨2, _⟩ => ⟨S16384x256, .f32⟩
  | .hbm, ⟨3, _⟩ => ⟨S256x16384, .f32⟩
  | .hbm, ⟨4, _⟩ => ⟨S16384x256, .f32⟩
  | .hbm, ⟨5, _⟩ => ⟨S256x16384, .f32⟩
  | .hbm, ⟨6, _⟩ => ⟨S16384x256, .f32⟩
  | .hbm, ⟨7, _⟩ => ⟨S16384x16384, .f32⟩
  | .hbm, ⟨8, _⟩ => ⟨S_, .f32⟩
  | .hbm, ⟨9, _⟩ => ⟨S16384x16384, .f32⟩
  | .hbm, ⟨10, _⟩ => ⟨S16384x16384, .f32⟩
  | .hbm, ⟨11, _⟩ => ⟨S16384x256, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x256, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x256, .f32⟩
  | .hbm, ⟨22, _⟩ => ⟨S16384x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  bitsLt_bf16_f32 : FTy.bits .bf16 < FTy.bits .f32
  dot_S16384x256_S256x16384_S16384x16384_1_0_0_1_n_n_wf : DotDims.WF S16384x256 S256x16384 S16384x16384 [1] [0] [0] [1] [] []
  dot_S16384x16384_S16384x256_S16384x256_1_0_0_1_n_n_wf : DotDims.WF S16384x16384 S16384x256 S16384x256 [1] [0] [0] [1] [] []

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.RefFrame.lean ====
import proofs.«900986_g7700000000000987_dist_mlpseq_tp1d_bs_rep_b512_d256_h512_v7x_i32_bf16_1_alg».proof.Defs
import proofs.«900986_g7700000000000987_dist_mlpseq_tp1d_bs_rep_b512_d256_h512_v7x_i32_bf16_1_alg».proof.Proof.Gen.ReferenceIdeal
import proofs.«900986_g7700000000000987_dist_mlpseq_tp1d_bs_rep_b512_d256_h512_v7x_i32_bf16_1_alg».proof.Proof.Gen.ReferenceIdeal.Run
import proofs.«900986_g7700000000000987_dist_mlpseq_tp1d_bs_rep_b512_d256_h512_v7x_i32_bf16_1_alg».proof.Proof.Gen.ReferenceIdeal.Read
import proofs.«900986_g7700000000000987_dist_mlpseq_tp1d_bs_rep_b512_d256_h512_v7x_i32_bf16_1_alg».proof.Proof.Gen.Pre_finite_inputs_ReferenceIdeal

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RM.Vals.lean ====
import proofs.«900986_g7700000000000987_dist_mlpseq_tp1d_bs_rep_b512_d256_h512_v7x_i32_bf16_1_alg».proof.Proof.Gen.KernelIdeal.Skeleton
import Idealize.ShloMosaic.Lib.ValueIdx

noncomputable section

namespace Cert.KernelIdeal.RM

open Idealize.ShloMosaic Idealize.SL.Sem Idealize.ShloMosaic.ValueIdx

variable {F : FTy → Type} [FloatOps F]

def piece (m : (ℓ : Loc nD τ sig) → Buf (Elt F) ℓ) (j : Dev nD) (l : Fin 6) : FVec F S1x1x512x256 .bf16 :=
  match l with
  | ⟨0, _⟩ => Gen.k0_pay2 (Gen.k0_pay1 (m ((j.tc : Thread nD τ).loc main_arg1)))
  | ⟨1, _⟩ => Gen.k0_pay3 (m ((j.tc : Thread nD τ).loc main_arg3))
  | ⟨2, _⟩ => Gen.k0_pay4 (m ((j.tc : Thread nD τ).loc main_arg5))
  | ⟨3, _⟩ => Gen.k0_pay5 (m ((j.tc : Thread nD τ).loc main_arg2))
  | ⟨4, _⟩ => Gen.k0_pay6 (m ((j.tc : Thread nD τ).loc main_arg4))
  | ⟨5, _⟩ => Gen.k0_pay7 (m ((j.tc : Thread nD τ).loc main_arg6))

def wallFinal (m : (ℓ : Loc nD τ sig) → Buf (Elt F) ℓ) : (cc0_scratch0 : Ref sig .tc).ty.Contents (Elt F) :=
  fun (i : S32x6x512x256.Idx) =>
    piece m ⟨(i 0).val, (i 0).isLt⟩ ⟨(i 1).val, (i 1).isLt⟩
      (ix4 (0 : Fin 1) (0 : Fin 1) (⟨(i 2).val, (i 2).isLt⟩ : Fin 512) (⟨(i 3).val, (i 3).isLt⟩ : Fin 256))

theorem wallFinal_apply (m : (ℓ : Loc nD τ sig) → Buf (Elt F) ℓ) (t : Fin 32) (l : Fin 6) (p : Fin 512) (q : Fin 256) :
    wallFinal m (ix4 t l p q) = piece m t l (ix4 (0 : Fin 1) (0 : Fin 1) p q) := rfl

theorem rd_inb (t : ℕ) (ht : t < 32) (l : Fin 6) :
    ∀ a, (![t, l.val, 0, 0] : Fin 4 → ℕ) a + S1x1x512x256.size a ≤ S32x6x512x256.size a := by
  intro a
  have hl := l.isLt
  match a with
  | ⟨0, _⟩ => show t + 1 ≤ 32; omega
  | ⟨1, _⟩ => show l.val + 1 ≤ 6; omega
  | ⟨2, _⟩ => show 0 + 512 ≤ 512; omega
  | ⟨3, _⟩ => show 0 + 256 ≤ 256; omega

def rd (m : (ℓ : Loc nD τ sig) → Buf (Elt F) ℓ) (t : ℕ) (l : Fin 6) : Vec F S1x1x512x256 .bf16 :=
  if ht : t < 32 then
    (Memref.whole cc0_scratch0 : Memref sig .tc .vmem S32x6x512x256 .bf16).view.readAt (Elt F)
      (Rect.unit (s := S32x6x512x256) ![t, l.val, 0, 0] S1x1x512x256.size (rd_inb t ht l)).toLoadRect (wallFinal m)
  else piece m 0 l

theorem rd_of_lt (m : (ℓ : Loc nD τ sig) → Buf (Elt F) ℓ) (t : ℕ) (ht : t < 32) (l : Fin 6) :
    rd m t l = (Memref.whole cc0_scratch0 : Memref sig .tc .vmem S32x6x512x256 .bf16).view.readAt (Elt F)
      (Rect.unit (s := S32x6x512x256) ![t, l.val, 0, 0] S1x1x512x256.size (rd_inb t ht l)).toLoadRect (wallFinal m) :=
  dif_pos ht

theorem rd_apply (m : (ℓ : Loc nD τ sig) → Buf (Elt F) ℓ) (t : ℕ) (ht : t < 32) (l : Fin 6) :
    rd m t l = piece m ⟨t, ht⟩ l := by
  rw [rd_of_lt m t ht l]
  funext x
  obtain ⟨a, b, p, q, rfl⟩ : ∃ (a : Fin 1) (b : Fin 1) (p : Fin 512) (q : Fin 256), x = ix4 a b p q :=
    ⟨x 0, x 1, x 2, x 3, eq_ix4 x⟩
  obtain rfl : a = 0 := Subsingleton.elim _ _
  obtain rfl : b = 0 := Subsingleton.elim _ _
  show wallFinal m _ = _
  have hidx : (Rect.unit (s := S32x6x512x256) ![t, l.val, 0, 0] S1x1x512x256.size (rd_inb t ht l)).toLoadRect.idx
      (ix4 (0 : Fin 1) (0 : Fin 1) p q) = ix4 (⟨t, ht⟩ : Fin 32) l p q := by
    funext c
    match c with
    | ⟨0, _⟩ => exact Fin.ext (show t + 1 * 0 = t by omega)
    | ⟨1, _⟩ => exact Fin.ext (show l.val + 1 * 0 = l.val by omega)
    | ⟨2, _⟩ => exact Fin.ext (show 0 + 1 * p.val = p.val by omega)
    | ⟨3, _⟩ => exact Fin.ext (show 0 + 1 * q.val = q.val by omega)
  exact (congrArg (wallFinal m) hidx).trans (wallFinal_apply m ⟨t, ht⟩ l p q)

def accN (m : (ℓ : Loc nD τ sig) → Buf (Elt F) ℓ)
    (pay : FVec F S512x256 .f32 → Vec F S1x1x512x256 .bf16 → Vec F S1x1x512x256 .bf16 → FVec F S512x256 .f32)
    (l : Fin 3) : ℕ → FVec F S512x256 .f32
  | 0 => Gen.k0_pay8
  | n + 1 => pay (accN m pay l n) (rd m n ⟨l.val, by omega⟩) (rd m n ⟨l.val + 3, by omega⟩)

theorem accN_zero (m : (ℓ : Loc nD τ sig) → Buf (Elt F) ℓ)
    (pay : FVec F S512x256 .f32 → Vec F S1x1x512x256 .bf16 → Vec F S1x1x512x256 .bf16 → FVec F S512x256 .f32)
    (l : Fin 3) : accN m pay l 0 = Gen.k0_pay8 := rfl

theorem accN_succ (m : (ℓ : Loc nD τ sig) → Buf (Elt F) ℓ)
    (pay : FVec F S512x256 .f32 → Vec F S1x1x512x256 .bf16 → Vec F S1x1x512x256 .bf16 → FVec F S512x256 .f32)
    (l : Fin 3) (n : ℕ) :
    accN m pay l (n + 1) = pay (accN m pay l n) (rd m n ⟨l.val, by omega⟩) (rd m n ⟨l.val + 3, by omega⟩) := rfl

def y1 (m : (ℓ : Loc nD τ sig) → Buf (Elt F) ℓ) (j : Dev nD) : FVec F S512x256 .f32 :=
  accN m (fun acc a b => Gen.k0_pay9 (m ((j.tc : Thread nD τ).loc main_arg0)) acc a b) 0 32

def y2 (m : (ℓ : Loc nD τ sig) → Buf (Elt F) ℓ) (j : Dev nD) : FVec F S512x256 .f32 :=
  accN m (fun acc a b => Gen.k0_pay11 (y1 m j) acc a b) 1 32

def y3 (m : (ℓ : Loc nD τ sig) → Buf (Elt F) ℓ) (j : Dev nD) : FVec F S512x256 .f32 :=
  accN m (fun acc a b => Gen.k0_pay13 (y2 m j) acc a b) 2 32

def yblk (m : (ℓ : Loc nD τ sig) → Buf (Elt F) ℓ) (j : Dev nD) : FVec F S512x256 .bf16 :=
  Gen.k0_pay14 (y3 m j)

theorem outFinal_row_lt (r : ℕ) (hr : r < 16384) : r / 512 < 32 := by omega

def outFinal (m : (ℓ : Loc nD τ sig) → Buf (Elt F) ℓ) : (cc0_stg7_0 : Ref sig .tc).ty.Contents (Elt F) :=
  fun (i : S16384x256.Idx) =>
    yblk m ⟨(i 0).val / 512, outFinal_row_lt _ (i 0).isLt⟩
      (ix2 (⟨(i 0).val % 512, Nat.mod_lt _ (by norm_num)⟩ : Fin 512) (⟨(i 1).val, (i 1).isLt⟩ : Fin 256))

theorem outFinal_apply (m : (ℓ : Loc nD τ sig) → Buf (Elt F) ℓ) (r : Fin 16384) (q : Fin 256) :
    outFinal m (ix2 r q) = yblk m ⟨r.val / 512, outFinal_row_lt _ r.isLt⟩
      (ix2 (⟨r.val % 512, Nat.mod_lt _ (by norm_num)⟩ : Fin 512) q) := rfl

end Cert.KernelIdeal.RM

end
-- ==== Proof.RM.Value.lean ====
import proofs.«900986_g7700000000000987_dist_mlpseq_tp1d_bs_rep_b512_d256_h512_v7x_i32_bf16_1_alg».proof.Proof.RM.Vals
import proofs.«900986_g7700000000000987_dist_mlpseq_tp1d_bs_rep_b512_d256_h512_v7x_i32_bf16_1_alg».proof.Defs
import proofs.«900986_g7700000000000987_dist_mlpseq_tp1d_bs_rep_b512_d256_h512_v7x_i32_bf16_1_alg».proof.Proof.Gen.ReferenceIdeal.Run
import proofs.«900986_g7700000000000987_dist_mlpseq_tp1d_bs_rep_b512_d256_h512_v7x_i32_bf16_1_alg».proof.Proof.Gen.ReferenceIdeal.Read
import Idealize.ShloMosaic.PureOps.Ideal.Laws
import Idealize.ShloMosaic.Lib.ValueIdx
import Idealize.ShloMosaic.Lib.Layout
import Idealize.ShloMosaic.Lib.Pipeline.Value
import Idealize.ShloMosaic.Lib.ValueLayout
import Mathlib.Logic.Equiv.Fin.Basic
import Mathlib.Algebra.BigOperators.Fin

noncomputable section

namespace Cert.KernelIdeal.RM

open Idealize.ShloMosaic Idealize.SL.Sem Idealize.ShloMosaic.ValueIdx Cert.ReferenceIdeal.Read
open scoped BigOperators

-- The row-major position of `(0, 0, i, j)` in `[1, 1, a, b]` is that of `(i, j)` in `[a, b]`.
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  congrArg x (reshapeEquiv_ix2_11ab h i j)

-- The cast back undoes the cast.
theorem shapeCast_ab_11ab_apply {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  (shapeCast_11ab_ab_apply _ h.symm i j).symm.trans (congrFun (shapeCast_shapeCast x h h.symm) _)

-- An input-weight piece is the transpose of its column block.
theorem payT_apply (W : Vec Ideal S256x512 .f32) (p : Fin 512) (d : Fin 256) :
    Gen.k0_pay3 (F := Ideal) W (ix4 (0 : Fin 1) (0 : Fin 1) p d) = W (ix2 d p) := by
  unfold Gen.k0_pay3
  rw [shapeCast_ab_11ab_apply, truncf_apply, transpose_ix2_apply, shapeCast_self]

-- An output-weight piece is its row block.
theorem payR_apply (W : Vec Ideal S512x256 .f32) (p : Fin 512) (q : Fin 256) :
    Gen.k0_pay5 (F := Ideal) W (ix4 (0 : Fin 1) (0 : Fin 1) p q) = W (ix2 p q) := by
  unfold Gen.k0_pay5
  rw [shapeCast_ab_11ab_apply, truncf_apply, shapeCast_self]

-- Rows of `x` against rows of `w`: the one contracted axis is the second of both.
theorem mm1_apply (x w : FVec Ideal S512x256 .bf16) (r p : Fin 512) :
    matmul dot_S512x256_S512x256_S512x512_1_1_0_0_n_n none x w (constant S512x512 .f32 0x00000000#32) (ix2 r p)
      = ∑ d : Fin 256, x (ix2 r d) * w (ix2 p d) := by
  simp only [matmul]
  rw [Ideal.matmul_constant_zero_apply, ← Equiv.sum_comp (contrEquiv1 dot_S512x256_S512x256_S512x512_1_1_0_0_n_n 256 rfl rfl).symm]
  exact Finset.sum_congr rfl fun k _ => congrArg₂ (fun a b => x a * w b) (Shape.idx_ext₂ rfl rfl) (Shape.idx_ext₂ rfl rfl)

-- Rows of `h` against columns of `w`.
theorem mm2_apply (h : FVec Ideal S512x512 .bf16) (w : FVec Ideal S512x256 .bf16) (r : Fin 512) (q : Fin 256) :
    matmul dot_S512x512_S512x256_S512x256_1_0_0_1_n_n none h w (constant S512x256 .f32 0x00000000#32) (ix2 r q)
      = ∑ p : Fin 512, h (ix2 r p) * w (ix2 p q) := by
  simp only [matmul]
  rw [Ideal.matmul_constant_zero_apply, ← Equiv.sum_comp (contrEquiv1 dot_S512x512_S512x256_S512x256_1_0_0_1_n_n 512 rfl rfl).symm]
  exact Finset.sum_congr rfl fun k _ => congrArg₂ (fun a b => h a * w b) (Shape.idx_ext₂ rfl rfl) (Shape.idx_ext₂ rfl rfl)

variable (m : (ℓ : Loc nD τ sig) → Buf (Elt Ideal) ℓ)

-- Step `t` adds `∑ p, max (∑ d, Z[r, d] · aₜ[p, d]) 0 · bₜ[p, q]` to a zero start.
theorem accN_apply (Z : FVec Ideal S512x256 .f32) (l : Fin 3) (n : ℕ) (r : Fin 512) (q : Fin 256) :
    accN m (Gen.k0_pay11 Z) l n (ix2 r q)
      = ∑ t ∈ Finset.range n, ∑ p : Fin 512,
          max (∑ d : Fin 256, (Z (ix2 r d) : EReal) * rd m t ⟨l.val, by omega⟩ (ix4 (0 : Fin 1) (0 : Fin 1) p d))
              (Ideal.ofBits .f32 0x00000000#32)
            * rd m t ⟨l.val + 3, by omega⟩ (ix4 (0 : Fin 1) (0 : Fin 1) p q) := by
  induction n with
  | zero => exact Ideal.ofBits_zero_f32
  | succ n ih =>
    rw [accN_succ, Finset.sum_range_succ, ← ih]
    unfold Gen.k0_pay11
    rw [addf_apply, mm2_apply]
    refine congrArg (_ + ·) (Finset.sum_congr rfl fun p _ => ?_)
    rw [truncf_apply, maximumf_apply, mm1_apply, shapeCast_11ab_ab_apply]
    refine congrArg (fun s : EReal => max s _ * _) (Finset.sum_congr rfl fun d _ => ?_)
    rw [truncf_apply, shapeCast_11ab_ab_apply]

-- The index `k < 16384` regrouped as `512 t + p`.
theorem sum_blocks {M : Type} [AddCommMonoid M] (g : Fin 16384 → M) :
    ∑ k, g k = ∑ t : Fin 32, ∑ p : Fin 512, g ⟨t.val * 512 + p.val, by omega⟩ := by
  rw [← (finProdFinEquiv (m := 32) (n := 512)).sum_comp g, Fintype.sum_prod_type]
  exact Finset.sum_congr rfl fun t _ => Finset.sum_congr rfl fun p _ => congrArg g (Fin.ext (by
    show p.val + 512 * t.val = t.val * 512 + p.val
    omega))

-- A layer is row-local, and its hidden index `k < 16384` splits into 32 blocks of 512.
theorem layer_eq (l : Fin 3) (Z : FVec Ideal S512x256 .f32) (Z' A B) (c : Fin 32)
    (hA : ∀ t : Fin 32, piece m t ⟨l.val, by omega⟩ = Gen.k0_pay3 (Layout.block ⟨2, ![256, 512]⟩ ⟨2, ![256, 16384]⟩ 1 32 t A))
    (hB : ∀ t : Fin 32, piece m t ⟨l.val + 3, by omega⟩ = Gen.k0_pay5 (Layout.block ⟨2, ![512, 256]⟩ ⟨2, ![16384, 256]⟩ 0 32 t B))
    (hZ : Z = Layout.block ⟨2, ![512, 256]⟩ ⟨2, ![16384, 256]⟩ 0 32 c Z') :
    accN m (Gen.k0_pay11 Z) l 32 = Layout.block ⟨2, ![512, 256]⟩ ⟨2, ![16384, 256]⟩ 0 32 c (val_main_v3 (F := Ideal) Z' A B) := by
  funext i
  obtain ⟨r, q, rfl⟩ : ∃ (r : Fin 512) (q : Fin 256), i = ix2 r q := ⟨i 0, i 1, eq_ix2 i⟩
  rw [accN_apply, Finset.sum_range, Layout.block_apply, val_main_v3_apply, sum_blocks, hZ]
  refine Finset.sum_congr rfl fun t _ => Finset.sum_congr rfl fun p _ => ?_
  rw [rd_apply m t t.isLt, rd_apply m t t.isLt, hA, hB, payR_apply, val_main_v2_apply, val_main_v0_apply, val_main_v1_apply,
    val_main_cst_apply]
  simp only [payT_apply]
  exact congrArg₂ (fun s b => max s _ * b)
    (Finset.sum_congr rfl fun d _ => congrArg₂ (fun a b => Z' a * A b) (Shape.idx_ext₂ rfl rfl) (Shape.idx_ext₂ rfl rfl))
    (congrArg B (Shape.idx_ext₂ rfl rfl))

-- After each layer row block `c` is row block `c` of the reference's layer; row `R` is row `R % 512` of block `R / 512`.
theorem outFinal_eq_ref
    (m' : (ℓ : Loc Cert.ReferenceIdeal.nD Cert.ReferenceIdeal.τ Cert.ReferenceIdeal.sig) → Buf (Elt Ideal) ℓ)
    (hagree : ∀ c : Dev nD,
      m (c.tc.loc main_arg0) = Layout.block ⟨2, ![512, 256]⟩ ⟨2, ![16384, 256]⟩ 0 32 c (m' ((Dev.tc 0).loc Cert.ReferenceIdeal.main_arg0))
      ∧ m (c.tc.loc main_arg1) = Layout.block ⟨2, ![256, 512]⟩ ⟨2, ![256, 16384]⟩ 1 32 c (m' ((Dev.tc 0).loc Cert.ReferenceIdeal.main_arg1))
      ∧ m (c.tc.loc main_arg2) = Layout.block ⟨2, ![512, 256]⟩ ⟨2, ![16384, 256]⟩ 0 32 c (m' ((Dev.tc 0).loc Cert.ReferenceIdeal.main_arg2))
      ∧ m (c.tc.loc main_arg3) = Layout.block ⟨2, ![256, 512]⟩ ⟨2, ![256, 16384]⟩ 1 32 c (m' ((Dev.tc 0).loc Cert.ReferenceIdeal.main_arg3))
      ∧ m (c.tc.loc main_arg4) = Layout.block ⟨2, ![512, 256]⟩ ⟨2, ![16384, 256]⟩ 0 32 c (m' ((Dev.tc 0).loc Cert.ReferenceIdeal.main_arg4))
      ∧ m (c.tc.loc main_arg5) = Layout.block ⟨2, ![256, 512]⟩ ⟨2, ![256, 16384]⟩ 1 32 c (m' ((Dev.tc 0).loc Cert.ReferenceIdeal.main_arg5))
      ∧ m (c.tc.loc main_arg6) = Layout.block ⟨2, ![512, 256]⟩ ⟨2, ![16384, 256]⟩ 0 32 c (m' ((Dev.tc 0).loc Cert.ReferenceIdeal.main_arg6))) :
    outFinal m = val_main_v12 (m' ((Dev.tc 0).loc Cert.ReferenceIdeal.main_arg0)) (m' ((Dev.tc 0).loc Cert.ReferenceIdeal.main_arg1)) (m' ((Dev.tc 0).loc Cert.ReferenceIdeal.main_arg2)) (m' ((Dev.tc 0).loc Cert.ReferenceIdeal.main_arg3)) (m' ((Dev.tc 0).loc Cert.ReferenceIdeal.main_arg4)) (m' ((Dev.tc 0).loc Cert.ReferenceIdeal.main_arg5)) (m' ((Dev.tc 0).loc Cert.ReferenceIdeal.main_arg6)) := by
  have h1 : ∀ c, y1 m c = _ := fun c => layer_eq m 0 _ _ _ _ c (fun t => congrArg Gen.k0_pay3 (hagree t).2.1)
    (fun t => congrArg Gen.k0_pay5 (hagree t).2.2.1) ((shapeCast_self _ _).trans (hagree c).1)
  have h2 : ∀ c, y2 m c = _ := fun c => layer_eq m 1 _ _ _ _ c (fun t => congrArg Gen.k0_pay3 (hagree t).2.2.2.1)
    (fun t => congrArg Gen.k0_pay5 (hagree t).2.2.2.2.1) (h1 c)
  have h3 : ∀ c, y3 m c = _ := fun c => layer_eq m 2 _ _ _ _ c (fun t => congrArg Gen.k0_pay3 (hagree t).2.2.2.2.2.1)
    (fun t => congrArg Gen.k0_pay5 (hagree t).2.2.2.2.2.2) (h2 c)
  funext i
  obtain ⟨R, q, rfl⟩ : ∃ (R : Fin 16384) (q : Fin 256), i = ix2 R q := ⟨i 0, i 1, eq_ix2 i⟩
  rw [outFinal_apply, val_main_v12_apply]
  unfold yblk Gen.k0_pay14
  rw [truncf_apply, h3, Layout.block_apply]
  exact congrArg (val_main_v11 (F := Ideal) _ _ _ _ _ _ _) (Shape.idx_ext₂ (Nat.div_add_mod' R.val 512) rfl)

end Cert.KernelIdeal.RM

end
-- ==== Proof.RM.Sets.lean ====
import proofs.«900986_g7700000000000987_dist_mlpseq_tp1d_bs_rep_b512_d256_h512_v7x_i32_bf16_1_alg».proof.Proof.Gen.KernelIdeal

noncomputable section

namespace Cert.KernelIdeal.RM

open Cert.KernelIdeal Cert.KernelIdeal.Gen
open Idealize.ShloMosaic Idealize.SL.Sem

abbrev wallM : Memref sig .tc .vmem S32x6x512x256 .bf16 := Memref.whole cc0_scratch0
abbrev outM : Memref sig .tc .vmem S16384x256 .bf16 := Memref.whole cc0_stg7_0

theorem slot_inb : ∀ (j : Dev nD) (a : Fin 4), (![j.val, 0, 0, 0] : Fin 4 → Nat) a + S1x6x512x256.size a ≤ S32x6x512x256.size a := by decide
theorem blk_inb : ∀ (j : Dev nD) (a : Fin 2), (![512 * j.val, 0] : Fin 2 → Nat) a + S512x256.size a ≤ S16384x256.size a := by decide

def slotM (j : Dev nD) : Memref sig .tc .vmem S6x512x256 .bf16 :=
  (wallM.slice (Rect.unit (s := S32x6x512x256) ![j.val, 0, 0, 0] S1x6x512x256.size (slot_inb j)) (fun _ => rfl)).squeeze S6x512x256 squeezes_S1x6x512x256_S6x512x256

def blkM (j : Dev nD) : Memref sig .tc .vmem S512x256 .bf16 :=
  outM.slice (Rect.unit (s := S16384x256) ![512 * j.val, 0] S512x256.size (blk_inb j)) (fun _ => rfl)

def wallSet (j : Dev nD) : Finset S32x6x512x256.Idx := (slotM j).view.set
def outSet (j : Dev nD) : Finset S16384x256.Idx := (blkM j).view.set
def wallSets (S : Finset (Dev nD)) : Finset S32x6x512x256.Idx := S.biUnion wallSet
def outSets (S : Finset (Dev nD)) : Finset S16384x256.Idx := S.biUnion outSet

end Cert.KernelIdeal.RM

end
-- ==== Proof.RM.Ring.lean ====
import proofs.«900986_g7700000000000987_dist_mlpseq_tp1d_bs_rep_b512_d256_h512_v7x_i32_bf16_1_alg».proof.Proof.Gen.KernelIdeal

set_option synthInstance.maxSize 4096
set_option Elab.async false

namespace Cert.KernelIdeal.RM

open Idealize.ShloMosaic

def posN (l : ℕ) : ℕ :=
  let z := l / 8
  let r := l - 8 * z
  let y := r / 2
  let xb := r - 2 * y
  let x := if y % 2 = 0 then xb else 1 - xb
  let q := 4 * z + (if z % 2 = 0 then y else 3 - y)
  if x = 0 then q else 31 - q

def logN (p : ℕ) : ℕ :=
  let x := if 16 ≤ p then 1 else 0
  let q := if x = 1 then 31 - p else p
  let z := q / 4
  let t := q - 4 * z
  let y := if z % 2 = 0 then t else 3 - t
  let xb := if y % 2 = 0 then x else 1 - x
  8 * z + 2 * y + xb

theorem posN_lt : ∀ l : Fin 32, posN l.val < 32 := by decide +kernel
theorem logN_lt : ∀ p : Fin 32, logN p.val < 32 := by decide +kernel

def posOf (c : Dev nD) : Fin 32 := ⟨posN c.val, posN_lt c⟩

def logOf (p : Fin 32) : Dev nD := ⟨logN p.val, logN_lt p⟩

def rgt (c : Dev nD) : Dev nD := logOf (posOf c + 1)

def lft (c : Dev nD) : Dev nD := logOf (posOf c + 31)

def srcAt (c : Dev nD) (h : ℕ) : Dev nD :=
  logOf ⟨((posOf c).val + 32 * 32 - h % 32) % 32, Nat.mod_lt _ (by decide)⟩

theorem lft_rgt : ∀ c : Dev nD, lft (rgt c) = c := by decide +kernel
theorem rgt_lft : ∀ c : Dev nD, rgt (lft c) = c := by decide +kernel
theorem srcAt_zero : ∀ c : Dev nD, srcAt c 0 = c := by decide +kernel
theorem srcAt_rgt_fin : ∀ c : Dev nD, ∀ h : Fin 31, srcAt (rgt c) (h.val + 1) = srcAt c h.val := by decide +kernel
theorem srcAt_rgt (c : Dev nD) (h : ℕ) (hh : h < 31) : srcAt (rgt c) (h + 1) = srcAt c h :=
  srcAt_rgt_fin c ⟨h, hh⟩

theorem srcAt_inj_fin : ∀ c : Dev nD, ∀ h h' : Fin 32, srcAt c h.val = srcAt c h'.val → h = h' := by decide +kernel
theorem srcAt_injOn (c : Dev nD) (h h' : ℕ) (hh : h < 32) (hh' : h' < 32) (e : srcAt c h = srcAt c h') : h = h' :=
  congrArg Fin.val (srcAt_inj_fin c ⟨h, hh⟩ ⟨h', hh'⟩ e)

theorem srcAt_surj_fin : ∀ c j : Dev nD, ∃ h : Fin 32, srcAt c h.val = j := by decide +kernel
theorem srcAt_surj (c j : Dev nD) : ∃ h, h < 32 ∧ srcAt c h = j :=
  let ⟨h, e⟩ := srcAt_surj_fin c j
  ⟨h.val, h.isLt, e⟩

def ringEquiv : Dev nD ≃ Dev nD := ⟨rgt, lft, lft_rgt, rgt_lft⟩

@[sl_canon] theorem dev1_eq (c : Dev nD) : (⟨Cert.KernelIdeal.k0_dev1 c, Gen.k0_dev1_lt c⟩ : Dev nD) = lft c := by revert c; decide +kernel

@[sl_canon] theorem dev2_eq (c : Dev nD) : (⟨Cert.KernelIdeal.k0_dev2 c, Gen.k0_dev2_lt c⟩ : Dev nD) = rgt c := by revert c; decide +kernel
theorem off7_eq (c : Dev nD) (h : Fin 31) :
    Cert.KernelIdeal.k0_off7 c (BitVec.ofNat 32 h.val) = ![(srcAt c h.val).val, 0, 0, 0] := by
  revert c h; decide +kernel

theorem off15_eq (c : Dev nD) (h : Fin 31) :
    Cert.KernelIdeal.k0_off15 c (BitVec.ofNat 32 h.val) = ![512 * (srcAt c h.val).val, 0] := by
  revert c h; decide +kernel

theorem off7_eq_nat (c : Dev nD) (h : ℕ) (hh : h < 31) :
    Cert.KernelIdeal.k0_off7 c (BitVec.ofNat 32 h) = ![(srcAt c h).val, 0, 0, 0] := off7_eq c ⟨h, hh⟩

theorem off15_eq_nat (c : Dev nD) (h : ℕ) (hh : h < 31) :
    Cert.KernelIdeal.k0_off15 c (BitVec.ofNat 32 h) = ![512 * (srcAt c h).val, 0] := off15_eq c ⟨h, hh⟩

end Cert.KernelIdeal.RM
-- ==== Proof.RM.Proto.lean ====
import proofs.«900986_g7700000000000987_dist_mlpseq_tp1d_bs_rep_b512_d256_h512_v7x_i32_bf16_1_alg».proof.Proof.RM.Sets
import proofs.«900986_g7700000000000987_dist_mlpseq_tp1d_bs_rep_b512_d256_h512_v7x_i32_bf16_1_alg».proof.Proof.RM.Vals
import proofs.«900986_g7700000000000987_dist_mlpseq_tp1d_bs_rep_b512_d256_h512_v7x_i32_bf16_1_alg».proof.Proof.RM.Ring
import proofs.«900986_g7700000000000987_dist_mlpseq_tp1d_bs_rep_b512_d256_h512_v7x_i32_bf16_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

abbrev barS : Sem sig := (SemArray.scalar (sig.barrier 0 rfl) : Sems sig S_).sem

def semArr : Fin 4 → DmaSems sig S31
  | 0 => cc0_scratch1 | 1 => cc0_scratch2 | 2 => cc0_scratch3 | 3 => cc0_scratch4

theorem sem_inb : ∀ (h : Fin 31) (a : Fin 1), (![h.val] : Fin 1 → Nat) a + S1.size a ≤ S31.size a := by decide

def dsem (k : Fin 4) (h : Fin 31) : DmaSem sig :=
  (((semArr k).slice (Rect.unit (s := S31) ![h.val] S1.size (sem_inb h))).squeeze S_ squeezes_S1_S_).sem

abbrev barCell (c : Dev nD) : GSem nD τ sig := ((c : Thread nD τ), .reg barS)
abbrev dCell (c : Dev nD) (k : Fin 4) (h : Fin 31) : GSem nD τ sig := ((c : Thread nD τ), .dma (dsem k h))

def dk (q : DmaSem sig) : Option (Fin 4 × Fin 31) :=
  if h : 8 ≤ q.val ∧ q.val < 132 then some (⟨(q.val - 8) / 31, by omega⟩, ⟨(q.val - 8) % 31, Nat.mod_lt _ (by decide)⟩) else none

abbrev Nw : ℕ := (slotM 0).view.dmaCredit
abbrev No : ℕ := (blkM 0).view.dmaCredit

def wallPt (c : Dev nD) (S : Finset (Dev nD)) : sProp 𝕄 :=
  ((c : Thread nD τ).loc cc0_scratch0) ↦[wallSets S]{fullShare} (wallFinal m)
def wallAny (c : Dev nD) (S : Finset (Dev nD)) : sProp 𝕄 :=
  iprop(∃ f : Buf (Elt F) ((c : Thread nD τ).loc cc0_scratch0), ((c : Thread nD τ).loc cc0_scratch0) ↦[wallSets S]{fullShare} f)

def outPt (c : Dev nD) (S : Finset (Dev nD)) : sProp 𝕄 :=
  ((c : Thread nD τ).loc cc0_stg7_0) ↦[outSets S]{fullShare} (outFinal m)
def outAny (c : Dev nD) (S : Finset (Dev nD)) : sProp 𝕄 :=
  iprop(∃ f : Buf (Elt F) ((c : Thread nD τ).loc cc0_stg7_0), ((c : Thread nD τ).loc cc0_stg7_0) ↦[outSets S]{fullShare} f)

def barPay (c : Dev nD) : sProp 𝕄 :=
  iprop(wallAny (F := F) (rgt c) (Finset.univ.erase (rgt c)) ∗ outAny (F := F) (rgt c) (Finset.univ.erase (rgt c))
    ∗ bigSep Finset.univ fun h : Fin 31 => iprop(reached ER (dCell (rgt c) 1 h) 0 ∗ reached ER (dCell (rgt c) 3 h) 0))

def dmaPay (c : Dev nD) : Fin 4 × Fin 31 → sProp 𝕄
  | (0, h) => wallPt m c {srcAt c h.val}
  | (1, h) => wallPt m c {srcAt c (h.val + 1)}
  | (2, h) => outPt m c {srcAt c h.val}
  | (3, h) => outPt m c {srcAt c (h.val + 1)}

def ringRd : Rounds.Schedule (GSem nD τ sig) Bool 𝕄 where
  duties g r :=
    if r = 0 ∧ g.1.2 = .tc then
      (match g.2 with
        | .reg s => if s = barS then Finset.univ else ∅
        | .dma q => if (dk q).isSome then {false} else ∅)
    else ∅
  unitless _ := False
  amount g _ _ := match g.2 with
    | .reg _ => 1
    | .dma q => if q.val < 70 then Nw else No
  payload g _ d := match g.2 with
    | .reg s => if s = barS ∧ d = true then barPay (F := F) g.1.1 else iprop(emp)
    | .dma q => match dk q with
      | some kh => dmaPay m g.1.1 kh
      | none => iprop(emp)
  amount_pos g _ _ _ := by
    rcases hg : g.2 with s | q
    · simp only [hg]; exact Nat.one_pos
    · simp only [hg]; split
      · exact View.dmaCredit_pos _ (by decide)
      · exact View.dmaCredit_pos _ (by decide)

def OO (c : Dev nD) (h : ℕ) : CellTallies nD τ sig Unit :=
  ∑ h' ∈ (Finset.univ : Finset (Fin 31)).filter (fun x => h ≤ x.val), tallyAt (dCell (rgt c) 3 h') () No
def OW (c : Dev nD) (h : ℕ) : CellTallies nD τ sig Unit :=
  OO c 0 + ∑ h' ∈ (Finset.univ : Finset (Fin 31)).filter (fun x => h ≤ x.val), tallyAt (dCell (rgt c) 1 h') () Nw

def O₁ (c : Dev nD) : CellTallies nD τ sig Unit := OW c 0 + tallyAt (barCell (rgt c)) () 1
def O₀ (c : Dev nD) : CellTallies nD τ sig Unit := O₁ c + tallyAt (barCell (lft c)) () 1

def L (g : GSem nD τ sig) : Finset Unit := if g.1.2 = .tc then {()} else ∅

def lv (g : GSem nD τ sig) (_ : Unit) : ℕ := match g.2 with
  | .reg _ => 1
  | .dma q => if 39 ≤ q.val ∧ q.val < 70 then q.val - 37 else if 101 ≤ q.val then q.val - 68 else 0

abbrev CI : Type := Option (Fin 4 × Fin 31)
def csem : CI → SemLoc sig
  | none => .reg barS
  | some (k, h) => .dma (dsem k h)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

def stepW (c : Dev nD) (h : Fin 31) : sProp 𝕄 :=
  iprop(dutyTok ER (dCell c 0 h) 0 false ∗ dutyTok ER (dCell (rgt c) 1 h) 0 false
    ∗ atPos ER (dCell c 0 h) 0 ∅ 0 ∗ atPos ER (dCell c 1 h) 0 ∅ 0 ∗ cred (tallyAt (dCell c 1 h) () Nw))
def stepO (c : Dev nD) (h : Fin 31) : sProp 𝕄 :=
  iprop(dutyTok ER (dCell c 2 h) 0 false ∗ dutyTok ER (dCell (rgt c) 3 h) 0 false
    ∗ atPos ER (dCell c 2 h) 0 ∅ 0 ∗ atPos ER (dCell c 3 h) 0 ∅ 0 ∗ cred (tallyAt (dCell c 3 h) () No))
def TokW (c : Dev nD) (h : ℕ) : sProp 𝕄 := bigSep ((Finset.univ : Finset (Fin 31)).filter (fun x => h ≤ x.val)) (stepW (F := F) c)
def TokO (c : Dev nD) (h : ℕ) : sProp 𝕄 := bigSep ((Finset.univ : Finset (Fin 31)).filter (fun x => h ≤ x.val)) (stepO (F := F) c)

def ClosedW (c : Dev nD) (h : ℕ) : sProp 𝕄 :=
  bigSep ((Finset.univ : Finset (Fin 31)).filter (fun x => x.val < h)) fun x => iprop(semVal (dCell c 0 x) 0 ∗ semVal (dCell c 1 x) 0)
def ClosedO (c : Dev nD) (h : ℕ) : sProp 𝕄 :=
  bigSep ((Finset.univ : Finset (Fin 31)).filter (fun x => x.val < h)) fun x => iprop(semVal (dCell c 2 x) 0 ∗ semVal (dCell c 3 x) 0)

def heldW (c : Dev nD) (h : ℕ) : Finset (Dev nD) := (Finset.range (h + 1)).image (srcAt c)
def restW (c : Dev nD) (h : ℕ) : Finset (Dev nD) := (Finset.Ico h 31).image (srcAt c)

def RingW (K : Dev nD × CI → ℕ) (c : Dev nD) (h : ℕ) : sProp 𝕄 :=
  iprop(records m K ∗ levAts L lv ∗ TokW (F := F) c h ∗ ClosedW (F := F) c h ∗ (∃ W, owes (c : Thread nD τ) (OW c h) W)
    ∗ wallPt m c (heldW c h) ∗ wallAny (F := F) (rgt c) (restW c h))
def RingO (K : Dev nD × CI → ℕ) (c : Dev nD) (h : ℕ) : sProp 𝕄 :=
  iprop(records m K ∗ levAts L lv ∗ TokO (F := F) c h ∗ ClosedO (F := F) c h ∗ (∃ W, owes (c : Thread nD τ) (OO c h) W)
    ∗ outPt m c (heldW c h) ∗ outAny (F := F) (rgt c) (restW c h))

def Ins (c : Dev nD) : sProp 𝕄 :=
  iprop((((c : Thread nD τ).loc cc0_stg0_0) ↦{fullShare} (m ((c : Thread nD τ).loc main_arg0)))
    ∗ (((c : Thread nD τ).loc cc0_stg1_0) ↦{fullShare} (m ((c : Thread nD τ).loc main_arg1)))
    ∗ (((c : Thread nD τ).loc cc0_stg2_0) ↦{fullShare} (m ((c : Thread nD τ).loc main_arg2)))
    ∗ (((c : Thread nD τ).loc cc0_stg3_0) ↦{fullShare} (m ((c : Thread nD τ).loc main_arg3)))
    ∗ (((c : Thread nD τ).loc cc0_stg4_0) ↦{fullShare} (m ((c : Thread nD τ).loc main_arg4)))
    ∗ (((c : Thread nD τ).loc cc0_stg5_0) ↦{fullShare} (m ((c : Thread nD τ).loc main_arg5)))
    ∗ (((c : Thread nD τ).loc cc0_stg6_0) ↦{fullShare} (m ((c : Thread nD τ).loc main_arg6))))

end Cert.KernelIdeal.RM

end
-- ==== Proof.RM.Dats.lean ====
import proofs.«900986_g7700000000000987_dist_mlpseq_tp1d_bs_rep_b512_d256_h512_v7x_i32_bf16_1_alg».proof.Proof.RM.Proto
import proofs.«900986_g7700000000000987_dist_mlpseq_tp1d_bs_rep_b512_d256_h512_v7x_i32_bf16_1_alg».proof.Proof.Gen.KernelIdeal.Launch
import proofs.«900986_g7700000000000987_dist_mlpseq_tp1d_bs_rep_b512_d256_h512_v7x_i32_bf16_1_alg».proof.Proof.Gen.KernelIdeal.Points

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def payToks (c : Dev nD) : sProp 𝕄 :=
  iprop(dutyTok ER (barCell (lft c)) 0 true ∗ dutyTok ER (barCell (rgt c)) 0 false
    ∗ (bigSep Finset.univ fun h : Fin 31 => dutyTok ER (dCell c 0 h) 0 false)
    ∗ (bigSep Finset.univ fun h : Fin 31 => dutyTok ER (dCell (rgt c) 1 h) 0 false)
    ∗ (bigSep Finset.univ fun h : Fin 31 => dutyTok ER (dCell c 2 h) 0 false)
    ∗ (bigSep Finset.univ fun h : Fin 31 => dutyTok ER (dCell (rgt c) 3 h) 0 false))

def ghost (K : Dev nD × CI → ℕ) (c : Dev nD) : sProp 𝕄 :=
  iprop(records m K ∗ (bigSep Finset.univ fun i : CI => atPos ER (kcell (c, i)) 0 ∅ 0) ∗ payToks (F := F) c)

def launchCreds (c : Dev nD) : sProp 𝕄 :=
  iprop(cred (tallyAt (barCell c) () 2)
    ∗ (bigSep Finset.univ fun h : Fin 31 => cred (tallyAt (dCell c 1 h) () Nw))
    ∗ (bigSep Finset.univ fun h : Fin 31 => cred (tallyAt (dCell c 3 h) () No)))

def start (c : Dev nD) : sProp 𝕄 :=
  iprop((∃ K, ghost m K c) ∗ launchCreds (F := F) c ∗ levAts L lv)

def Φ₀ (c : Dev nD) : sProp 𝕄 :=
  iprop(start m c ∗ ∃ f : Buf (Elt F) ((c : Thread nD τ).loc cc0_scratch0), (((c : Thread nD τ).loc cc0_scratch0) ↦{fullShare} f))

def Φ₁ (c : Dev nD) : sProp 𝕄 :=
  iprop((((c : Thread nD τ).loc cc0_scratch0) ↦{fullShare} wallFinal m)
    ∗ bigSep Finset.univ fun kh : Fin 4 × Fin 31 => semVal (dCell c kh.1 kh.2) 0)

def dats (_ : Fin 1) (c : Dev nD) : Dat τ (Elt F) Unit ℕ UU ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => m ((c : Thread nD τ).loc main_arg4)
    | ⟨5, _⟩ => m ((c : Thread nD τ).loc main_arg5)
    | ⟨6, _⟩ => m ((c : Thread nD τ).loc main_arg6)
    | ⟨7, _⟩ => outFinal m
    | ⟨_ + 8, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m 0 c).owesAt () t0_0.castSucc ∗ bigSep Finset.univ fun w : Fin 8 =>
    iprop(∃ d, owns (c : Thread nD τ) ((cfg0.win w).stage (cfg0.slots t0_0 w)) fullShare ((dats m 0 c).before w t0_0 d)))

def bodyPost (c : Dev nD) : sProp 𝕄 :=
  iprop(Φ₁ m c ∗ (dats m 0 c).owesAt () t0_0.succ ∗ bigSep Finset.univ fun w : Fin 8 =>
    owns (c : Thread nD τ) ((cfg0.win w).stage (cfg0.slots t0_0 w)) fullShare ((dats m 0 c).after w t0_0))

omit [FloatOps F] in
theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) cc0_scratch1 cc0_scratch2 cc0_scratch3 cc0_scratch4

omit [FloatOps F] in
theorem hz_out7 : (fun a => (win0_7.index t0_0) a * main_v1.ty.shape.size a) = fun _ => 0 := funext fun a => by fin_cases a <;> decide

omit [FloatOps F] in
theorem fetch_in : ∀ w : Fin 8, w ≠ 7 → (cfg0.win w).fetch t0_0 = true := by decide +kernel

-- Reading a whole array through its one block, at offset zero, returns the array.
theorem before_in (c : Dev nD) (w : Fin 8) (d) (hw : w ≠ 7 := by decide) : (dats m 0 c).before w t0_0 d = (dats m 0 c).after w t0_0 := by
  unfold Dat.before; rw [if_pos (fetch_in w hw)]
  have R (b : Ref sig .tc) {off} (inb) (h : ∀ a, off a = 0) (f : b.ty.Contents (Elt F)) :
      ((Memref.whole b).access (Rect.unit off b.ty.shape.size inb) : View sig .tc _ _ _).read (Elt F) f = f :=
    Memref.read_access_unit_zero _ b (off := off) (funext h) inb f
  fin_cases w
  · show ((cfg0.win 0).blk t0_0).view.read (Elt F) _ = _; refine R main_arg0 _ ?_ _; decide
  · show ((cfg0.win 1).blk t0_0).view.read (Elt F) _ = _; refine R main_arg1 _ ?_ _; decide
  · show ((cfg0.win 2).blk t0_0).view.read (Elt F) _ = _; refine R main_arg2 _ ?_ _; decide
  · show ((cfg0.win 3).blk t0_0).view.read (Elt F) _ = _; refine R main_arg3 _ ?_ _; decide
  · show ((cfg0.win 4).blk t0_0).view.read (Elt F) _ = _; refine R main_arg4 _ ?_ _; decide
  · show ((cfg0.win 5).blk t0_0).view.read (Elt F) _ = _; refine R main_arg5 _ ?_ _; decide
  · show ((cfg0.win 6).blk t0_0).view.read (Elt F) _ = _; refine R main_arg6 _ ?_ _; decide
  · exact absurd rfl hw

theorem bodyPre'_elim (c : Dev nD) :
    bodyPre' m c ⊢ iprop(Φ₀ m c ∗ (∃ W, owes (c : Thread nD τ) (O₀ c) W) ∗ Ins m c
      ∗ ∃ f : Buf (Elt F) ((c : Thread nD τ).loc cc0_stg7_0), (((c : Thread nD τ).loc cc0_stg7_0) ↦{fullShare} f)) := by
  unfold bodyPre' Ins Dat.owesAt Pipeline.owesWithin
  rw [bigSep_W0]; simp only [owns_whole_eq]
  iintro ⟨HΦ, ⟨%W, -, HO⟩, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩, ⟨%d6, %f6, %e6, H6⟩, ⟨%d7, %f7, -, H7⟩⟩
  rw [before_in m c 0] at e0; rw [before_in m c 1] at e1; rw [before_in m c 2] at e2; rw [before_in m c 3] at e3
  rw [before_in m c 4] at e4; rw [before_in m c 5] at e5; rw [before_in m c 6] at e6
  dsimp only [dats] at e0 e1 e2 e3 e4 e5 e6
  subst e0 e1 e2 e3 e4 e5 e6
  iframe
  isplitl [HO]; · iexists W; iexact HO
  iexists f7; iexact H7

theorem stg_intro (c : Dev nD) {b : Ref sig .tc} {X : b.ty.Contents (Elt F)} :
    ((((c : Thread nD τ).loc b) ↦{fullShare} X) : sProp 𝕄) ⊢ stg c b X := by
  iintro H; iexists X; isplitr; · ipureintro; rfl
  iexact H

theorem bodyPost_intro (c : Dev nD) :
    iprop(Φ₁ m c ∗ (∃ W, owes (c : Thread nD τ) 0 W) ∗ Ins m c ∗ (((c : Thread nD τ).loc cc0_stg7_0) ↦{fullShare} outFinal m))
      ⊢ bodyPost m c := by
  unfold bodyPost Ins Dat.owesAt Pipeline.owesWithin
  rw [bigSep_W0]; simp only [owns_whole_eq]; dsimp only [dats]
  iintro ⟨HΦ, ⟨%W, HO⟩, ⟨H0, H1, H2, H3, H4, H5, H6⟩, H7⟩
  ihave H0 := (stg_intro c) $$ H0
  ihave H1 := (stg_intro c) $$ H1
  ihave H2 := (stg_intro c) $$ H2
  ihave H3 := (stg_intro c) $$ H3
  ihave H4 := (stg_intro c) $$ H4
  ihave H5 := (stg_intro c) $$ H5
  ihave H6 := (stg_intro c) $$ H6
  ihave H7 := (stg_intro c) $$ H7
  iframe
  iexists W
  isplitr; · ipureintro; exact fun _ _ => Or.inl trivial
  iexact HO

end Cert.KernelIdeal.RM

end
-- ==== Proof.RM.Glue.lean ====
import proofs.«900986_g7700000000000987_dist_mlpseq_tp1d_bs_rep_b512_d256_h512_v7x_i32_bf16_1_alg».proof.Proof.RM.Dats

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_univ_option {α : Type} [Fintype α] [DecidableEq α] (Φ : Option α → sProp 𝕄) :
    bigSep Finset.univ Φ = iprop(Φ none ∗ bigSep Finset.univ fun a => Φ (some a)) := by
  rw [bigSep_univ_at Φ none, show (Finset.univ : Finset (Option α)).erase none = Finset.univ.map Function.Embedding.some from by
    ext x; cases x <;> simp, bigSep_map]
  rfl

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_rows (Φ : Fin 4 × Fin 31 → sProp 𝕄) :
    bigSep Finset.univ Φ = iprop((bigSep Finset.univ fun h : Fin 31 => Φ (0, h)) ∗ (bigSep Finset.univ fun h : Fin 31 => Φ (1, h))
      ∗ (bigSep Finset.univ fun h : Fin 31 => Φ (2, h)) ∗ (bigSep Finset.univ fun h : Fin 31 => Φ (3, h))) := by
  rw [bigSep_univ_prod]; exact bigSep_univ_eq_bigSepL [0, 1, 2, 3] (by decide) (by decide) _

omit [FloatOps F] in
theorem filter_ge_zero : ((Finset.univ : Finset (Fin 31)).filter fun x => 0 ≤ x.val) = Finset.univ :=
  Finset.filter_true_of_mem fun x _ => Nat.zero_le _
omit [FloatOps F] in
theorem filter_lt_last : ((Finset.univ : Finset (Fin 31)).filter fun x => x.val < 31) = Finset.univ :=
  Finset.filter_true_of_mem fun x _ => x.isLt

theorem start_elim (c : Dev nD) :
    start m c ⊢ iprop(∃ K, records m K ∗ levAts L lv
      ∗ (atPos ER (barCell c) 0 ∅ 0 ∗ dutyTok ER (barCell (lft c)) 0 true ∗ dutyTok ER (barCell (rgt c)) 0 false ∗ cred (tallyAt (barCell c) () 2))
      ∗ TokW (F := F) c 0 ∗ TokO (F := F) c 0) := by
  unfold start ghost payToks launchCreds TokW TokO stepW stepO
  rw [filter_ge_zero, bigSep_univ_option, bigSep_rows]
  simp only [bigSep_sep']
  iintro ⟨⟨%K, HR, ⟨HaB, Ha0, Ha1, Ha2, Ha3⟩, HtL, HtR, Ht0, Ht1, Ht2, Ht3⟩, ⟨HcB, Hc1, Hc3⟩, Hlev⟩
  iexists K
  iframe
  isplitl [HaB]; · iexact HaB
  isplitl [Ha0 Ha1]
  · isplitl [Ha0]; · iexact Ha0
    iexact Ha1
  isplitl [Ha2]; · iexact Ha2
  iexact Ha3

omit [FloatOps F] in
theorem closed_join (c : Dev nD) :
    iprop(ClosedW (F := F) c 31 ∗ ClosedO (F := F) c 31) ⊢ (bigSep Finset.univ fun kh : Fin 4 × Fin 31 => semVal (dCell c kh.1 kh.2) 0 : sProp 𝕄) := by
  unfold ClosedW ClosedO
  rw [filter_lt_last, bigSep_rows]
  simp only [bigSep_sep']
  iintro ⟨⟨H0, H1⟩, H2, H3⟩
  iframe

end Cert.KernelIdeal.RM

end
-- ==== Proof.RM.Sched.lean ====
import proofs.«900986_g7700000000000987_dist_mlpseq_tp1d_bs_rep_b512_d256_h512_v7x_i32_bf16_1_alg».proof.Proof.RM.Proto

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

theorem dsem_val : ∀ (k : Fin 4) (h : Fin 31), (dsem k h).val = 8 + 31 * k.val + h.val := by decide +kernel

theorem dsem_val1 (h : Fin 31) : (dsem 1 h).val = 39 + h.val := dsem_val 1 h
theorem dsem_val3 (h : Fin 31) : (dsem 3 h).val = 101 + h.val := dsem_val 3 h

theorem dk_dsem : ∀ (k : Fin 4) (h : Fin 31), dk (dsem k h) = some (k, h) := by decide +kernel

theorem dsem_inj {k k' : Fin 4} {h h' : Fin 31} (e : dsem k h = dsem k' h') : k = k' ∧ h = h' := by
  have := congrArg Fin.val e
  rw [dsem_val, dsem_val] at this
  have hh := h.isLt; have hh' := h'.isLt
  exact ⟨Fin.ext (by omega), Fin.ext (by omega)⟩

theorem dsem_ne_of_ne {k k' : Fin 4} (hk : k ≠ k') (h h' : Fin 31) : dsem k h ≠ dsem k' h' :=
  fun e => hk (dsem_inj e).1

theorem dma_ne_bar (q : DmaSem sig) : (SemLoc.dma q : SemLoc sig) ≠ .reg barS := fun h => by cases h

theorem csem_injective : Function.Injective (csem : CI → SemLoc sig) := by
  intro a b e
  rcases a with _ | ⟨k, h⟩ <;> rcases b with _ | ⟨k', h'⟩
  · rfl
  · exact absurd e.symm (dma_ne_bar _)
  · exact absurd e (dma_ne_bar _)
  · obtain ⟨rfl, rfl⟩ := dsem_inj (SemLoc.dma.inj e); rfl

theorem kcell_injective : Function.Injective (kcell : Dev nD × CI → GSem nD τ sig) := by
  rintro ⟨c, i⟩ ⟨c', i'⟩ e
  have e1 : c = c' := Fin.ext (congrArg (fun g : GSem nD τ sig => g.1.1.val) e)
  have e2 : csem i = csem i' := congrArg Prod.snd e
  rw [e1, csem_injective e2]

theorem not_unitless (g : GSem nD τ sig) : ¬ (ringRd (F := F) m).unitless g := fun h => h

@[sl_rounds] theorem duties_bar (c : Dev nD) :
    (ringRd (F := F) m).duties (barCell c) 0 = Finset.univ := by
  dsimp only [ringRd]
  exact (if_pos ⟨rfl, rfl⟩).trans (if_pos rfl)

@[sl_rounds] theorem duties_dma (c : Dev nD) (k : Fin 4) (h : Fin 31) :
    (ringRd (F := F) m).duties (dCell c k h) 0 = {false} := by
  dsimp only [ringRd]
  refine (if_pos ⟨rfl, rfl⟩).trans ?_
  show (if (dk (dsem k h)).isSome then ({false} : Finset Bool) else ∅) = {false}
  rw [dk_dsem]; rfl

theorem duties_later (g : GSem nD τ sig) :
    ∀ r, 1 ≤ r → (ringRd (F := F) m).duties g r = ∅ :=
  fun r hr => by dsimp only [ringRd]; rw [if_neg fun h => by omega]

@[sl_rounds] theorem amount_bar (c : Dev nD) (d : Bool) :
    (ringRd (F := F) m).amount (barCell c) 0 d = 1 := rfl

theorem amount_dma (c : Dev nD) (k : Fin 4) (h : Fin 31) (d : Bool) :
    (ringRd (F := F) m).amount (dCell c k h) 0 d = if k.val < 2 then Nw else No := by
  show (if (dsem k h).val < 70 then Nw else No) = _
  have := h.isLt
  by_cases hk : k.val < 2
  · rw [if_pos hk, if_pos (by rw [dsem_val]; omega)]
  · rw [if_neg hk, if_neg (by rw [dsem_val]; omega)]

theorem amount_w (c : Dev nD) (k : Fin 4) (h : Fin 31) (d : Bool) (hk : k.val < 2) :
    (ringRd (F := F) m).amount (dCell c k h) 0 d = Nw := by rw [amount_dma, if_pos hk]
theorem amount_o (c : Dev nD) (k : Fin 4) (h : Fin 31) (d : Bool) (hk : 2 ≤ k.val) :
    (ringRd (F := F) m).amount (dCell c k h) 0 d = No := by rw [amount_dma, if_neg (by omega)]

@[sl_rounds] theorem amount_wsend (c : Dev nD) (h : Fin 31) (d : Bool) :
    (ringRd (F := F) m).amount (dCell c 0 h) 0 d = Nw := amount_w m c 0 h d (by decide)
@[sl_rounds] theorem amount_wrecv (c : Dev nD) (h : Fin 31) (d : Bool) :
    (ringRd (F := F) m).amount (dCell c 1 h) 0 d = Nw := amount_w m c 1 h d (by decide)
@[sl_rounds] theorem amount_osend (c : Dev nD) (h : Fin 31) (d : Bool) :
    (ringRd (F := F) m).amount (dCell c 2 h) 0 d = No := amount_o m c 2 h d (by decide)
@[sl_rounds] theorem amount_orecv (c : Dev nD) (h : Fin 31) (d : Bool) :
    (ringRd (F := F) m).amount (dCell c 3 h) 0 d = No := amount_o m c 3 h d (by decide)

@[sl_rounds] theorem expect_bar (c : Dev nD) :
    (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]

theorem expect_dma (c : Dev nD) (k : Fin 4) (h : Fin 31) :
    (ringRd (F := F) m).expect (dCell c k h) 0 = if k.val < 2 then Nw else No := by
  unfold Schedule.expect Schedule.amountOf; rw [duties_dma, Finset.sum_singleton, amount_dma]

theorem expect_w (c : Dev nD) (k : Fin 4) (h : Fin 31) (hk : k.val < 2) :
    (ringRd (F := F) m).expect (dCell c k h) 0 = Nw := by rw [expect_dma, if_pos hk]
theorem expect_o (c : Dev nD) (k : Fin 4) (h : Fin 31) (hk : 2 ≤ k.val) :
    (ringRd (F := F) m).expect (dCell c k h) 0 = No := by rw [expect_dma, if_neg (by omega)]

@[sl_rounds] theorem expect_wsend (c : Dev nD) (h : Fin 31) :
    (ringRd (F := F) m).expect (dCell c 0 h) 0 = Nw := expect_w m c 0 h (by decide)
@[sl_rounds] theorem expect_wrecv (c : Dev nD) (h : Fin 31) :
    (ringRd (F := F) m).expect (dCell c 1 h) 0 = Nw := expect_w m c 1 h (by decide)
@[sl_rounds] theorem expect_osend (c : Dev nD) (h : Fin 31) :
    (ringRd (F := F) m).expect (dCell c 2 h) 0 = No := expect_o m c 2 h (by decide)
@[sl_rounds] theorem expect_orecv (c : Dev nD) (h : Fin 31) :
    (ringRd (F := F) m).expect (dCell c 3 h) 0 = No := expect_o m c 3 h (by decide)

@[sl_rounds] theorem payload_bar_true (c : Dev nD) :
    (ringRd (F := F) m).payload (barCell c) 0 true = barPay (F := F) c := by
  dsimp only [ringRd]; exact if_pos ⟨rfl, rfl⟩
@[sl_rounds] theorem payload_bar_false (c : Dev nD) :
    (ringRd (F := F) m).payload (barCell c) 0 false = iprop(emp) := by
  dsimp only [ringRd]; exact if_neg (fun h => Bool.false_ne_true h.2)

theorem payload_dma (c : Dev nD) (k : Fin 4) (h : Fin 31) (d : Bool) :
    (ringRd (F := F) m).payload (dCell c k h) 0 d = dmaPay m c (k, h) := by
  show (match dk (dsem k h) with | some kh => dmaPay m c kh | none => iprop(emp)) = _
  rw [dk_dsem]

@[sl_rounds] theorem payload_wsend (c : Dev nD) (h : Fin 31) (d : Bool) :
    (ringRd (F := F) m).payload (dCell c 0 h) 0 d = wallPt m c {srcAt c h.val} := payload_dma m c 0 h d
@[sl_rounds] theorem payload_wrecv (c : Dev nD) (h : Fin 31) (d : Bool) :
    (ringRd (F := F) m).payload (dCell c 1 h) 0 d = wallPt m c {srcAt c (h.val + 1)} := payload_dma m c 1 h d
@[sl_rounds] theorem payload_osend (c : Dev nD) (h : Fin 31) (d : Bool) :
    (ringRd (F := F) m).payload (dCell c 2 h) 0 d = outPt m c {srcAt c h.val} := payload_dma m c 2 h d
@[sl_rounds] theorem payload_orecv (c : Dev nD) (h : Fin 31) (d : Bool) :
    (ringRd (F := F) m).payload (dCell c 3 h) 0 d = outPt m c {srcAt c (h.val + 1)} := payload_dma m c 3 h d

theorem rest_bar (c : Dev nD) :
    bigSep ((ringRd (F := F) m).duties (barCell c) 0 \ ∅) (fun d => (ringRd (F := F) m).payload (barCell c) 0 d)
      = iprop(emp ∗ barPay (F := F) c) := by
  rw [Finset.sdiff_empty, duties_bar, bigSep_univ_eq_bigSepL [false, true] (by decide) (by decide), bigSepL_cons_cons, bigSepL_singleton,
    payload_bar_false, payload_bar_true]
  rfl

theorem rest_dma (c : Dev nD) (k : Fin 4) (h : Fin 31) :
    bigSep ((ringRd (F := F) m).duties (dCell c k h) 0 \ ∅) (fun d => (ringRd (F := F) m).payload (dCell c k h) 0 d)
      = dmaPay m c (k, h) := by
  rw [Finset.sdiff_empty, duties_dma, bigSep_singleton, payload_dma]

theorem rest_wsend (c : Dev nD) (h : Fin 31) :
    bigSep ((ringRd (F := F) m).duties (dCell c 0 h) 0 \ ∅) (fun d => (ringRd (F := F) m).payload (dCell c 0 h) 0 d)
      = wallPt m c {srcAt c h.val} := rest_dma m c 0 h
theorem rest_wrecv (c : Dev nD) (h : Fin 31) :
    bigSep ((ringRd (F := F) m).duties (dCell c 1 h) 0 \ ∅) (fun d => (ringRd (F := F) m).payload (dCell c 1 h) 0 d)
      = wallPt m c {srcAt c (h.val + 1)} := rest_dma m c 1 h
theorem rest_osend (c : Dev nD) (h : Fin 31) :
    bigSep ((ringRd (F := F) m).duties (dCell c 2 h) 0 \ ∅) (fun d => (ringRd (F := F) m).payload (dCell c 2 h) 0 d)
      = outPt m c {srcAt c h.val} := rest_dma m c 2 h
theorem rest_orecv (c : Dev nD) (h : Fin 31) :
    bigSep ((ringRd (F := F) m).duties (dCell c 3 h) 0 \ ∅) (fun d => (ringRd (F := F) m).payload (dCell c 3 h) 0 d)
      = outPt m c {srcAt c (h.val + 1)} := rest_dma m c 3 h

instance wallPt_storable (c : Dev nD) (S : Finset (Dev nD)) :
    BI.Storable (upEmb : UEmb _ 𝕄) (wallPt m c S) := by unfold wallPt; infer_instance
instance wallAny_storable (c : Dev nD) (S : Finset (Dev nD)) :
    BI.Storable (upEmb : UEmb _ 𝕄) (wallAny (F := F) c S) := by unfold wallAny; infer_instance
instance outPt_storable (c : Dev nD) (S : Finset (Dev nD)) :
    BI.Storable (upEmb : UEmb _ 𝕄) (outPt m c S) := by unfold outPt; infer_instance
instance outAny_storable (c : Dev nD) (S : Finset (Dev nD)) :
    BI.Storable (upEmb : UEmb _ 𝕄) (outAny (F := F) c S) := by unfold outAny; infer_instance
instance barPay_storable (c : Dev nD) : BI.Storable (upEmb : UEmb _ 𝕄) (barPay (F := F) c) := by
  unfold barPay; infer_instance
instance dmaPay_storable (c : Dev nD) (kh : Fin 4 × Fin 31) :
    BI.Storable (upEmb : UEmb _ 𝕄) (dmaPay m c kh) := by
  obtain ⟨k, h⟩ := kh
  fin_cases k <;> (unfold dmaPay; infer_instance)

instance ringRd_payload_storable (g : GSem nD τ sig) (r : ℕ) (d : Bool) :
    BI.Storable (upEmb : UEmb _ 𝕄) ((ringRd (F := F) m).payload g r d) := by
  rcases g with ⟨t, s | q⟩
  · show BI.Storable upEmb (if s = barS ∧ d = true then barPay (F := F) t.1 else iprop(emp))
    split <;> infer_instance
  · show BI.Storable upEmb (match dk q with | some kh => dmaPay m t.1 kh | none => iprop(emp))
    split <;> infer_instance

private theorem filter_from_succ (h : ℕ) (hh : h < 31) :
    ((Finset.univ : Finset (Fin 31)).filter (fun x => h ≤ x.val))
      = insert (⟨h, hh⟩ : Fin 31) ((Finset.univ : Finset (Fin 31)).filter (fun x => h + 1 ≤ x.val)) := by
  ext x
  simp only [Finset.mem_filter, Finset.mem_univ, true_and, Finset.mem_insert]
  constructor
  · intro hx
    by_cases e : x.val = h
    · exact Or.inl (Fin.ext e)
    · exact Or.inr (by omega)
  · rintro (rfl | hx)
    · exact le_rfl
    · omega

private theorem sum_from_succ {M : Type} [AddCommMonoid M] (f : Fin 31 → M) (h : ℕ) (hh : h < 31) :
    ∑ h' ∈ (Finset.univ : Finset (Fin 31)).filter (fun x => h ≤ x.val), f h'
      = (∑ h' ∈ (Finset.univ : Finset (Fin 31)).filter (fun x => h + 1 ≤ x.val), f h') + f ⟨h, hh⟩ := by
  have hn : (⟨h, hh⟩ : Fin 31) ∉ (Finset.univ : Finset (Fin 31)).filter (fun x => h + 1 ≤ x.val) :=
    fun hm => Nat.not_succ_le_self h (Finset.mem_filter.mp hm).2
  rw [filter_from_succ h hh, Finset.sum_insert hn, add_comm]

private theorem sum_from_31 {M : Type} [AddCommMonoid M] (f : Fin 31 → M) :
    ∑ h' ∈ (Finset.univ : Finset (Fin 31)).filter (fun x => 31 ≤ x.val), f h' = 0 := by
  rw [Finset.filter_false_of_mem (fun x _ => by have := x.isLt; omega), Finset.sum_empty]

theorem OO_succ_nat (c : Dev nD) (h : ℕ) (hh : h < 31) : OO c h = OO c (h + 1) + tallyAt (dCell (rgt c) 3 ⟨h, hh⟩) () No := by
  unfold OO; exact sum_from_succ _ h hh

theorem OW_succ_nat (c : Dev nD) (h : ℕ) (hh : h < 31) : OW c h = OW c (h + 1) + tallyAt (dCell (rgt c) 1 ⟨h, hh⟩) () Nw := by
  unfold OW; rw [sum_from_succ _ h hh, add_assoc]

theorem OO_succ (c : Dev nD) (h : Fin 31) : OO c h.val = OO c (h.val + 1) + tallyAt (dCell (rgt c) 3 h) () No :=
  OO_succ_nat c h.val h.isLt
theorem OW_succ (c : Dev nD) (h : Fin 31) : OW c h.val = OW c (h.val + 1) + tallyAt (dCell (rgt c) 1 h) () Nw :=
  OW_succ_nat c h.val h.isLt

theorem OO_31 (c : Dev nD) : OO c 31 = 0 := by unfold OO; exact sum_from_31 _
theorem O₀_eq (c : Dev nD) : O₀ c = O₁ c + tallyAt (barCell (lft c)) () 1 := rfl
theorem O₁_eq (c : Dev nD) : O₁ c = OW c 0 + tallyAt (barCell (rgt c)) () 1 := rfl

theorem OO_pos {c : Dev nD} {h : ℕ} {g : GSem nD τ sig} {u : Unit} (hp : 0 < OO c h g u) :
    ∃ h' : Fin 31, h ≤ h'.val ∧ g = dCell (rgt c) 3 h' := by
  unfold OO at hp
  obtain ⟨h', hm, hp'⟩ := Pipeline.sum_pos_exists hp
  exact ⟨h', (Finset.mem_filter.mp hm).2, (Pipeline.tallyAt_pos hp').1⟩

theorem OW_pos {c : Dev nD} {h : ℕ} {g : GSem nD τ sig} {u : Unit} (hp : 0 < OW c h g u) :
    (∃ h' : Fin 31, g = dCell (rgt c) 3 h') ∨ ∃ h' : Fin 31, h ≤ h'.val ∧ g = dCell (rgt c) 1 h' := by
  unfold OW at hp
  rcases Pipeline.add_pos_cases hp with hp | hp
  · obtain ⟨h', -, e⟩ := OO_pos hp; exact Or.inl ⟨h', e⟩
  · obtain ⟨h', hm, hp'⟩ := Pipeline.sum_pos_exists hp
    exact Or.inr ⟨h', (Finset.mem_filter.mp hm).2, (Pipeline.tallyAt_pos hp').1⟩

def IsOwed (c : Dev nD) (g : GSem nD τ sig) : Prop :=
  g = barCell (rgt c) ∨ g = barCell (lft c) ∨ (∃ h, g = dCell (rgt c) 1 h) ∨ (∃ h, g = dCell (rgt c) 3 h)

theorem OO_owed (c : Dev nD) (h : ℕ) (g : GSem nD τ sig) (u : Unit) (hp : 0 < OO c h g u) : IsOwed c g := by
  obtain ⟨h', -, e⟩ := OO_pos hp; exact Or.inr (Or.inr (Or.inr ⟨h', e⟩))

theorem OW_owed (c : Dev nD) (h : ℕ) (g : GSem nD τ sig) (u : Unit) (hp : 0 < OW c h g u) : IsOwed c g := by
  rcases OW_pos hp with ⟨h', e⟩ | ⟨h', -, e⟩
  · exact Or.inr (Or.inr (Or.inr ⟨h', e⟩))
  · exact Or.inr (Or.inr (Or.inl ⟨h', e⟩))

theorem O₁_owed (c : Dev nD) (g : GSem nD τ sig) (u : Unit) (hp : 0 < O₁ c g u) : IsOwed c g := by
  unfold O₁ at hp
  rcases Pipeline.add_pos_cases hp with hp | hp
  · exact OW_owed c 0 g u hp
  · exact Or.inl (Pipeline.tallyAt_pos hp).1

theorem O₀_owed (c : Dev nD) (g : GSem nD τ sig) (u : Unit) (hp : 0 < O₀ c g u) : IsOwed c g := by
  unfold O₀ at hp
  rcases Pipeline.add_pos_cases hp with hp | hp
  · exact O₁_owed c g u hp
  · exact Or.inr (Or.inl (Pipeline.tallyAt_pos hp).1)

theorem zero_owed (c : Dev nD) (g : GSem nD τ sig) (u : Unit) (hp : 0 < (0 : CellTallies nD τ sig Unit) g u) : IsOwed c g :=
  absurd hp (Nat.lt_irrefl 0)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl

theorem lv_dCell (c : Dev nD) (k : Fin 4) (h : Fin 31) (u : Unit) :
    lv (dCell c k h) u = if k.val = 1 then 2 + h.val else if k.val = 3 then 33 + h.val else 0 := by
  show (if 39 ≤ (dsem k h).val ∧ (dsem k h).val < 70 then (dsem k h).val - 37
    else if 101 ≤ (dsem k h).val then (dsem k h).val - 68 else 0) = _
  have e := dsem_val k h
  have := h.isLt
  have := k.isLt
  split_ifs <;> omega

theorem lv_wrecv (c : Dev nD) (h : Fin 31) (u : Unit) : lv (dCell c 1 h) u = 2 + h.val := by rw [lv_dCell]; rfl
theorem lv_orecv (c : Dev nD) (h : Fin 31) (u : Unit) : lv (dCell c 3 h) u = 33 + h.val := by rw [lv_dCell]; rfl

theorem lv_low (c : Dev nD) (q : DmaSem sig) (h1 : ∀ h, q ≠ dsem 1 h) (h3 : ∀ h, q ≠ dsem 3 h) (u : Unit) :
    lv ((c : Thread nD τ), .dma q) u = 0 := by
  show (if 39 ≤ q.val ∧ q.val < 70 then q.val - 37 else if 101 ≤ q.val then q.val - 68 else 0) = 0
  have hq : q.val < 132 := q.isLt
  rw [if_neg (fun hb => h1 ⟨q.val - 39, by omega⟩ (Fin.ext (by rw [dsem_val1]; show q.val = 39 + (q.val - 39); omega))),
    if_neg (fun hb => h3 ⟨q.val - 101, by omega⟩ (Fin.ext (by rw [dsem_val3]; show q.val = 101 + (q.val - 101); omega)))]

theorem IsOwed.L_mem {c : Dev nD} {g : GSem nD τ sig} (h : IsOwed c g) : () ∈ L g := by
  rcases h with rfl | rfl | ⟨h', rfl⟩ | ⟨h', rfl⟩ <;> (rw [L_tc]; exact Finset.mem_singleton_self _)

theorem IsOwed.lv_pos {c : Dev nD} {g : GSem nD τ sig} (h : IsOwed c g) (u : Unit) : 0 < lv g u := by
  rcases h with rfl | rfl | ⟨h', rfl⟩ | ⟨h', rfl⟩
  · rw [lv_bar]; decide
  · rw [lv_bar]; decide
  · rw [lv_wrecv]; omega
  · rw [lv_orecv]; omega

omit [FloatOps F] in

theorem mayWait_low (c : Dev nD) (q : DmaSem sig) (h1 : ∀ h, q ≠ dsem 1 h) (h3 : ∀ h, q ≠ dsem 3 h)
    (O : CellTallies nD τ sig Unit) (hO : ∀ g u, 0 < O g u → IsOwed c g) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => (hO g u hg).L_mem)
    (fun p hp => by rw [Finset.mem_singleton.mp hp]; exact (lv_low c q h1 h3 ()).le)
    (fun g u hg => (hO g u hg).lv_pos u)

omit [FloatOps F] in

theorem mayWait_wsend (c : Dev nD) (h : Fin 31) (O : CellTallies nD τ sig Unit) (hO : ∀ g u, 0 < O g u → IsOwed c g) :
    (levAts L lv : sProp 𝕄) ⊢ MayWait (c : Thread nD τ) (.dma (dsem 0 h)) () O :=
  mayWait_low c _ (fun h' => dsem_ne_of_ne (by decide) h h') (fun h' => dsem_ne_of_ne (by decide) h h') O hO

omit [FloatOps F] in

theorem mayWait_osend (c : Dev nD) (h : Fin 31) (O : CellTallies nD τ sig Unit) (hO : ∀ g u, 0 < O g u → IsOwed c g) :
    (levAts L lv : sProp 𝕄) ⊢ MayWait (c : Thread nD τ) (.dma (dsem 2 h)) () O :=
  mayWait_low c _ (fun h' => dsem_ne_of_ne (by decide) h h') (fun h' => dsem_ne_of_ne (by decide) h h') O hO

omit [FloatOps F] in

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O :=
  mayWait_low c q (fun h e => by have := congrArg Fin.val e; rw [dsem_val1] at this; omega)
    (fun h e => by have := congrArg Fin.val e; rw [dsem_val3] at this; omega) O
    (by rcases hO with rfl | rfl
        · exact O₀_owed c
        · exact zero_owed c)

omit [FloatOps F] in

theorem mayWait_bar (c : Dev nD) :
    (levAts L lv : sProp 𝕄) ⊢ MayWait (c : Thread nD τ) (.reg barS) () (OW c 0) :=
  MayOwe.of_cut (L := L) (lev := lv) 1
    (fun p hp => by rw [Finset.mem_singleton.mp hp, L_tc]; exact Finset.mem_singleton_self _)
    (fun g u hg => (OW_owed c 0 g u hg).L_mem)
    (fun p hp => by rw [Finset.mem_singleton.mp hp]; exact (lv_bar c ()).le)
    (fun g u hg => by
      rcases OW_pos hg with ⟨h', rfl⟩ | ⟨h', -, rfl⟩
      · rw [lv_orecv]; omega
      · rw [lv_wrecv]; omega)

omit [FloatOps F] in

theorem mayWait_wrecv (c : Dev nD) (h : Fin 31) :
    (levAts L lv : sProp 𝕄) ⊢ MayWait (c : Thread nD τ) (.dma (dsem 1 h)) () (OW c (h.val + 1)) :=
  MayOwe.of_cut (L := L) (lev := lv) (2 + h.val)
    (fun p hp => by rw [Finset.mem_singleton.mp hp, L_tc]; exact Finset.mem_singleton_self _)
    (fun g u hg => (OW_owed c _ g u hg).L_mem)
    (fun p hp => by rw [Finset.mem_singleton.mp hp]; exact (lv_wrecv c h ()).le)
    (fun g u hg => by
      have := h.isLt
      rcases OW_pos hg with ⟨h', rfl⟩ | ⟨h', hle, rfl⟩
      · rw [lv_orecv]; omega
      · rw [lv_wrecv]; omega)

omit [FloatOps F] in

theorem mayWait_orecv (c : Dev nD) (h : Fin 31) :
    (levAts L lv : sProp 𝕄) ⊢ MayWait (c : Thread nD τ) (.dma (dsem 3 h)) () (OO c (h.val + 1)) :=
  MayOwe.of_cut (L := L) (lev := lv) (33 + h.val)
    (fun p hp => by rw [Finset.mem_singleton.mp hp, L_tc]; exact Finset.mem_singleton_self _)
    (fun g u hg => (OO_owed c _ g u hg).L_mem)
    (fun p hp => by rw [Finset.mem_singleton.mp hp]; exact (lv_orecv c h ()).le)
    (fun g u hg => by
      obtain ⟨h', hle, rfl⟩ := OO_pos hg
      rw [lv_orecv]; omega)

end Cert.KernelIdeal.RM

end
-- ==== Proof.RM.Peel.lean ====
import proofs.«900986_g7700000000000987_dist_mlpseq_tp1d_bs_rep_b512_d256_h512_v7x_i32_bf16_1_alg».proof.Proof.RM.Proto

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem stepsFrom_succ (h : ℕ) (hh : h < 31) :
    (Finset.univ : Finset (Fin 31)).filter (fun x => h ≤ x.val)
      = insert (⟨h, hh⟩ : Fin 31) ((Finset.univ : Finset (Fin 31)).filter (fun x => h + 1 ≤ x.val)) := by
  ext x
  simp only [Finset.mem_filter, Finset.mem_univ, true_and, Finset.mem_insert, Fin.ext_iff]
  omega

theorem notMem_stepsFrom_succ (h : ℕ) (hh : h < 31) :
    (⟨h, hh⟩ : Fin 31) ∉ (Finset.univ : Finset (Fin 31)).filter (fun x => h + 1 ≤ x.val) := by
  simp only [Finset.mem_filter, Finset.mem_univ, true_and]
  omega

theorem stepsBefore_succ (h : ℕ) (hh : h < 31) :
    (Finset.univ : Finset (Fin 31)).filter (fun x => x.val < h + 1)
      = insert (⟨h, hh⟩ : Fin 31) ((Finset.univ : Finset (Fin 31)).filter (fun x => x.val < h)) := by
  ext x
  simp only [Finset.mem_filter, Finset.mem_univ, true_and, Finset.mem_insert, Fin.ext_iff]
  omega

theorem notMem_stepsBefore (h : ℕ) (hh : h < 31) :
    (⟨h, hh⟩ : Fin 31) ∉ (Finset.univ : Finset (Fin 31)).filter (fun x => x.val < h) := by
  simp only [Finset.mem_filter, Finset.mem_univ, true_and]
  omega

theorem stepsBefore_zero : (Finset.univ : Finset (Fin 31)).filter (fun x => x.val < 0) = ∅ := by
  ext x
  simp only [Finset.mem_filter, Finset.mem_univ, true_and, Finset.notMem_empty, iff_false]
  omega

theorem TokW_succ {F : FTy → Type} [FloatOps F] (c : Dev nD) (h : ℕ) (hh : h < 31) :
    (TokW (F := F) c h : sProp (MT nD τ sig Unit (Elt F) ℕ UU ℕ)) = iprop(stepW (F := F) c ⟨h, hh⟩ ∗ TokW (F := F) c (h + 1)) := by
  unfold TokW
  rw [stepsFrom_succ h hh, bigSep_insert (notMem_stepsFrom_succ h hh)]
  rfl

theorem TokO_succ {F : FTy → Type} [FloatOps F] (c : Dev nD) (h : ℕ) (hh : h < 31) :
    (TokO (F := F) c h : sProp (MT nD τ sig Unit (Elt F) ℕ UU ℕ)) = iprop(stepO (F := F) c ⟨h, hh⟩ ∗ TokO (F := F) c (h + 1)) := by
  unfold TokO
  rw [stepsFrom_succ h hh, bigSep_insert (notMem_stepsFrom_succ h hh)]
  rfl

theorem ClosedW_zero {F : FTy → Type} [FloatOps F] (c : Dev nD) : (ClosedW (F := F) c 0 : sProp (MT nD τ sig Unit (Elt F) ℕ UU ℕ)) = iprop(emp) := by
  unfold ClosedW
  rw [stepsBefore_zero, bigSep_empty]
  rfl

theorem ClosedO_zero {F : FTy → Type} [FloatOps F] (c : Dev nD) : (ClosedO (F := F) c 0 : sProp (MT nD τ sig Unit (Elt F) ℕ UU ℕ)) = iprop(emp) := by
  unfold ClosedO
  rw [stepsBefore_zero, bigSep_empty]
  rfl

theorem ClosedW_succ {F : FTy → Type} [FloatOps F] (c : Dev nD) (h : ℕ) (hh : h < 31) :
    (ClosedW (F := F) c (h + 1) : sProp (MT nD τ sig Unit (Elt F) ℕ UU ℕ))
      = iprop((semVal (dCell c 0 ⟨h, hh⟩) 0 ∗ semVal (dCell c 1 ⟨h, hh⟩) 0) ∗ ClosedW (F := F) c h) := by
  unfold ClosedW
  rw [stepsBefore_succ h hh, bigSep_insert (notMem_stepsBefore h hh)]
  rfl

theorem ClosedO_succ {F : FTy → Type} [FloatOps F] (c : Dev nD) (h : ℕ) (hh : h < 31) :
    (ClosedO (F := F) c (h + 1) : sProp (MT nD τ sig Unit (Elt F) ℕ UU ℕ))
      = iprop((semVal (dCell c 2 ⟨h, hh⟩) 0 ∗ semVal (dCell c 3 ⟨h, hh⟩) 0) ∗ ClosedO (F := F) c h) := by
  unfold ClosedO
  rw [stepsBefore_succ h hh, bigSep_insert (notMem_stepsBefore h hh)]
  rfl

instance records_persistent {F : FTy → Type} [FloatOps F] (m : (ℓ : Loc nD τ sig) → Buf (Elt F) ℓ) (K : Dev nD × CI → ℕ) :
    Persistent (records m K : sProp (MT nD τ sig Unit (Elt F) ℕ UU ℕ)) := by
  unfold records
  infer_instance

theorem records_cellInv {F : FTy → Type} [FloatOps F] (m : (ℓ : Loc nD τ sig) → Buf (Elt F) ℓ) (K : Dev nD × CI → ℕ) (ck : Dev nD × CI) :
    (records m K : sProp (MT nD τ sig Unit (Elt F) ℕ UU ℕ)) ⊢ cellInv ER (ringRd m) (K ck) (kcell ck) := by
  unfold records
  exact BIBase.Entails.trans (BIBase.Entails.trans Laws.sep_and and_elimL) (bigSep_elim (Finset.mem_univ ck))

theorem records_reached {F : FTy → Type} [FloatOps F] (m : (ℓ : Loc nD τ sig) → Buf (Elt F) ℓ) (K : Dev nD × CI → ℕ) (ck : Dev nD × CI) :
    (records m K : sProp (MT nD τ sig Unit (Elt F) ℕ UU ℕ)) ⊢ reached ER (kcell ck) 0 := by
  unfold records
  exact BIBase.Entails.trans (BIBase.Entails.trans Laws.sep_and and_elimR) (bigSep_elim (Finset.mem_univ ck))

end Cert.KernelIdeal.RM
-- ==== Proof.RM.Launch.lean ====
import proofs.«900986_g7700000000000987_dist_mlpseq_tp1d_bs_rep_b512_d256_h512_v7x_i32_bf16_1_alg».proof.Proof.RM.Glue
import proofs.«900986_g7700000000000987_dist_mlpseq_tp1d_bs_rep_b512_d256_h512_v7x_i32_bf16_1_alg».proof.Proof.RM.Sched
import proofs.«900986_g7700000000000987_dist_mlpseq_tp1d_bs_rep_b512_d256_h512_v7x_i32_bf16_1_alg».proof.Proof.RM.Peel

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 4 × Fin 31 → SemLoc sig := fun kh => .dma (dsem kh.1 kh.2)

omit [FloatOps F] in
theorem ownSemFacts : Pipeline.OwnSemFacts cfg0.spec osem := by decide +kernel

def ringCells : Finset (GSem nD τ sig) := Finset.univ.map ⟨kcell, kcell_injective⟩

abbrev TI : Type := Bool ⊕ (Fin 4 × Fin 31)
abbrev tokOf (cj : Dev nD × TI) : GSem nD τ sig × ℕ × Bool := match cj.2 with
  | .inl b => (barCell cj.1, 0, b)
  | .inr kh => (dCell cj.1 kh.1 kh.2, 0, false)

omit [FloatOps F] in
theorem tokOf_injective : Function.Injective (tokOf : Dev nD × TI → GSem nD τ sig × ℕ × Bool) := by
  rintro ⟨c, j⟩ ⟨c', j'⟩ h
  have h1 : c = c' := by
    have := congrArg (fun x : GSem nD τ sig × ℕ × Bool => x.1.1.1) h
    rcases j with b | kh <;> rcases j' with b' | kh' <;> exact this
  subst h1
  have h2 : j = j' := by
    rcases j with b | kh <;> rcases j' with b' | kh'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (ownSemFacts.inj (congrArg (fun x : GSem nD τ sig × ℕ × Bool => x.1.2) h))
  subst h2; rfl

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true)
    ∗ bigSep Finset.univ fun kh : Fin 4 × Fin 31 => dutyTok ER (dCell c kh.1 kh.2) 0 false)

def G (c : Dev nD) : sProp 𝕄 :=
  iprop((bigSep Finset.univ fun i : CI => roundState ER (ringRd m) (kcell (c, i)) 0)
    ∗ (bigSep Finset.univ fun i : CI => iprop(atPos ER (kcell (c, i)) 0 ∅ 0 ∗ reached ER (kcell (c, i)) 0)) ∗ toks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in
theorem ownSems0_eq (c : Dev nD) : (Pipeline.ownSems0 osem c : sProp 𝕄)
    = bigSep Finset.univ fun kh : Fin 4 × Fin 31 => semVal (dCell c kh.1 kh.2) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    (iprop(Pipeline.ownSems0 osem c ∗ unscopedSems0 c) : sProp 𝕄)
      ⊢ (bigSep Finset.univ fun i : CI => semVal (kcell (c, i)) 0 : sProp 𝕄) := by
  rw [ownSems0_eq, unscopedSems0_eq, bigSep_univ_option]
  exact sep_comm.1

theorem core_alloc (c : Dev nD) :
    (iprop(Pipeline.ownSems0 osem c ∗ unscopedSems0 c ∗ G m c) : sProp 𝕄)
      ⊢ |={Set.univ}=> iprop((bigSep Finset.univ fun i : CI => iprop(∃ κ : ℕ, cellInv ER (ringRd m) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · iframe
  imod (show iprop((bigSep Finset.univ fun i : CI => semVal (kcell (c, i)) 0) ∗ bigSep Finset.univ fun i : CI => roundState ER (ringRd m) (kcell (c, i)) 0)
      ⊢ (|={Set.univ}=> bigSep Finset.univ fun i : CI => iprop(∃ κ : ℕ, cellInv ER (ringRd m) κ (kcell (c, i))) : sProp 𝕄) from by
        rw [← bigSep_sep']
        exact (bigSep_mono fun i _ => (Rounds.body_intro ER (ringRd m) (kcell (c, i))).trans inv_alloc).trans (bigSep_fupd _ _)) $$ [Hv Hst] with Hinv
  · iframe
  imodintro
  iframe

def linear (c : Dev nD) : sProp 𝕄 :=
  iprop((bigSep Finset.univ fun i : CI => atPos ER (kcell (c, i)) 0 ∅ 0) ∗ payToks (F := F) c)

theorem ghost_intro (K : Dev nD × CI → ℕ) (c : Dev nD) : iprop(records m K ∗ linear (F := F) c) ⊢ G' m c := by
  unfold linear G' ghost
  iintro ⟨#HR, Hat, Htok⟩
  iexists K
  iframe # ∗

abbrev rowToks (k : Fin 4) (c : Dev nD) : sProp 𝕄 := bigSep Finset.univ fun h : Fin 31 => dutyTok ER (dCell c k h) 0 false

omit [FloatOps F] in
theorem toks_eq (c : Dev nD) : (toks c : sProp 𝕄)
    = iprop((dutyTok ER (barCell c) 0 false ∗ dutyTok ER (barCell c) 0 true)
        ∗ rowToks 0 c ∗ rowToks 1 c ∗ rowToks 2 c ∗ rowToks 3 c) := by
  unfold toks; rw [bigSep_rows]

omit [FloatOps F] in
theorem toks_around : (bigSep Finset.univ fun c : Dev nD => (toks c : sProp 𝕄)) ⊢ bigSep Finset.univ fun c : Dev nD => payToks c := by
  simp only [toks_eq]
  unfold payToks
  simp only [bigSep_sep']
  rw [bigSep_univ_equiv ringEquiv (fun c : Dev nD => (dutyTok ER (barCell c) 0 false : sProp 𝕄)),
    bigSep_univ_equiv ringEquiv.symm (fun c : Dev nD => (dutyTok ER (barCell c) 0 true : sProp 𝕄)),
    bigSep_univ_equiv ringEquiv (fun c : Dev nD => (rowToks 1 c : sProp 𝕄)),
    bigSep_univ_equiv ringEquiv (fun c : Dev nD => (rowToks 3 c : sProp 𝕄))]
  iintro ⟨⟨Hf, Ht⟩, H0, H1, H2, H3⟩
  iframe
  isplitl [Ht]; · iexact Ht
  isplitl [Hf]; · iexact Hf
  isplitl [H1]; · iexact H1
  iexact H3

theorem regroup :
    (bigSep Finset.univ fun c : Dev nD => iprop((bigSep Finset.univ fun i : CI => iprop(∃ κ : ℕ, cellInv ER (ringRd m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CI => iprop(∃ κ : ℕ, cellInv ER (ringRd m) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun i : CI => (atPos ER (kcell (c, i)) 0 ∅ 0 : sProp 𝕄)) payToks).symm)
    iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem stage_sem_lt : ∀ (w : Fin 8) (s : Fin (cfg0.win w).nbuf), ((cfg0.win w).sem s).val < 8 := by decide +kernel

theorem waits (c : Dev nD) : (levAts L lv : sProp 𝕄) ⊢ Pipeline.cellsWaits cfgs (dats m) () 0 c :=
  Pipeline.cellsWaits_intro cfgs (dats m) () 0 c fun w s t =>
    mayWait_stage c _ (stage_sem_lt w s) _ (by
      rcases t with ⟨_ | _, ht⟩
      · exact Or.inl rfl
      · exact Or.inr rfl)

omit [FloatOps F] in
theorem cred_two (g : GSem nD τ sig) : iprop(cred (tallyAt g () 1) ∗ cred (tallyAt g () 1)) ⊢ (cred (tallyAt g () 2) : sProp 𝕄) := by
  have e : (tallyAt g () 2 : CellTallies nD τ sig Unit) = tallyAt g () 1 + tallyAt g () 1 := (tallyAt_add g () 1 1).symm
  rw [e]; exact (cred_add _ _).2

omit [FloatOps F] in
theorem cred_row (k : Fin 4) (n : ℕ) (c : Dev nD) :
    (bigSep Finset.univ fun h' : Fin 31 => (Pipeline.launchCred (fun d => tallyAt (dCell (rgt d) k h') () n) c : sProp 𝕄))
      ⊢ bigSep Finset.univ fun h' : Fin 31 => cred (tallyAt (dCell c k h') () n) :=
  bigSep_mono fun h' _ => Pipeline.launchCred_tallyAt (.dma (dsem k h')) rgt lft rgt_lft lft_rgt () n c

omit [FloatOps F] in
theorem creds_intro (c : Dev nD) : (Pipeline.launchCred O₀ c : sProp 𝕄) ⊢ launchCreds c := by
  show (Pipeline.launchCred (fun d => ((_ + _) + _) + _) c : sProp 𝕄) ⊢ _
  unfold OO
  rw [Pipeline.launchCred_add, Pipeline.launchCred_add, Pipeline.launchCred_add, Pipeline.launchCred_sum, Pipeline.launchCred_sum, filter_ge_zero]
  unfold launchCreds
  iintro ⟨⟨⟨H3, H1⟩, HR⟩, HL⟩
  isplitl [HR HL]
  · iapply (cred_two (F := F) (barCell c))
    isplitl [HR]
    · iapply (Pipeline.launchCred_tallyAt (.reg barS) rgt lft rgt_lft lft_rgt () 1 c); iexact HR
    · iapply (Pipeline.launchCred_tallyAt (.reg barS) lft rgt lft_rgt rgt_lft () 1 c); iexact HL
  isplitl [H1]
  · iapply (cred_row (F := F) 1 Nw c); iexact H1
  · iapply (cred_row (F := F) 3 No c); iexact H3

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  iframe
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, Hz⟩
  iframe
  iexists _; iexact Hr

theorem share_eq (c : Dev nD) (w : Fin cfg0.W) : (dats m 0 c).share w = fullShare := by unfold Dat.share; split <;> rfl

theorem body_obligation_of
    (h : ∀ c : Dev nD, bodyPre' m c ⊢ wp frame (wpE (defs₀ (F := F)) 𝒱₀ c none) Set.univ (bodyProg (F := F)) (fun _ => bodyPost m c)) :
    ∀ c : Dev nD, BodyObligation (dats (F := F) m 0 c) (defs₀ (F := F)) 𝒱₀ () Set.univ := fun c t => by
  rw [fin_N0 t]
  exact h c

theorem final_out (c : Dev nD) : (dats m 0 c).arrAt (7 : Fin 8) cfg0.N = outFinal m := by
  have h1 : ((cfg0.win (7 : Fin 8)).blk t0_0).view.read (Elt F) ((dats m 0 c).arrAt (7 : Fin 8) cfg0.N) = (dats m 0 c).flushed (7 : Fin 8) t0_0 := by
    rw [show cfg0.N = (t0_0 : Fin cfg0.N).val + 1 from rfl, (dats m 0 c).arrAt_succ (7 : Fin 8) t0_0, if_pos (flush0_7 t0_0)]
    exact View.read_write_univ _ _
  rw [Memref.read_access_unit_zero (Elt F) main_v1 hz_out7 (fun a => by fin_cases a <;> decide)] at h1
  rw [h1]
  rfl

theorem run_main (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 7).trans (final_out m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _),
      ((h c).1 6).trans ((dats m 0 c).arrAt_in 6 rfl _)⟩)

end Cert.KernelIdeal.RM

end
-- ==== Proof.RM.Regions.lean ====
import proofs.«900986_g7700000000000987_dist_mlpseq_tp1d_bs_rep_b512_d256_h512_v7x_i32_bf16_1_alg».proof.Proof.RM.Proto
import Idealize.ShloMosaic.Rules.PointsTo

set_option synthInstance.maxSize 4096

noncomputable section

namespace Cert.KernelIdeal.RM

open Cert.KernelIdeal Cert.KernelIdeal.Gen
open Idealize.ShloMosaic
open Idealize.ShloMosaic.TcCoe
open Idealize.SL
open Idealize.SL.RA Idealize.SL.Sem Idealize.SL.ProofMode
open Idealize.SL.BI (sProp)
open scoped Idealize.SL.BI
open Idealize.SL.BI.BIBase Idealize.SL.BI.Laws

theorem slotM_of_off (j : Dev nD) (off : Fin 4 → Nat) (e : off = ![j.val, 0, 0, 0])
    (inb : ∀ a, off a + S1x6x512x256.size a ≤ S32x6x512x256.size a)
    (sq : S1x6x512x256.Squeezes S6x512x256) :
    (wallM.slice (Rect.unit (s := S32x6x512x256) off S1x6x512x256.size inb) (fun _ => rfl)).squeeze S6x512x256 sq
      = slotM j := by
  subst e; rfl

theorem blkM_of_off (j : Dev nD) (off : Fin 2 → Nat) (e : off = ![512 * j.val, 0])
    (inb : ∀ a, off a + S512x256.size a ≤ S16384x256.size a) :
    outM.slice (Rect.unit (s := S16384x256) off S512x256.size inb) (fun _ => rfl) = blkM j := by
  subst e; rfl

@[sl_canon] theorem slotM_step (c : Dev nD) (h : Fin 31)
    (inb : ∀ a, (Cert.KernelIdeal.k0_off7 c (BitVec.ofNat 32 h.val)) a + S1x6x512x256.size a ≤ S32x6x512x256.size a)
    (sq : S1x6x512x256.Squeezes S6x512x256) :
    (wallM.slice (Rect.unit (s := S32x6x512x256) (Cert.KernelIdeal.k0_off7 c (BitVec.ofNat 32 h.val)) S1x6x512x256.size inb)
        (fun _ => rfl)).squeeze S6x512x256 sq = slotM (srcAt c h.val) :=
  slotM_of_off _ _ (off7_eq c h) inb sq

theorem slotM_step_nat (c : Dev nD) (h : ℕ) (hh : h < 31)
    (inb : ∀ a, (Cert.KernelIdeal.k0_off7 c (BitVec.ofNat 32 h)) a + S1x6x512x256.size a ≤ S32x6x512x256.size a)
    (sq : S1x6x512x256.Squeezes S6x512x256) :
    (wallM.slice (Rect.unit (s := S32x6x512x256) (Cert.KernelIdeal.k0_off7 c (BitVec.ofNat 32 h)) S1x6x512x256.size inb)
        (fun _ => rfl)).squeeze S6x512x256 sq = slotM (srcAt c h) :=
  slotM_of_off _ _ (off7_eq_nat c h hh) inb sq

@[sl_canon] theorem blkM_step (c : Dev nD) (h : Fin 31)
    (inb : ∀ a, (Cert.KernelIdeal.k0_off15 c (BitVec.ofNat 32 h.val)) a + S512x256.size a ≤ S16384x256.size a) :
    outM.slice (Rect.unit (s := S16384x256) (Cert.KernelIdeal.k0_off15 c (BitVec.ofNat 32 h.val)) S512x256.size inb)
        (fun _ => rfl) = blkM (srcAt c h.val) :=
  blkM_of_off _ _ (off15_eq c h) inb

theorem blkM_step_nat (c : Dev nD) (h : ℕ) (hh : h < 31)
    (inb : ∀ a, (Cert.KernelIdeal.k0_off15 c (BitVec.ofNat 32 h)) a + S512x256.size a ≤ S16384x256.size a) :
    outM.slice (Rect.unit (s := S16384x256) (Cert.KernelIdeal.k0_off15 c (BitVec.ofNat 32 h)) S512x256.size inb)
        (fun _ => rfl) = blkM (srcAt c h) :=
  blkM_of_off _ _ (off15_eq_nat c h hh) inb

@[sl_canon] theorem blkM_own (c : Dev nD)
    (inb : ∀ a, (Cert.KernelIdeal.k0_off14 c) a + S512x256.size a ≤ S16384x256.size a) :
    outM.slice (Rect.unit (s := S16384x256) (Cert.KernelIdeal.k0_off14 c) S512x256.size inb) (fun _ => rfl) = blkM c :=
  blkM_of_off _ _ (Gen.k0_off14_eq c) inb

theorem wallSet_eq (j : Dev nD) :
    wallSet j = (Rect.unit (s := S32x6x512x256) ![j.val, 0, 0, 0] S1x6x512x256.size (slot_inb j)).set := by
  unfold wallSet slotM
  exact (View.set_reshape _ _).trans (View.set_slice_whole (sig := sig) (κ := .tc) cc0_scratch0
    (Rect.unit (s := S32x6x512x256) ![j.val, 0, 0, 0] S1x6x512x256.size (slot_inb j)))

theorem mem_wallSet {j : Dev nD} {i : S32x6x512x256.Idx} : i ∈ wallSet j ↔ ((i 0 : Fin 32) : ℕ) = j.val := by
  rw [wallSet_eq, Rect.mem_set_unit]
  constructor
  · intro h
    have h0 := h 0
    change j.val ≤ ((i 0 : Fin 32) : ℕ) ∧ ((i 0 : Fin 32) : ℕ) < j.val + 1 at h0
    omega
  · intro h a
    match a with
    | ⟨0, _⟩ =>
      change j.val ≤ ((i 0 : Fin 32) : ℕ) ∧ ((i 0 : Fin 32) : ℕ) < j.val + 1
      omega
    | ⟨1, _⟩ =>
      have hlt : ((i 1 : Fin 6) : ℕ) < 6 := (i 1).isLt
      change 0 ≤ ((i 1 : Fin 6) : ℕ) ∧ ((i 1 : Fin 6) : ℕ) < 0 + 6
      omega
    | ⟨2, _⟩ =>
      have hlt : ((i 2 : Fin 512) : ℕ) < 512 := (i 2).isLt
      change 0 ≤ ((i 2 : Fin 512) : ℕ) ∧ ((i 2 : Fin 512) : ℕ) < 0 + 512
      omega
    | ⟨3, _⟩ =>
      have hlt : ((i 3 : Fin 256) : ℕ) < 256 := (i 3).isLt
      change 0 ≤ ((i 3 : Fin 256) : ℕ) ∧ ((i 3 : Fin 256) : ℕ) < 0 + 256
      omega
    | ⟨n + 4, hn⟩ => exact absurd hn (Nat.not_lt.2 (Nat.le_add_left 4 n))

theorem mem_wallSets {S : Finset (Dev nD)} {i : S32x6x512x256.Idx} :
    i ∈ wallSets S ↔ ∃ j ∈ S, ((i 0 : Fin 32) : ℕ) = j.val := by
  unfold wallSets
  rw [Finset.mem_biUnion]
  exact exists_congr fun j => and_congr_right fun _ => mem_wallSet

theorem wallSet_disjoint {j j' : Dev nD} (h : j ≠ j') : Disjoint (wallSet j) (wallSet j') :=
  Finset.disjoint_left.mpr fun i hi hi' => h (Fin.ext ((mem_wallSet.mp hi).symm.trans (mem_wallSet.mp hi')))

theorem wallSets_univ : wallSets Finset.univ = Finset.univ := by
  ext i
  simp only [Finset.mem_univ, iff_true]
  exact mem_wallSets.mpr ⟨(i 0 : Fin 32), Finset.mem_univ _, rfl⟩

theorem wallSets_singleton (j : Dev nD) : wallSets {j} = wallSet j := Finset.singleton_biUnion

theorem wallSets_insert (j : Dev nD) (S : Finset (Dev nD)) : wallSets (insert j S) = wallSet j ∪ wallSets S :=
  Finset.biUnion_insert

theorem wallSet_disjoint_wallSets {j : Dev nD} {S : Finset (Dev nD)} (hj : j ∉ S) : Disjoint (wallSet j) (wallSets S) :=
  (Finset.disjoint_biUnion_right _ _ _).mpr fun j' hj' => wallSet_disjoint fun e => hj (e ▸ hj')

theorem outSet_eq (j : Dev nD) :
    outSet j = (Rect.unit (s := S16384x256) ![512 * j.val, 0] S512x256.size (blk_inb j)).set := by
  unfold outSet blkM
  exact View.set_slice_whole (sig := sig) (κ := .tc) cc0_stg7_0
    (Rect.unit (s := S16384x256) ![512 * j.val, 0] S512x256.size (blk_inb j))

theorem mem_outSet {j : Dev nD} {i : S16384x256.Idx} : i ∈ outSet j ↔ ((i 0 : Fin 16384) : ℕ) / 512 = j.val := by
  rw [outSet_eq, Rect.mem_set_unit]
  have hj : j.val < 32 := j.isLt
  constructor
  · intro h
    have h0 := h 0
    change 512 * j.val ≤ ((i 0 : Fin 16384) : ℕ) ∧ ((i 0 : Fin 16384) : ℕ) < 512 * j.val + 512 at h0
    omega
  · intro h a
    match a with
    | ⟨0, _⟩ =>
      change 512 * j.val ≤ ((i 0 : Fin 16384) : ℕ) ∧ ((i 0 : Fin 16384) : ℕ) < 512 * j.val + 512
      omega
    | ⟨1, _⟩ =>
      have hlt : ((i 1 : Fin 256) : ℕ) < 256 := (i 1).isLt
      change 0 ≤ ((i 1 : Fin 256) : ℕ) ∧ ((i 1 : Fin 256) : ℕ) < 0 + 256
      omega
    | ⟨n + 2, hn⟩ => exact absurd hn (Nat.not_lt.2 (Nat.le_add_left 2 n))

theorem mem_outSets {S : Finset (Dev nD)} {i : S16384x256.Idx} :
    i ∈ outSets S ↔ ∃ j ∈ S, ((i 0 : Fin 16384) : ℕ) / 512 = j.val := by
  unfold outSets
  rw [Finset.mem_biUnion]
  exact exists_congr fun j => and_congr_right fun _ => mem_outSet

theorem outSet_disjoint {j j' : Dev nD} (h : j ≠ j') : Disjoint (outSet j) (outSet j') :=
  Finset.disjoint_left.mpr fun i hi hi' => h (Fin.ext ((mem_outSet.mp hi).symm.trans (mem_outSet.mp hi')))

theorem outSets_univ : outSets Finset.univ = Finset.univ := by
  ext i
  simp only [Finset.mem_univ, iff_true]
  have hlt : ((i 0 : Fin 16384) : ℕ) < 16384 := (i 0).isLt
  exact mem_outSets.mpr ⟨⟨((i 0 : Fin 16384) : ℕ) / 512, by show ((i 0 : Fin 16384) : ℕ) / 512 < 32; omega⟩, Finset.mem_univ _, rfl⟩

theorem outSets_singleton (j : Dev nD) : outSets {j} = outSet j := Finset.singleton_biUnion

theorem outSets_insert (j : Dev nD) (S : Finset (Dev nD)) : outSets (insert j S) = outSet j ∪ outSets S :=
  Finset.biUnion_insert

theorem outSet_disjoint_outSets {j : Dev nD} {S : Finset (Dev nD)} (hj : j ∉ S) : Disjoint (outSet j) (outSets S) :=
  (Finset.disjoint_biUnion_right _ _ _).mpr fun j' hj' => outSet_disjoint fun e => hj (e ▸ hj')

theorem wall_split {Ix : Type} [DecidableEq Ix] {Val : EltTy → Type} {Name : Type} [DecidableEq Name]
    {U : Type} [URA U] {Lvl : Type}
    (d : Dev nD) (S : Finset (Dev nD)) (j : Dev nD) (hj : j ∉ S) (q : PosShare TreeShare) (f : Buf Val ((d : Thread nD τ).loc cc0_scratch0)) :
    (((d : Thread nD τ).loc cc0_scratch0) ↦[wallSets (insert j S)]{q} f : sProp (MT nD τ sig Ix Val Name U Lvl))
      ⊣⊢ iprop((((d : Thread nD τ).loc cc0_scratch0) ↦[wallSet j]{q} f) ∗ ((d : Thread nD τ).loc cc0_scratch0) ↦[wallSets S]{q} f) := by
  rw [wallSets_insert]
  exact pointsTo_union (wallSet_disjoint_wallSets hj)

theorem wall_congr_one {Ix : Type} [DecidableEq Ix] {Val : EltTy → Type} {Name : Type} [DecidableEq Name]
    {U : Type} [URA U] {Lvl : Type}
    (d : Dev nD) (j : Dev nD) (q : PosShare TreeShare) (f g : Buf Val ((d : Thread nD τ).loc cc0_scratch0))
    (h : ∀ i : S32x6x512x256.Idx, ((i 0 : Fin 32) : ℕ) = j.val → f i = g i) :
    (((d : Thread nD τ).loc cc0_scratch0) ↦[wallSet j]{q} f : sProp (MT nD τ sig Ix Val Name U Lvl)) = ((d : Thread nD τ).loc cc0_scratch0) ↦[wallSet j]{q} g :=
  pointsTo_congr fun i hi => h i (mem_wallSet.mp hi)

theorem wall_univ {Ix : Type} [DecidableEq Ix] {Val : EltTy → Type} {Name : Type} [DecidableEq Name]
    {U : Type} [URA U] {Lvl : Type}
    (d : Dev nD) (q : PosShare TreeShare) (f : Buf Val ((d : Thread nD τ).loc cc0_scratch0)) :
    (((d : Thread nD τ).loc cc0_scratch0) ↦[Finset.univ]{q} f : sProp (MT nD τ sig Ix Val Name U Lvl)) = ((d : Thread nD τ).loc cc0_scratch0) ↦[wallSets Finset.univ]{q} f := by
  rw [wallSets_univ]

theorem out_split {Ix : Type} [DecidableEq Ix] {Val : EltTy → Type} {Name : Type} [DecidableEq Name]
    {U : Type} [URA U] {Lvl : Type}
    (d : Dev nD) (S : Finset (Dev nD)) (j : Dev nD) (hj : j ∉ S) (q : PosShare TreeShare) (f : Buf Val ((d : Thread nD τ).loc cc0_stg7_0)) :
    (((d : Thread nD τ).loc cc0_stg7_0) ↦[outSets (insert j S)]{q} f : sProp (MT nD τ sig Ix Val Name U Lvl))
      ⊣⊢ iprop((((d : Thread nD τ).loc cc0_stg7_0) ↦[outSet j]{q} f) ∗ ((d : Thread nD τ).loc cc0_stg7_0) ↦[outSets S]{q} f) := by
  rw [outSets_insert]
  exact pointsTo_union (outSet_disjoint_outSets hj)

theorem out_univ {Ix : Type} [DecidableEq Ix] {Val : EltTy → Type} {Name : Type} [DecidableEq Name]
    {U : Type} [URA U] {Lvl : Type}
    (d : Dev nD) (q : PosShare TreeShare) (f : Buf Val ((d : Thread nD τ).loc cc0_stg7_0)) :
    (((d : Thread nD τ).loc cc0_stg7_0) ↦[Finset.univ]{q} f : sProp (MT nD τ sig Ix Val Name U Lvl)) = ((d : Thread nD τ).loc cc0_stg7_0) ↦[outSets Finset.univ]{q} f := by
  rw [outSets_univ]

theorem mem_heldW {c j : Dev nD} {h : ℕ} : j ∈ heldW c h ↔ ∃ k, k < h + 1 ∧ srcAt c k = j := by
  unfold heldW
  rw [Finset.mem_image]
  exact exists_congr fun k => and_congr_left' Finset.mem_range

theorem mem_restW {c j : Dev nD} {h : ℕ} : j ∈ restW c h ↔ ∃ k, (h ≤ k ∧ k < 31) ∧ srcAt c k = j := by
  unfold restW
  rw [Finset.mem_image]
  exact exists_congr fun k => and_congr_left' Finset.mem_Ico

theorem heldW_zero (c : Dev nD) : heldW c 0 = {c} := by
  unfold heldW
  rw [Finset.range_one, Finset.image_singleton, srcAt_zero]

theorem heldW_succ (c : Dev nD) (h : ℕ) : heldW c (h + 1) = insert (srcAt c (h + 1)) (heldW c h) := by
  unfold heldW
  rw [Finset.range_add_one, Finset.image_insert]

theorem srcAt_notMem_heldW (c : Dev nD) (h : ℕ) (hh : h < 31) : srcAt c (h + 1) ∉ heldW c h := by
  intro hm
  obtain ⟨k, hk, e⟩ := mem_heldW.mp hm
  have := srcAt_injOn c k (h + 1) (by omega) (by omega) e
  omega

theorem srcAt_mem_heldW (c : Dev nD) (h : ℕ) : srcAt c h ∈ heldW c h :=
  mem_heldW.mpr ⟨h, Nat.lt_succ_self h, rfl⟩

theorem heldW_last (c : Dev nD) : heldW c 31 = Finset.univ := by
  ext j
  simp only [Finset.mem_univ, iff_true]
  obtain ⟨h, hh, e⟩ := srcAt_surj c j
  exact mem_heldW.mpr ⟨h, hh, e⟩

theorem restW_succ (c : Dev nD) (h : ℕ) (hh : h < 31) : restW c h = insert (srcAt c h) (restW c (h + 1)) := by
  ext j
  rw [Finset.mem_insert, mem_restW, mem_restW]
  constructor
  · rintro ⟨k, ⟨hk, hk'⟩, e⟩
    by_cases hkh : k = h
    · left; rw [← e, hkh]
    · right; exact ⟨k, ⟨by omega, hk'⟩, e⟩
  · rintro (e | ⟨k, ⟨hk, hk'⟩, e⟩)
    · exact ⟨h, ⟨le_refl h, hh⟩, e.symm⟩
    · exact ⟨k, ⟨by omega, hk'⟩, e⟩

theorem srcAt_notMem_restW (c : Dev nD) (h : ℕ) (hh : h < 31) : srcAt c h ∉ restW c (h + 1) := by
  intro hm
  obtain ⟨k, ⟨hk, hk'⟩, e⟩ := mem_restW.mp hm
  have := srcAt_injOn c k h (by omega) (by omega) e
  omega

theorem srcAt_last : ∀ c : Dev nD, srcAt c 31 = rgt c := by decide +kernel

theorem restW_zero (c : Dev nD) : restW c 0 = Finset.univ.erase (rgt c) := by
  ext j
  rw [mem_restW, Finset.mem_erase]
  constructor
  · rintro ⟨k, ⟨_, hk'⟩, e⟩
    refine ⟨fun ej => ?_, Finset.mem_univ _⟩
    have := srcAt_injOn c k 31 (by omega) (by omega) (by rw [e, ej, srcAt_last])
    omega
  · rintro ⟨hne, _⟩
    obtain ⟨k, hk, e⟩ := srcAt_surj c j
    by_cases hk31 : k = 31
    · exact absurd (by rw [← e, hk31, srcAt_last]) hne
    · exact ⟨k, ⟨Nat.zero_le k, by omega⟩, e⟩

section Steps
variable {F : FTy → Type} [FloatOps F]
variable (m : (ℓ : Loc nD τ sig) → Buf (Elt F) ℓ)

theorem wallPt_insert (c : Dev nD) (S : Finset (Dev nD)) (j : Dev nD) (hj : j ∉ S) :
    (wallPt m c (insert j S) : sProp (MT nD τ sig Unit (Elt F) ℕ UU ℕ)) ⊣⊢ iprop(wallPt m c {j} ∗ wallPt m c S) := by
  unfold wallPt
  rw [wallSets_singleton]
  exact wall_split c S j hj fullShare (wallFinal m)

theorem outPt_insert (c : Dev nD) (S : Finset (Dev nD)) (j : Dev nD) (hj : j ∉ S) :
    (outPt m c (insert j S) : sProp (MT nD τ sig Unit (Elt F) ℕ UU ℕ)) ⊣⊢ iprop(outPt m c {j} ∗ outPt m c S) := by
  unfold outPt
  rw [outSets_singleton]
  exact out_split c S j hj fullShare (outFinal m)

theorem wallAny_split (c : Dev nD) (S : Finset (Dev nD)) (j : Dev nD) (hj : j ∉ S) :
    (wallAny (F := F) c (insert j S) : sProp (MT nD τ sig Unit (Elt F) ℕ UU ℕ))
      ⊢ iprop(wallAny (F := F) c {j} ∗ wallAny (F := F) c S) := by
  unfold wallAny
  rw [wallSets_singleton]
  iintro ⟨%f, H⟩
  ihave H' := (wall_split c S j hj fullShare f).1 $$ H
  icases H' with ⟨Hj, HS⟩
  isplitl [Hj]
  · iexists f; iexact Hj
  · iexists f; iexact HS

theorem outAny_split (c : Dev nD) (S : Finset (Dev nD)) (j : Dev nD) (hj : j ∉ S) :
    (outAny (F := F) c (insert j S) : sProp (MT nD τ sig Unit (Elt F) ℕ UU ℕ))
      ⊢ iprop(outAny (F := F) c {j} ∗ outAny (F := F) c S) := by
  unfold outAny
  rw [outSets_singleton]
  iintro ⟨%f, H⟩
  ihave H' := (out_split c S j hj fullShare f).1 $$ H
  icases H' with ⟨Hj, HS⟩
  isplitl [Hj]
  · iexists f; iexact Hj
  · iexists f; iexact HS

theorem wallPt_held_succ (c : Dev nD) (h : ℕ) (hh : h < 31) :
    (wallPt m c (heldW c (h + 1)) : sProp (MT nD τ sig Unit (Elt F) ℕ UU ℕ))
      ⊣⊢ iprop(wallPt m c {srcAt c (h + 1)} ∗ wallPt m c (heldW c h)) := by
  rw [heldW_succ]
  exact wallPt_insert m c _ _ (srcAt_notMem_heldW c h hh)

theorem wallAny_rest_succ (d c : Dev nD) (h : ℕ) (hh : h < 31) :
    (wallAny (F := F) d (restW c h) : sProp (MT nD τ sig Unit (Elt F) ℕ UU ℕ))
      ⊢ iprop(wallAny (F := F) d {srcAt c h} ∗ wallAny (F := F) d (restW c (h + 1))) := by
  rw [restW_succ c h hh]
  exact wallAny_split d _ _ (srcAt_notMem_restW c h hh)

theorem outPt_held_succ (c : Dev nD) (h : ℕ) (hh : h < 31) :
    (outPt m c (heldW c (h + 1)) : sProp (MT nD τ sig Unit (Elt F) ℕ UU ℕ))
      ⊣⊢ iprop(outPt m c {srcAt c (h + 1)} ∗ outPt m c (heldW c h)) := by
  rw [heldW_succ]
  exact outPt_insert m c _ _ (srcAt_notMem_heldW c h hh)

theorem outAny_rest_succ (d c : Dev nD) (h : ℕ) (hh : h < 31) :
    (outAny (F := F) d (restW c h) : sProp (MT nD τ sig Unit (Elt F) ℕ UU ℕ))
      ⊢ iprop(outAny (F := F) d {srcAt c h} ∗ outAny (F := F) d (restW c (h + 1))) := by
  rw [restW_succ c h hh]
  exact outAny_split d _ _ (srcAt_notMem_restW c h hh)

theorem wallPt_held_take (c : Dev nD) (h : ℕ) :
    (wallPt m c (heldW c h) : sProp (MT nD τ sig Unit (Elt F) ℕ UU ℕ))
      ⊣⊢ iprop(wallPt m c {srcAt c h} ∗ wallPt m c ((heldW c h).erase (srcAt c h))) := by
  have e : heldW c h = insert (srcAt c h) ((heldW c h).erase (srcAt c h)) :=
    (Finset.insert_erase (srcAt_mem_heldW c h)).symm
  conv_lhs => rw [e]
  exact wallPt_insert m c _ _ (Finset.notMem_erase _ _)

theorem outPt_held_take (c : Dev nD) (h : ℕ) :
    (outPt m c (heldW c h) : sProp (MT nD τ sig Unit (Elt F) ℕ UU ℕ))
      ⊣⊢ iprop(outPt m c {srcAt c h} ∗ outPt m c ((heldW c h).erase (srcAt c h))) := by
  have e : heldW c h = insert (srcAt c h) ((heldW c h).erase (srcAt c h)) :=
    (Finset.insert_erase (srcAt_mem_heldW c h)).symm
  conv_lhs => rw [e]
  exact outPt_insert m c _ _ (Finset.notMem_erase _ _)

theorem outPt_last (c : Dev nD) :
    (outPt m c (heldW c 31) : sProp (MT nD τ sig Unit (Elt F) ℕ UU ℕ))
      = (((c : Thread nD τ).loc cc0_stg7_0) ↦{fullShare} (outFinal m)) := by
  unfold outPt
  rw [heldW_last, outSets_univ]

end Steps

end Cert.KernelIdeal.RM
-- ==== Proof.RM.Middle.lean ====
import proofs.«900986_g7700000000000987_dist_mlpseq_tp1d_bs_rep_b512_d256_h512_v7x_i32_bf16_1_alg».proof.Proof.RM.Proto
import proofs.«900986_g7700000000000987_dist_mlpseq_tp1d_bs_rep_b512_d256_h512_v7x_i32_bf16_1_alg».proof.Proof.RM.Regions
import proofs.«900986_g7700000000000987_dist_mlpseq_tp1d_bs_rep_b512_d256_h512_v7x_i32_bf16_1_alg».proof.Proof.RM.Peel
import Idealize.ShloMosaic.Lib.Pipeline.Value

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ)

local notation "𝕄" => MT nD τ sig Unit (Elt F) ℕ UU ℕ

-- `rd m t l` is by definition what the window at `[t, l, 0, 0]` reads, however the offsets are spelt.
theorem readAt_rd (t : ℕ) (ht : t < 32) (l : Fin 6) (off : Fin 4 → ℕ)
    (hoff : off = ![t, l.val, 0, 0]) (hinb : ∀ a, off a + S1x1x512x256.size a ≤ S32x6x512x256.size a) :
    wallM.view.readAt (Elt F) (Rect.unit (s := S32x6x512x256) off S1x1x512x256.size hinb).toLoadRect (wallFinal m) = rd m t l := by
  subst hoff
  exact (rd_of_lt m t ht l).symm

-- Each trip only reads the weight array and applies `pay` to what it reads, which is the recursion defining `accN`: induction on the trips.
theorem wp_layer (c : Dev nD) (l : Fin 3) {w : ℕ} (lp : Scf.Loop w) (ok : lp.OK)
    (htr : Scf.trips lp.lb lp.ub lp.st = 32)
    (pay : FVec F S512x256 .f32 → Vec F S1x1x512x256 .bf16 → Vec F S1x1x512x256 .bf16 → FVec F S512x256 .f32)
    (o1 o2 : Fin lp.trips → Fin 4 → ℕ) (h1 : ∀ k, o1 k = ![k.val, l.val, 0, 0]) (h2 : ∀ k, o2 k = ![k.val, l.val + 3, 0, 0])
    (i1 : ∀ k a, o1 k a + S1x1x512x256.size a ≤ S32x6x512x256.size a)
    (i2 : ∀ k a, o2 k a + S1x1x512x256.size a ≤ S32x6x512x256.size a)
    (Q : FVec F S512x256 .f32 → sProp 𝕄) :
    (wallM.view.loc c.tc ↦{fullShare} wallFinal m) ⊢ iprop(((wallM.view.loc c.tc ↦{fullShare} wallFinal m) -∗ Q (accN m pay l 32)) -∗ wp frame (wpE (defs₀ (F := F)) 𝒱₀ c.tc none) Set.univ
      (Scf.Loop.for lp ok (k0_pay8 (F := F)) fun k acc =>
        .op (.load wallM (Rect.unit (s := S32x6x512x256) (o1 k) S1x1x512x256.size (i1 k)).toLoadRect (View.loadsAt_vmem h_S1x1x512x256)) fun v1 =>
        .op (.load wallM (Rect.unit (s := S32x6x512x256) (o2 k) S1x1x512x256.size (i2 k)).toLoadRect (View.loadsAt_vmem h_S1x1x512x256)) fun v2 =>
        .ret (pay acc v1 v2)) Q) := by
  iintro HW HQ
  iapply (Scf.wp_for frame (wpE (defs₀ (F := F)) 𝒱₀ c.tc none) Set.univ lp.lb lp.ub lp.st ok _ _
    (fun k acc => iprop((wallM.view.loc c.tc ↦{fullShare} wallFinal m) ∗ ⌜acc = accN m pay l k⌝)) fun k acc => by
      have hk : k.val < 32 := htr ▸ k.isLt
      iintro ⟨HW, %hacc⟩
      subst hacc
      iapply (wp_load 𝒱₀ c.tc none Set.univ (S := Finset.univ) (Finset.subset_univ _)) $$ HW
      iintro HW
      rw [readAt_rd m k.val hk ⟨l.val, by omega⟩ _ (h1 k)]
      iapply (wp_load 𝒱₀ c.tc none Set.univ (S := Finset.univ) (Finset.subset_univ _)) $$ HW
      iintro HW
      rw [readAt_rd m k.val hk ⟨l.val + 3, by omega⟩ _ (h2 k)]
      iapply (le_wp_ret _ _ _ _ _)
      iframe
      ipureintro; rfl)
  isplitl [HW]
  · iframe
    ipureintro; rfl
  iintro %acc ⟨HW, %h⟩
  subst h
  rw [htr]
  iapply HQ
  iexact HW

-- The load of the whole block of `x` reads the block.
theorem readAt_x0 (f0 : (cc0_stg0_0 : Ref sig .tc).ty.Contents (Elt F)) :
    (Memref.whole cc0_stg0_0 : Memref sig .tc .vmem S512x256 .f32).view.readAt (Elt F)
      (Rect.unit (s := S512x256) ![0, 0] S512x256.size inb_S512x256_S512x256_0_0).toLoadRect f0 = f0 :=
  Memref.readAt_unit_zero (Elt F) cc0_stg0_0 (by funext a; fin_cases a <;> rfl) inb_S512x256_S512x256_0_0 f0

-- Three layers in a row, each the loop above from the result of the one before: `yblk m c` by its definition.
theorem wp_layers_x (c : Dev nD) (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S16384x256 .bf16) (harg7 : arg7.IsWhole) (harg8 : wallM.IsWhole) (arg9 : DmaSems sig S31) (arg10 : DmaSems sig S31) (arg11 : DmaSems sig S31) (arg12 : DmaSems sig S31)
    (d0 : Dev nD) (v2 : BitVec 32) (v127 : BitVec 32) (Q : FVec F S512x256 .bf16 → sProp 𝕄) :
    iprop((wallM.view.loc c.tc ↦{fullShare} wallFinal m) ∗ ((wallM.view.loc c.tc ↦{fullShare} wallFinal m) -∗ Q (yblk m c))) ⊢ wp frame (wpE (defs₀ (F := F)) 𝒱₀ c.tc none) Set.univ
      (do
        let v2751 ← Scf.Loop.for k0_t1_loop k0_t1_ok (k0_pay8 (F := F)) (k0_t1_body arg0 harg0 arg1 harg1 arg2 harg2 arg3 harg3 arg4 harg4 arg5 harg5 arg6 harg6 arg7 harg7 wallM harg8 arg9 arg10 arg11 arg12 d0 v2 v127 (m (c.tc.loc main_arg0)))
        let v2755 ← Scf.Loop.for k0_t2_loop k0_t2_ok (k0_pay10 (F := F)) (k0_t2_body arg0 harg0 arg1 harg1 arg2 harg2 arg3 harg3 arg4 harg4 arg5 harg5 arg6 harg6 arg7 harg7 wallM harg8 arg9 arg10 arg11 arg12 d0 v2 v127 v2751)
        let v2759 ← Scf.Loop.for k0_t3_loop k0_t3_ok (k0_pay12 (F := F)) (k0_t3_body arg0 harg0 arg1 harg1 arg2 harg2 arg3 harg3 arg4 harg4 arg5 harg5 arg6 harg6 arg7 harg7 wallM harg8 arg9 arg10 arg11 arg12 d0 v2 v127 v2755)
        pure (k0_pay14 v2759)) Q := by
  unfold yblk y3 y2 y1
  simp only [wp_bind, Prog.pure_eq_ret]
  iintro ⟨HW, HQ⟩
  iapply (wp_layer m c 0 k0_t1_loop k0_t1_ok (by decide) _ k0_off8 k0_off9 k0_off8_eq k0_off9_eq k0_off8_inb k0_off9_inb _) $$ HW
  iintro HW
  iapply (wp_layer m c 1 k0_t2_loop k0_t2_ok (by decide) _ k0_off10 k0_off11 k0_off10_eq k0_off11_eq k0_off10_inb k0_off11_inb _) $$ HW
  iintro HW
  iapply (wp_layer m c 2 k0_t3_loop k0_t3_ok (by decide) _ k0_off12 k0_off13 k0_off12_eq k0_off13_eq k0_off12_inb k0_off13_inb _) $$ HW
  iintro HW
  iapply (le_wp_ret _ _ _ _ _)
  iapply HQ
  iexact HW

-- The rows `[512 c, 512 c + 512)` the device loads and stores over.
abbrev ownR (c : Dev nD) : Rect S16384x256 := Rect.unit (s := S16384x256) (k0_off14 c) S512x256.size (k0_off14_inb c)

-- They are row block `c`, however the offsets are spelt.
theorem access_set_eq (c : Dev nD) (off : Fin 2 → ℕ) (hoff : off = ![512 * c.val, 0])
    (hinb : ∀ a, off a + S512x256.size a ≤ S16384x256.size a) :
    (outM.access (Rect.unit (s := S16384x256) off S512x256.size hinb)).set = outSet c := by
  subst hoff
  rfl

-- Entry `y` of the stored block lands in row `512 c + y 0`, which is row `y 0` of row block `c`.
theorem out_write_eq (c : Dev nD) (off : Fin 2 → ℕ)
    (hoff : off = ![512 * c.val, 0]) (hinb : ∀ a, off a + S512x256.size a ≤ S16384x256.size a)
    (f : Buf (Elt F) (outM.view.loc (c : Thread nD τ))) :
    (outM.view.loc c.tc ↦[outSet c]{fullShare} (outM.access (Rect.unit (s := S16384x256) off S512x256.size hinb)).write (Elt F) f (yblk m c) Finset.univ : sProp 𝕄)
      = (outM.view.loc c.tc ↦[outSet c]{fullShare} outFinal m) := by
  subst hoff
  refine pointsTo_congr fun i hi => ?_
  obtain ⟨y, rfl⟩ := View.exists_emb_of_mem_set (blkM c).view hi
  refine (View.write_emb_of_mem (v := outM.access (Rect.unit (s := S16384x256) ![512 * c.val, 0] S512x256.size hinb))
    (Val := Elt F) f (yblk m c) (M := Finset.univ) (x := y) (Finset.mem_univ y)).trans ?_
  have y0 : (y 0).val < 512 := (y 0).isLt
  have y1 : (y 1).val < 256 := (y 1).isLt
  refine (congrArg₂ (yblk m) (x := ⟨(512 * c.val + 1 * (y 0).val) / 512, by omega⟩) (x' := c)
    (y := ValueIdx.ix2 (⟨(512 * c.val + 1 * (y 0).val) % 512, Nat.mod_lt _ (by norm_num)⟩ : Fin 512) (⟨0 + 1 * (y 1).val, by omega⟩ : Fin 256))
    (y' := y) (Fin.ext ?_) ?_).symm
  · show (512 * c.val + 1 * (y 0).val) / 512 = c.val
    omega
  · funext a
    match a with
    | ⟨0, _⟩ => exact Fin.ext (show (512 * c.val + 1 * (y 0).val) % 512 = (y 0).val by omega)
    | ⟨1, _⟩ => exact Fin.ext (show 0 + 1 * (y 1).val = (y 1).val by omega)

-- The device holds its own rows at some contents, which cover what the load reads.
theorem wp_out_load (c : Dev nD) (hl : outM.view.LoadsAt (ownR c).toLoadRect)
    {α : Type} (k : Vec F S512x256 .bf16 → Prog (TpuEff nD τ sig (Elt F) Λ₀ .tc) α) (Q : α → sProp 𝕄) :
    outAny (F := F) c {c} ⊢ iprop((∀ v, outAny (F := F) c {c} -∗ wp frame (wpE (defs₀ (F := F)) 𝒱₀ c.tc none) Set.univ (k v) Q)
      -∗ wp frame (wpE (defs₀ (F := F)) 𝒱₀ c.tc none) Set.univ (.op (.load outM (ownR c).toLoadRect hl) k) Q) := by
  unfold outAny
  rw [outSets_singleton]
  iintro ⟨%f, HO⟩ HK
  iapply (wp_load_rect 𝒱₀ (c : Thread nD τ) none Set.univ (m := outM) (r := ownR c) (S := outSet c) (access_set_eq c _ (k0_off14_eq c) _).subset) $$ HO
  iintro HO
  iapply HK
  iexists f
  iexact HO

-- The store writes exactly the device's own rows, and leaves there the final result's values.
theorem wp_out_store (c : Dev nD) (hx : (outM.access (ownR c)).Stores Finset.univ)
    (hm : (Finset.univ : Finset (ownR c).shape.Idx) = Finset.univ ∨ ∀ a, (ownR c).stride a = 1)
    {α : Type} (k : PUnit → Prog (TpuEff nD τ sig (Elt F) Λ₀ .tc) α) (Q : α → sProp 𝕄) :
    outAny (F := F) c {c} ⊢ iprop((outPt m c {c} -∗ wp frame (wpE (defs₀ (F := F)) 𝒱₀ c.tc none) Set.univ (k ⟨⟩) Q)
      -∗ wp frame (wpE (defs₀ (F := F)) 𝒱₀ c.tc none) Set.univ (.op (.store outM (ownR c) (yblk m c) Finset.univ hx hm) k) Q) := by
  have hS : (outM.access (ownR c)).setOn Finset.univ ⊆ outSet c := by
    rw [View.setOn_univ]; exact (access_set_eq c _ (k0_off14_eq c) _).subset
  unfold outAny outPt
  rw [outSets_singleton]
  iintro ⟨%f, HO⟩ HK
  iapply (wp_store 𝒱₀ (c : Thread nD τ) none Set.univ (m := outM) (r := ownR c) (S := outSet c) hS) $$ HO
  rw [out_write_eq m c _ (k0_off14_eq c)]
  iexact HK

theorem wallPt_univ (c : Dev nD) : (wallPt m c Finset.univ : sProp 𝕄) = (wallM.view.loc c.tc ↦{fullShare} wallFinal m) := by
  unfold wallPt
  rw [wallSets_univ]

-- No step of the first ring is numbered 31 or more, so its sum of dues is empty.
theorem OW_last (c : Dev nD) : OW c 31 = OO c 0 := by
  unfold OW
  rw [Finset.filter_eq_empty_iff.mpr (fun x _ => by have := x.isLt; omega), Finset.sum_empty, add_zero]

-- After 31 steps all 32 slots are held, and what is still owed is the second ring's.
theorem RingW_last_elim (K : Dev nD × CI → ℕ) (c : Dev nD) :
    RingW m K c 31 ⊢ iprop(records m K ∗ levAts L lv ∗ ClosedW (F := F) c 31 ∗ (∃ W, owes c.tc (OO c 0) W) ∗ wallPt m c Finset.univ) := by
  unfold RingW
  rw [OW_last, heldW_last]
  iintro ⟨HR, HL, -, HC, HO, HW, -⟩
  iframe

-- Before step 0 the device holds its own row block only, no cell is closed, and every other block of the right neighbour is to be written.
theorem RingO_zero_intro (K : Dev nD × CI → ℕ) (c : Dev nD) :
    iprop(records m K ∗ levAts L lv ∗ TokO (F := F) c 0 ∗ (∃ W, owes c.tc (OO c 0) W)
        ∗ outPt m c {c} ∗ outAny (F := F) (rgt c) (Finset.univ.erase (rgt c))) ⊢ RingO m K c 0 := by
  unfold RingO
  rw [heldW_zero, restW_zero, ClosedO_zero]
  iintro ⟨HR, HL, HT, HO, HP, HA⟩
  iframe

end Cert.KernelIdeal.RM

end
-- ==== Proof.RM.Prologue.lean ====
import proofs.«900986_g7700000000000987_dist_mlpseq_tp1d_bs_rep_b512_d256_h512_v7x_i32_bf16_1_alg».proof.Proof.RM.Sched
import proofs.«900986_g7700000000000987_dist_mlpseq_tp1d_bs_rep_b512_d256_h512_v7x_i32_bf16_1_alg».proof.Proof.RM.Regions

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

abbrev inM1 : Memref sig .tc .vmem S256x512 .f32 := Memref.whole cc0_stg1_0
abbrev inM2 : Memref sig .tc .vmem S512x256 .f32 := Memref.whole cc0_stg2_0
abbrev inM3 : Memref sig .tc .vmem S256x512 .f32 := Memref.whole cc0_stg3_0
abbrev inM4 : Memref sig .tc .vmem S512x256 .f32 := Memref.whole cc0_stg4_0
abbrev inM5 : Memref sig .tc .vmem S256x512 .f32 := Memref.whole cc0_stg5_0
abbrev inM6 : Memref sig .tc .vmem S512x256 .f32 := Memref.whole cc0_stg6_0

variable (m : (ℓ : Loc nD τ sig) → Buf (Elt F) ℓ)

-- A payload equal to device c's piece l agrees with the final weight array on the window at [c, l, 0, 0].
theorem wallFinal_emb (c : Dev nD) (l : Fin 6) (off : Fin 4 → ℕ) (e : off = ![c.val, l.val, 0, 0])
    (inb : ∀ a, off a + S1x1x512x256.size a ≤ S32x6x512x256.size a) (w : FVec F S1x1x512x256 .bf16) (hw : w = piece m c l)
    (x : S1x1x512x256.Idx) : w x = wallFinal m ((Rect.unit (s := S32x6x512x256) off S1x1x512x256.size inb).emb x) := by
  subst e hw
  exact (congrFun ((rd_of_lt m c.val c.isLt l).symm.trans (rd_apply m c.val c.isLt l)) x).symm

-- An index of slot c whose second coordinate is l lies in the window at [c, l, 0, 0].
theorem mem_window (c : Dev nD) (i : S32x6x512x256.Idx) (hi : ((i 0 : Fin 32) : ℕ) = c.val)
    (l : ℕ) (off : Fin 4 → ℕ) (e : off = ![c.val, l, 0, 0])
    (inb : ∀ a, off a + S1x1x512x256.size a ≤ S32x6x512x256.size a) (hl : ((i 1 : Fin 6) : ℕ) = l) :
    i ∈ (Rect.unit (s := S32x6x512x256) off S1x1x512x256.size inb).set := by
  subst e
  have h2 : ((i 2 : Fin 512) : ℕ) < 512 := (i 2).isLt
  have h3 : ((i 3 : Fin 256) : ℕ) < 256 := (i 3).isLt
  rw [Rect.mem_set_unit]
  intro a
  match a with
  | ⟨0, _⟩ => exact ⟨by show c.val ≤ (i 0).val; omega, by show (i 0).val < c.val + 1; omega⟩
  | ⟨1, _⟩ => exact ⟨by show l ≤ (i 1).val; omega, by show (i 1).val < l + 1; omega⟩
  | ⟨2, _⟩ => exact ⟨by show 0 ≤ (i 2).val; omega, by show (i 2).val < 0 + 512; omega⟩
  | ⟨3, _⟩ => exact ⟨by show 0 ≤ (i 3).val; omega, by show (i 3).val < 0 + 256; omega⟩

-- Over an abstract list of writes, reading the whole scratch back is reading the writes.
theorem writes_eq_wallFinal (c : Dev nD) (f₀ : Buf (Elt F) ((c : Thread nD τ).loc cc0_scratch0))
    (L : List (View.Piece (Elt F) S32x6x512x256 .bf16))
    (hp : ∀ p ∈ L, ∀ x : p.1.shape.Idx, p.2 x = wallFinal m (p.1.emb x))
    (i : S32x6x512x256.Idx) (hc : ∃ p ∈ L, i ∈ p.1.set) :
    wallM.view.writes (Elt F) f₀ L i = wallFinal m i :=
  View.read_writes_apply_of_pieces wallM.view f₀ (wallFinal m) L hp i hc

theorem zero2 : (![0, 0] : Fin 2 → Nat) = fun _ => 0 := funext fun a => by fin_cases a <;> rfl

-- The six pieces device c stores in its own slot, the last store first.
def storedList (c : Dev nD) : List (View.Piece (Elt F) S32x6x512x256 .bf16) :=
  [⟨Rect.unit (k0_off6 c) S1x1x512x256.size (k0_off6_inb c), k0_pay7 (View.readAt (Elt F) inM6.view (Rect.unit ![0, 0] S512x256.size inb_S512x256_S512x256_0_0).toLoadRect (m ((c : Thread nD τ).loc main_arg6)))⟩,
        ⟨Rect.unit (k0_off5 c) S1x1x512x256.size (k0_off5_inb c), k0_pay6 (View.readAt (Elt F) inM4.view (Rect.unit ![0, 0] S512x256.size inb_S512x256_S512x256_0_0).toLoadRect (m ((c : Thread nD τ).loc main_arg4)))⟩,
        ⟨Rect.unit (k0_off4 c) S1x1x512x256.size (k0_off4_inb c), k0_pay5 (View.readAt (Elt F) inM2.view (Rect.unit ![0, 0] S512x256.size inb_S512x256_S512x256_0_0).toLoadRect (m ((c : Thread nD τ).loc main_arg2)))⟩,
        ⟨Rect.unit (k0_off3 c) S1x1x512x256.size (k0_off3_inb c), k0_pay4 (View.readAt (Elt F) inM5.view (Rect.unit ![0, 0] S256x512.size inb_S256x512_S256x512_0_0).toLoadRect (m ((c : Thread nD τ).loc main_arg5)))⟩,
        ⟨Rect.unit (k0_off2 c) S1x1x512x256.size (k0_off2_inb c), k0_pay3 (View.readAt (Elt F) inM3.view (Rect.unit ![0, 0] S256x512.size inb_S256x512_S256x512_0_0).toLoadRect (m ((c : Thread nD τ).loc main_arg3)))⟩,
        ⟨Rect.unit (k0_off1 c) S1x1x512x256.size (k0_off1_inb c), k0_pay2 (k0_pay1 (View.readAt (Elt F) inM1.view (Rect.unit ![0, 0] S256x512.size inb_S256x512_S256x512_0_0).toLoadRect (m ((c : Thread nD τ).loc main_arg1))))⟩]

-- The six stores write device c's six pieces, whose windows cover slot c; the other slots keep what they held.
theorem wall_after_stores (c : Dev nD) (f₀ : Buf (Elt F) ((c : Thread nD τ).loc cc0_scratch0)) :
    ((wallM.view.loc (c : Thread nD τ)) ↦{fullShare}
        wallM.view.writes (Elt F) f₀
      (storedList m c) : sProp 𝕄)
      ⊢ iprop(wallPt m c {c} ∗ wallAny (F := F) c (Finset.univ.erase c)) := by
  show ((((c : Thread nD τ).loc cc0_scratch0) ↦{fullShare} _) : sProp 𝕄) ⊢ _
  refine (Entails.of_eq (wall_univ c fullShare _)).trans ?_
  rw [show wallSets (Finset.univ : Finset (Dev nD)) = wallSets (insert c (Finset.univ.erase c)) by
    rw [Finset.insert_erase (Finset.mem_univ c)]]
  refine (wall_split c _ c (Finset.notMem_erase c _) fullShare _).1.trans (BIClass.sep_mono ?_ ?_)
  · unfold wallPt
    rw [wallSets_singleton]
    refine Entails.of_eq (wall_congr_one c c fullShare _ (wallFinal m) fun i hi =>
      writes_eq_wallFinal m c f₀ _ ?_ i ?_)
    · intro p hp x
      simp only [storedList, List.mem_cons, List.mem_nil_iff, or_false] at hp
      rcases hp with rfl | rfl | rfl | rfl | rfl | rfl
      · exact wallFinal_emb m c 5 _ (k0_off6_eq c) (k0_off6_inb c) _ (congrArg k0_pay7 (Memref.readAt_unit_zero (Elt F) cc0_stg6_0 zero2 _ _)) x
      · exact wallFinal_emb m c 4 _ (k0_off5_eq c) (k0_off5_inb c) _ (congrArg k0_pay6 (Memref.readAt_unit_zero (Elt F) cc0_stg4_0 zero2 _ _)) x
      · exact wallFinal_emb m c 3 _ (k0_off4_eq c) (k0_off4_inb c) _ (congrArg k0_pay5 (Memref.readAt_unit_zero (Elt F) cc0_stg2_0 zero2 _ _)) x
      · exact wallFinal_emb m c 2 _ (k0_off3_eq c) (k0_off3_inb c) _ (congrArg k0_pay4 (Memref.readAt_unit_zero (Elt F) cc0_stg5_0 zero2 _ _)) x
      · exact wallFinal_emb m c 1 _ (k0_off2_eq c) (k0_off2_inb c) _ (congrArg k0_pay3 (Memref.readAt_unit_zero (Elt F) cc0_stg3_0 zero2 _ _)) x
      · exact wallFinal_emb m c 0 _ (k0_off1_eq c) (k0_off1_inb c) _ (congrArg (fun v => k0_pay2 (k0_pay1 v)) (Memref.readAt_unit_zero (Elt F) cc0_stg1_0 zero2 _ _)) x
    · have h1 : ((i 1 : Fin 6) : ℕ) < 6 := (i 1).isLt
      rcases (by omega : ((i 1 : Fin 6) : ℕ) = 0 ∨ ((i 1 : Fin 6) : ℕ) = 1 ∨ ((i 1 : Fin 6) : ℕ) = 2 ∨ ((i 1 : Fin 6) : ℕ) = 3
        ∨ ((i 1 : Fin 6) : ℕ) = 4 ∨ ((i 1 : Fin 6) : ℕ) = 5) with h | h | h | h | h | h
      · exact ⟨_, List.getElem_mem (n := 5) (by show _ < 6; decide), mem_window c i hi 0 _ (k0_off1_eq c) (k0_off1_inb c) h⟩
      · exact ⟨_, List.getElem_mem (n := 4) (by show _ < 6; decide), mem_window c i hi 1 _ (k0_off2_eq c) (k0_off2_inb c) h⟩
      · exact ⟨_, List.getElem_mem (n := 3) (by show _ < 6; decide), mem_window c i hi 2 _ (k0_off3_eq c) (k0_off3_inb c) h⟩
      · exact ⟨_, List.getElem_mem (n := 2) (by show _ < 6; decide), mem_window c i hi 3 _ (k0_off4_eq c) (k0_off4_inb c) h⟩
      · exact ⟨_, List.getElem_mem (n := 1) (by show _ < 6; decide), mem_window c i hi 4 _ (k0_off5_eq c) (k0_off5_inb c) h⟩
      · exact ⟨_, List.getElem_mem (n := 0) (by show _ < 6; decide), mem_window c i hi 5 _ (k0_off6_eq c) (k0_off6_inb c) h⟩
  · unfold wallAny
    iintro H
    iexists _
    iexact H

-- The result buffer, whole at some contents, is device c's own row block and the other 31.
theorem outAny_own_split (c : Dev nD) (f₇ : Buf (Elt F) ((c : Thread nD τ).loc cc0_stg7_0)) :
    ((outM.view.loc (c : Thread nD τ)) ↦{fullShare} f₇ : sProp 𝕄)
      ⊢ iprop(outAny (F := F) c {c} ∗ outAny (F := F) c (Finset.univ.erase c)) := by
  refine (Entails.of_eq (out_univ c fullShare f₇)).trans ?_
  rw [show outSets (Finset.univ : Finset (Dev nD)) = outSets (insert c (Finset.univ.erase c)) by
    rw [Finset.insert_erase (Finset.mem_univ c)]]
  refine BIBase.Entails.trans ?_ (outAny_split c (Finset.univ.erase c) c (Finset.notMem_erase c _))
  unfold outAny
  iintro H
  iexists f₇
  iexact H

theorem inv_bar (K : Dev nD × CI → ℕ) (c : Dev nD) :
    (bigSep Finset.univ fun ck : Dev nD × CI => (cellInv ER (ringRd m) (K ck) (kcell ck) : sProp 𝕄))
      ⊢ cellInv ER (ringRd m) (K (c, none)) (barCell c) :=
  bigSep_elim (Φ := fun ck : Dev nD × CI => (cellInv ER (ringRd m) (K ck) (kcell ck) : sProp 𝕄)) (Finset.mem_univ (c, none))

theorem reached_cell (ck : Dev nD × CI) :
    (bigSep Finset.univ fun ck : Dev nD × CI => (reached ER (kcell ck) 0 : sProp 𝕄)) ⊢ reached ER (kcell ck) 0 :=
  bigSep_elim (Φ := fun ck : Dev nD × CI => (reached ER (kcell ck) 0 : sProp 𝕄)) (Finset.mem_univ ck)

theorem reached_recv (c : Dev nD) :
    (bigSep Finset.univ fun ck : Dev nD × CI => (reached ER (kcell ck) 0 : sProp 𝕄))
      ⊢ bigSep Finset.univ fun h : Fin 31 => iprop(reached ER (dCell c 1 h) 0 ∗ reached ER (dCell c 3 h) 0) := by
  refine bigSep_intro_persistent fun h _ => ?_
  iintro #H
  isplitr
  · iapply (reached_cell (c, some (1, h))); iexact H
  · iapply (reached_cell (c, some (3, h))); iexact H

-- What the first signal carries: c is its left neighbour's right neighbour, and every cell has reached round 0.
theorem barPay_intro (c : Dev nD) :
    iprop(wallAny (F := F) c (Finset.univ.erase c) ∗ outAny (F := F) c (Finset.univ.erase c)
        ∗ bigSep Finset.univ fun ck : Dev nD × CI => (reached ER (kcell ck) 0 : sProp 𝕄))
      ⊢ barPay (F := F) (lft c) := by
  unfold barPay
  rw [rgt_lft]
  iintro ⟨Hw, Ho, #Hrch⟩
  iframe
  iapply (reached_recv c); iexact Hrch

-- The two duties of the barrier cell's round: the left neighbour's carries nothing, the right neighbour's its landing regions.
theorem bar_payloads (c : Dev nD) :
    (bigSep Finset.univ fun d : Bool => (ringRd (F := F) m).payload (barCell c) 0 d)
      ⊢ iprop(wallAny (F := F) (rgt c) (Finset.univ.erase (rgt c)) ∗ outAny (F := F) (rgt c) (Finset.univ.erase (rgt c))
          ∗ bigSep Finset.univ fun h : Fin 31 => iprop(reached ER (dCell (rgt c) 1 h) 0 ∗ reached ER (dCell (rgt c) 3 h) 0)) := by
  have e := rest_bar m c
  rw [Finset.sdiff_empty, duties_bar] at e
  rw [e]
  unfold barPay
  iintro ⟨-, H⟩
  iexact H

-- The first signal pays duty true of the left neighbour's barrier cell with c's landing regions.
theorem wp_signal_lft' (K : Dev nD × CI → ℕ) (c : Dev nD) {α : Type} (Q : α → sProp 𝕄) (W : Waits sig Unit)
    (k : PUnit → Prog (TpuEff nD τ sig (Elt F) Λ₀ .tc) α) :
    iprop(records m K ∗ dutyTok ER (barCell (lft c)) 0 true ∗ owes (c : Thread nD τ) (O₀ c) W
        ∗ wallAny (F := F) c (Finset.univ.erase c) ∗ outAny (F := F) c (Finset.univ.erase c))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((lft c, Proc.tc) : Thread nD τ) barS (1#32).toNat) k) Q) := by
  unfold records
  rw [O₀_eq]
  iintro ⟨⟨#Hinv, #Hrch⟩, Htok, HO, Hw, Ho⟩ Hk
  ihave #Hg := (inv_bar m K (lft c)) $$ Hinv
  ihave #Hr := (reached_cell (lft c, none)) $$ Hrch
  ihave Hpay := (barPay_intro c) $$ [Hw Ho]
  · iframe; iexact Hrch
  sl_exec
  iapply Hk
  iexact HO

-- The second signal pays duty false of the right neighbour's barrier cell, which carries nothing.
theorem wp_signal_rgt' (K : Dev nD × CI → ℕ) (c : Dev nD) {α : Type} (Q : α → sProp 𝕄) (W : Waits sig Unit)
    (k : PUnit → Prog (TpuEff nD τ sig (Elt F) Λ₀ .tc) α) :
    iprop(records m K ∗ dutyTok ER (barCell (rgt c)) 0 false ∗ owes (c : Thread nD τ) (O₁ c) W)
      ⊢ iprop((owes (c : Thread nD τ) (OW c 0) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((rgt c, Proc.tc) : Thread nD τ) barS (1#32).toNat) k) Q) := by
  unfold records
  rw [O₁_eq]
  iintro ⟨⟨#Hinv, #Hrch⟩, Htok, HO⟩ Hk
  ihave #Hg := (inv_bar m K (rgt c)) $$ Hinv
  ihave #Hr := (reached_cell (rgt c, none)) $$ Hrch
  sl_exec
  iapply Hk
  iexact HO

-- The wait for both neighbours' signals brings what the right neighbour's first signal carried.
theorem wp_bar_wait' (K : Dev nD × CI → ℕ) (c : Dev nD) {α : Type} (Q : α → sProp 𝕄) (W : Waits sig Unit)
    (k : PUnit → Prog (TpuEff nD τ sig (Elt F) Λ₀ .tc) α) :
    iprop(records m K ∗ levAts L lv ∗ cred (tallyAt (barCell c) () 2) ∗ owes (c : Thread nD τ) (OW c 0) W
        ∗ atPos ER (barCell c) 0 ∅ 0)
      ⊢ iprop(((owes (c : Thread nD τ) (OW c 0) (insert (SemLoc.reg barS, ()) W) ∗ atPos ER (barCell c) 1 ∅ 0
              ∗ reached ER (barCell c) 1
              ∗ wallAny (F := F) (rgt c) (Finset.univ.erase (rgt c)) ∗ outAny (F := F) (rgt c) (Finset.univ.erase (rgt c))
              ∗ bigSep Finset.univ fun h : Fin 31 => iprop(reached ER (dCell (rgt c) 1 h) 0 ∗ reached ER (dCell (rgt c) 3 h) 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  unfold records
  iintro ⟨⟨#Hinv, #Hrch⟩, #Hlev, Hcr, HO, Hat⟩ Hk
  ihave #Hg := (inv_bar m K c) $$ Hinv
  ihave #Hmw := (mayWait_bar c) $$ Hlev
  sl_exec
  ihave Hpay := (bar_payloads m c) $$ Hat_pay1
  iapply Hk
  iframe

end Cert.KernelIdeal.RM

end
-- ==== Proof.RM.StepW.lean ====
import proofs.«900986_g7700000000000987_dist_mlpseq_tp1d_bs_rep_b512_d256_h512_v7x_i32_bf16_1_alg».proof.Proof.RM.Regions
import proofs.«900986_g7700000000000987_dist_mlpseq_tp1d_bs_rep_b512_d256_h512_v7x_i32_bf16_1_alg».proof.Proof.RM.Sched
import proofs.«900986_g7700000000000987_dist_mlpseq_tp1d_bs_rep_b512_d256_h512_v7x_i32_bf16_1_alg».proof.Proof.RM.Peel

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem slotPt_eq (d j : Dev nD) :
    ((((d : Thread nD τ).loc cc0_scratch0) ↦[(slotM j).view.set]{fullShare} (wallFinal m)) : sProp 𝕄) = wallPt m d {j} := by
  unfold wallPt; rw [wallSets_singleton]; rfl

theorem slotAny_eq (d j : Dev nD) :
    (iprop(∃ f : Buf (Elt F) ((d : Thread nD τ).loc cc0_scratch0), ((d : Thread nD τ).loc cc0_scratch0) ↦[(slotM j).view.set]{fullShare} f) : sProp 𝕄)
      = wallAny (F := F) d {j} := by
  unfold wallAny; rw [wallSets_singleton]; rfl

theorem slot_landed (d j : Dev nD) (fd : Buf (Elt F) ((d : Thread nD τ).loc cc0_scratch0)) :
    ((((d : Thread nD τ).loc cc0_scratch0) ↦[(slotM j).view.set]{fullShare}
        ((slotM j).view.write (Elt F) fd ((slotM j).view.read (Elt F) (wallFinal m)) Finset.univ)) : sProp 𝕄)
      = wallPt m d {j} := by
  rw [← slotPt_eq]
  refine BI.Region.is_congr fun i hi => ?_
  have e := congrFun (View.write_read_eq_piecewise (v := (slotM j).view) fd (wallFinal m) Finset.univ) i
  exact e.trans (Finset.piecewise_eq_of_mem _ _ _ hi)

theorem rec_inv (K : Dev nD × CI → ℕ) (c : Dev nD) (k : Fin 4) (h : Fin 31) :
    records m K ⊢ cellInv ER (ringRd m) (K (c, some (k, h))) (dCell c k h) :=
  records_cellInv m K (c, some (k, h))

theorem rec_reached (K : Dev nD × CI → ℕ) (c : Dev nD) (k : Fin 4) (h : Fin 31) :
    records m K ⊢ reached ER (dCell c k h) 0 :=
  records_reached m K (c, some (k, h))

theorem tokW_peel (c : Dev nD) (h : Fin 31) :
    TokW (F := F) c h.val = iprop((dutyTok ER (dCell c 0 h) 0 false ∗ dutyTok ER (dCell (rgt c) 1 h) 0 false
      ∗ atPos ER (dCell c 0 h) 0 ∅ 0 ∗ atPos ER (dCell c 1 h) 0 ∅ 0 ∗ cred (tallyAt (dCell c 1 h) () Nw)) ∗ TokW (F := F) c (h.val + 1)) :=
  TokW_succ c h.val h.isLt

theorem closedW_peel (c : Dev nD) (h : Fin 31) :
    ClosedW (F := F) c (h.val + 1) = iprop((semVal (dCell c 0 h) 0 ∗ semVal (dCell c 1 h) 0) ∗ ClosedW (F := F) c h.val) :=
  ClosedW_succ c h.val h.isLt

theorem false_mem_duties (c : Dev nD) (k : Fin 4) (h : Fin 31) : false ∈ (ringRd m).duties (dCell c k h) 0 := by
  rw [duties_dma]; exact Finset.mem_singleton_self _

def RingW1 (K : Dev nD × CI → ℕ) (c : Dev nD) (h : Fin 31) : sProp 𝕄 :=
  iprop(records m K ∗ levAts L lv ∗ TokW (F := F) c (h.val + 1) ∗ ClosedW (F := F) c h.val
    ∗ (∃ W, owes (c : Thread nD τ) (OW c (h.val + 1)) W)
    ∗ atPos ER (dCell c 0 h) 0 ∅ 0 ∗ cred (tallyAt (dCell c 0 h) () Nw)
    ∗ atPos ER (dCell c 1 h) 0 ∅ 0 ∗ cred (tallyAt (dCell c 1 h) () Nw)
    ∗ wallPt m c ((heldW c h.val).erase (srcAt c h.val)) ∗ wallAny (F := F) (rgt c) (restW c (h.val + 1)))

def RingW2 (K : Dev nD × CI → ℕ) (c : Dev nD) (h : Fin 31) : sProp 𝕄 :=
  iprop(records m K ∗ levAts L lv ∗ TokW (F := F) c (h.val + 1) ∗ ClosedW (F := F) c h.val
    ∗ (∃ W, owes (c : Thread nD τ) (OW c (h.val + 1)) W)
    ∗ semVal (dCell c 0 h) 0
    ∗ atPos ER (dCell c 1 h) 0 ∅ 0 ∗ cred (tallyAt (dCell c 1 h) () Nw)
    ∗ wallPt m c (heldW c h.val) ∗ wallAny (F := F) (rgt c) (restW c (h.val + 1)))

theorem wp_wall_enq (K : Dev nD × CI → ℕ) (c n : Dev nD) (hn : n = rgt c) (h : Fin 31)
    (V : Memref sig .tc .vmem S6x512x256 .bf16) (hV : V = slotM (srcAt c h.val))
    {α : Type} (Q : α → sProp 𝕄) (k : PUnit → Prog (TpuEff nD τ sig (Elt F) Λ₀ .tc) α)
    (hsc : V.view.ref.isScScratch = false) (hsrc : V.view.WordExact) (hdst : V.view.WordExact)
    (hsem : DmaTarget.Typed (nD := nD) (τ := τ) .vmem (.dma (dsem 1 h)) (.remote (Dev.tc n) V (.dma (dsem 0 h)) hsc)) :
    RingW m K c h.val
      ⊢ iprop((RingW1 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma V (.remote (Dev.tc n) V (.dma (dsem 0 h)) hsc) (.dma (dsem 1 h)) hsrc hdst hsem) k) Q) := by
  subst hn
  subst hV
  have hp1 : ((((c : Thread nD τ).loc cc0_scratch0) ↦[(slotM (srcAt c h.val)).view.set]{fullShare} (wallFinal m)) : sProp 𝕄)
      ⊢ (ringRd m).payload (dCell c 0 h) 0 false :=
    Entails.of_eq ((slotPt_eq m c (srcAt c h.val)).trans (payload_wsend m c h false).symm)
  have hp2 : ∀ fd : Buf (Elt F) (((rgt c : Dev nD) : Thread nD τ).loc cc0_scratch0),
      ((((rgt c : Dev nD) : Thread nD τ).loc cc0_scratch0) ↦[(slotM (srcAt c h.val)).view.set]{fullShare}
        ((slotM (srcAt c h.val)).view.write (Elt F) fd ((slotM (srcAt c h.val)).view.read (Elt F) (wallFinal m)) Finset.univ) : sProp 𝕄)
      ⊢ (ringRd m).payload (dCell (rgt c) 1 h) 0 false := fun fd =>
    Entails.of_eq ((slot_landed m (rgt c) (srcAt c h.val) fd).trans
      ((congrArg (fun j => wallPt m (rgt c) {j}) (srcAt_rgt c h.val h.isLt).symm).trans (payload_wrecv m (rgt c) h false).symm))
  unfold RingW RingW1
  iintro ⟨#Hrec, #Hlev, Htok, Hcl, ⟨%W, Ho⟩, Hpt, Hany⟩ Hk
  ihave #Hg1 := (rec_inv m K c 0 h) $$ Hrec
  ihave #Hg2 := (rec_inv m K (rgt c) 1 h) $$ Hrec
  ihave #Hr1 := (rec_reached m K c 0 h) $$ Hrec
  ihave #Hr2 := (rec_reached m K (rgt c) 1 h) $$ Hrec
  ihave Htok := (Entails.of_eq (tokW_peel c h)) $$ Htok
  icases Htok with ⟨⟨Ht1, Ht2, Hat0, Hat1, Hcr1⟩, Htok⟩
  ihave Hpt := (wallPt_held_take m c h.val).1 $$ Hpt
  icases Hpt with ⟨Hsrc, Hpt⟩
  ihave Hsrc := (Entails.of_eq (slotPt_eq m c (srcAt c h.val)).symm) $$ Hsrc
  ihave Hany := (wallAny_rest_succ (F := F) (rgt c) c h.val h.isLt) $$ Hany
  icases Hany with ⟨Hdst, Hany⟩
  ihave Hdst := (Entails.of_eq (slotAny_eq (F := F) (rgt c) (srcAt c h.val)).symm) $$ Hdst
  icases Hdst with ⟨%fd, Hdst⟩
  iapply (Rounds.wp_send_pointsTo 𝒱₀ ER (ringRd m) (c : Thread nD τ) none (c' := ((rgt c : Dev nD) : Thread nD τ))
      (src := slotM (srcAt c h.val)) (dst := slotM (srcAt c h.val)) (fs := wallFinal m) (fd := fd)
      (false_mem_duties m c 0 h) (false_mem_duties m (rgt c) 1 h) () () Nw rfl (amount_wsend m c h false)
      (amount_wrecv m (rgt c) h false) (OW c (h.val + 1)) (OW_succ c h) hp1 (hp2 fd)) $$ [Ho Ht1 Ht2 Hsrc Hdst]
  · iframe # ∗
    isplitl [Hsrc]; · iexact Hsrc
    iexact Hdst
  iintro ⟨Hcr0, Ho⟩
  iapply Hk
  iframe # ∗
  iexists W; iexact Ho

theorem wp_wall_wsend (K : Dev nD × CI → ℕ) (c : Dev nD) (h : Fin 31)
    (V : Memref sig .tc .vmem S6x512x256 .bf16) (hV : V = slotM (srcAt c h.val))
    {α : Type} (Q : α → sProp 𝕄) (k : PUnit → Prog (TpuEff nD τ sig (Elt F) Λ₀ .tc) α)
    (hs : V.view.WordExact) (hd : V.view.WordExact) :
    RingW1 m K c h
      ⊢ iprop((RingW2 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 0 h) V V hs hd) k) Q) := by
  subst hV
  unfold RingW1 RingW2
  iintro ⟨#Hrec, #Hlev, Htok, Hcl, ⟨%W, Ho⟩, Hat0, Hcr0, Hat1, Hcr1, Hpt, Hany⟩ Hk
  ihave #Hg := (rec_inv m K c 0 h) $$ Hrec
  ihave #Hmw := (mayWait_wsend (F := F) c h (OW c (h.val + 1)) (OW_owed c (h.val + 1))) $$ Hlev
  iapply (Rounds.wp_wait_rest_token 𝒱₀ ER (ringRd m) (c : Thread nD τ) none (fun K' => rfl)
      (Set.mem_univ (K (c, some (0, h)))) () ((Nat.zero_add Nw).trans (expect_wsend m c h).symm)) $$ [Hcr0 Ho Hat0]
  · iframe # ∗
  iintro ⟨Ho, Hat0, #Hr, Hpay⟩
  ihave Hpay := (Entails.of_eq (rest_wsend m c h)) $$ Hpay
  imod (Rounds.cell_close ER (ringRd m) (g := dCell c 0 h) (Set.mem_univ (K (c, some (0, h)))) (not_unitless m _) (R := 0 + 1)
      (duties_later m (dCell c 0 h))) $$ [Hat0] with Hsv
  · isplitr; · iexact Hg
    iexact Hat0
  ihave Hpt := (wallPt_held_take m c h.val).2 $$ [Hpay Hpt]
  · isplitl [Hpay]; · iexact Hpay
    iexact Hpt
  iapply Hk
  iframe # ∗
  iexists (insert (SemLoc.dma (dsem 0 h), ()) W); iexact Ho

theorem wp_wall_wrecv (K : Dev nD × CI → ℕ) (c : Dev nD) (h : Fin 31)
    (V : Memref sig .tc .vmem S6x512x256 .bf16) (hV : V = slotM (srcAt c h.val))
    {α : Type} (Q : α → sProp 𝕄) (k : PUnit → Prog (TpuEff nD τ sig (Elt F) Λ₀ .tc) α)
    (hs : V.view.WordExact) (hd : V.view.WordExact) :
    RingW2 m K c h
      ⊢ iprop((RingW m K c (h.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 1 h) V V hs hd) k) Q) := by
  subst hV
  unfold RingW2 RingW
  iintro ⟨#Hrec, #Hlev, Htok, Hcl, ⟨%W, Ho⟩, Hsv0, Hat1, Hcr1, Hpt, Hany⟩ Hk
  ihave #Hg := (rec_inv m K c 1 h) $$ Hrec
  ihave #Hmw := (mayWait_wrecv (F := F) c h) $$ Hlev
  iapply (Rounds.wp_wait_rest_token 𝒱₀ ER (ringRd m) (c : Thread nD τ) none (fun K' => rfl)
      (Set.mem_univ (K (c, some (1, h)))) () ((Nat.zero_add Nw).trans (expect_wrecv m c h).symm)) $$ [Hcr1 Ho Hat1]
  · iframe # ∗
  iintro ⟨Ho, Hat1, #Hr, Hpay⟩
  ihave Hpay := (Entails.of_eq (rest_wrecv m c h)) $$ Hpay
  imod (Rounds.cell_close ER (ringRd m) (g := dCell c 1 h) (Set.mem_univ (K (c, some (1, h)))) (not_unitless m _) (R := 0 + 1)
      (duties_later m (dCell c 1 h))) $$ [Hat1] with Hsv1
  · isplitr; · iexact Hg
    iexact Hat1
  ihave Hpt := (wallPt_held_succ m c h.val h.isLt).2 $$ [Hpay Hpt]
  · isplitl [Hpay]; · iexact Hpay
    iexact Hpt
  ihave Hcl := (Entails.of_eq (closedW_peel (F := F) c h).symm) $$ [Hsv0 Hsv1 Hcl]
  · isplitr [Hcl]
    · isplitl [Hsv0]; · iexact Hsv0
      iexact Hsv1
    iexact Hcl
  iapply Hk
  iframe # ∗
  iexists (insert (SemLoc.dma (dsem 1 h), ()) W); iexact Ho

end Cert.KernelIdeal.RM

end
-- ==== Proof.RM.StepO.lean ====
import proofs.«900986_g7700000000000987_dist_mlpseq_tp1d_bs_rep_b512_d256_h512_v7x_i32_bf16_1_alg».proof.Proof.RM.StepW

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem blkPt_eq (d j : Dev nD) :
    ((((d : Thread nD τ).loc cc0_stg7_0) ↦[(blkM j).view.set]{fullShare} (outFinal m)) : sProp 𝕄) = outPt m d {j} := by
  unfold outPt; rw [outSets_singleton]; rfl

theorem blkAny_eq (d j : Dev nD) :
    (iprop(∃ f : Buf (Elt F) ((d : Thread nD τ).loc cc0_stg7_0), ((d : Thread nD τ).loc cc0_stg7_0) ↦[(blkM j).view.set]{fullShare} f) : sProp 𝕄)
      = outAny (F := F) d {j} := by
  unfold outAny; rw [outSets_singleton]; rfl

theorem blk_landed (d j : Dev nD) (fd : Buf (Elt F) ((d : Thread nD τ).loc cc0_stg7_0)) :
    ((((d : Thread nD τ).loc cc0_stg7_0) ↦[(blkM j).view.set]{fullShare}
        ((blkM j).view.write (Elt F) fd ((blkM j).view.read (Elt F) (outFinal m)) Finset.univ)) : sProp 𝕄)
      = outPt m d {j} := by
  rw [← blkPt_eq]
  refine BI.Region.is_congr fun i hi => ?_
  have e := congrFun (View.write_read_eq_piecewise (v := (blkM j).view) fd (outFinal m) Finset.univ) i
  exact e.trans (Finset.piecewise_eq_of_mem _ _ _ hi)

theorem tokO_peel (c : Dev nD) (h : Fin 31) :
    TokO (F := F) c h.val = iprop((dutyTok ER (dCell c 2 h) 0 false ∗ dutyTok ER (dCell (rgt c) 3 h) 0 false
      ∗ atPos ER (dCell c 2 h) 0 ∅ 0 ∗ atPos ER (dCell c 3 h) 0 ∅ 0 ∗ cred (tallyAt (dCell c 3 h) () No)) ∗ TokO (F := F) c (h.val + 1)) :=
  TokO_succ c h.val h.isLt

theorem closedO_peel (c : Dev nD) (h : Fin 31) :
    ClosedO (F := F) c (h.val + 1) = iprop((semVal (dCell c 2 h) 0 ∗ semVal (dCell c 3 h) 0) ∗ ClosedO (F := F) c h.val) :=
  ClosedO_succ c h.val h.isLt

def RingO1 (K : Dev nD × CI → ℕ) (c : Dev nD) (h : Fin 31) : sProp 𝕄 :=
  iprop(records m K ∗ levAts L lv ∗ TokO (F := F) c (h.val + 1) ∗ ClosedO (F := F) c h.val
    ∗ (∃ W, owes (c : Thread nD τ) (OO c (h.val + 1)) W)
    ∗ atPos ER (dCell c 2 h) 0 ∅ 0 ∗ cred (tallyAt (dCell c 2 h) () No)
    ∗ atPos ER (dCell c 3 h) 0 ∅ 0 ∗ cred (tallyAt (dCell c 3 h) () No)
    ∗ outPt m c ((heldW c h.val).erase (srcAt c h.val)) ∗ outAny (F := F) (rgt c) (restW c (h.val + 1)))

def RingO2 (K : Dev nD × CI → ℕ) (c : Dev nD) (h : Fin 31) : sProp 𝕄 :=
  iprop(records m K ∗ levAts L lv ∗ TokO (F := F) c (h.val + 1) ∗ ClosedO (F := F) c h.val
    ∗ (∃ W, owes (c : Thread nD τ) (OO c (h.val + 1)) W)
    ∗ semVal (dCell c 2 h) 0
    ∗ atPos ER (dCell c 3 h) 0 ∅ 0 ∗ cred (tallyAt (dCell c 3 h) () No)
    ∗ outPt m c (heldW c h.val) ∗ outAny (F := F) (rgt c) (restW c (h.val + 1)))

theorem wp_out_enq (K : Dev nD × CI → ℕ) (c n : Dev nD) (hn : n = rgt c) (h : Fin 31)
    (V : Memref sig .tc .vmem S512x256 .bf16) (hV : V = blkM (srcAt c h.val))
    {α : Type} (Q : α → sProp 𝕄) (k : PUnit → Prog (TpuEff nD τ sig (Elt F) Λ₀ .tc) α)
    (hsc : V.view.ref.isScScratch = false) (hsrc : V.view.WordExact) (hdst : V.view.WordExact)
    (hsem : DmaTarget.Typed (nD := nD) (τ := τ) .vmem (.dma (dsem 3 h)) (.remote (Dev.tc n) V (.dma (dsem 2 h)) hsc)) :
    RingO m K c h.val
      ⊢ iprop((RingO1 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma V (.remote (Dev.tc n) V (.dma (dsem 2 h)) hsc) (.dma (dsem 3 h)) hsrc hdst hsem) k) Q) := by
  subst hn
  subst hV
  have hp1 : ((((c : Thread nD τ).loc cc0_stg7_0) ↦[(blkM (srcAt c h.val)).view.set]{fullShare} (outFinal m)) : sProp 𝕄)
      ⊢ (ringRd m).payload (dCell c 2 h) 0 false :=
    Entails.of_eq ((blkPt_eq m c (srcAt c h.val)).trans (payload_osend m c h false).symm)
  have hp2 : ∀ fd : Buf (Elt F) (((rgt c : Dev nD) : Thread nD τ).loc cc0_stg7_0),
      ((((rgt c : Dev nD) : Thread nD τ).loc cc0_stg7_0) ↦[(blkM (srcAt c h.val)).view.set]{fullShare}
        ((blkM (srcAt c h.val)).view.write (Elt F) fd ((blkM (srcAt c h.val)).view.read (Elt F) (outFinal m)) Finset.univ) : sProp 𝕄)
      ⊢ (ringRd m).payload (dCell (rgt c) 3 h) 0 false := fun fd =>
    Entails.of_eq ((blk_landed m (rgt c) (srcAt c h.val) fd).trans
      ((congrArg (fun j => outPt m (rgt c) {j}) (srcAt_rgt c h.val h.isLt).symm).trans (payload_orecv m (rgt c) h false).symm))
  unfold RingO RingO1
  iintro ⟨#Hrec, #Hlev, Htok, Hcl, ⟨%W, Ho⟩, Hpt, Hany⟩ Hk
  ihave #Hg1 := (rec_inv m K c 2 h) $$ Hrec
  ihave #Hg2 := (rec_inv m K (rgt c) 3 h) $$ Hrec
  ihave #Hr1 := (rec_reached m K c 2 h) $$ Hrec
  ihave #Hr2 := (rec_reached m K (rgt c) 3 h) $$ Hrec
  ihave Htok := (Entails.of_eq (tokO_peel c h)) $$ Htok
  icases Htok with ⟨⟨Ht1, Ht2, Hat0, Hat1, Hcr1⟩, Htok⟩
  ihave Hpt := (outPt_held_take m c h.val).1 $$ Hpt
  icases Hpt with ⟨Hsrc, Hpt⟩
  ihave Hsrc := (Entails.of_eq (blkPt_eq m c (srcAt c h.val)).symm) $$ Hsrc
  ihave Hany := (outAny_rest_succ (F := F) (rgt c) c h.val h.isLt) $$ Hany
  icases Hany with ⟨Hdst, Hany⟩
  ihave Hdst := (Entails.of_eq (blkAny_eq (F := F) (rgt c) (srcAt c h.val)).symm) $$ Hdst
  icases Hdst with ⟨%fd, Hdst⟩
  iapply (Rounds.wp_send_pointsTo 𝒱₀ ER (ringRd m) (c : Thread nD τ) none (c' := ((rgt c : Dev nD) : Thread nD τ))
      (src := blkM (srcAt c h.val)) (dst := blkM (srcAt c h.val)) (fs := outFinal m) (fd := fd)
      (false_mem_duties m c 2 h) (false_mem_duties m (rgt c) 3 h) () () No rfl (amount_osend m c h false)
      (amount_orecv m (rgt c) h false) (OO c (h.val + 1)) (OO_succ c h) hp1 (hp2 fd)) $$ [Ho Ht1 Ht2 Hsrc Hdst]
  · iframe # ∗
    isplitl [Hsrc]; · iexact Hsrc
    iexact Hdst
  iintro ⟨Hcr0, Ho⟩
  iapply Hk
  iframe # ∗
  iexists W; iexact Ho

theorem wp_out_wsend (K : Dev nD × CI → ℕ) (c : Dev nD) (h : Fin 31)
    (V : Memref sig .tc .vmem S512x256 .bf16) (hV : V = blkM (srcAt c h.val))
    {α : Type} (Q : α → sProp 𝕄) (k : PUnit → Prog (TpuEff nD τ sig (Elt F) Λ₀ .tc) α)
    (hs : V.view.WordExact) (hd : V.view.WordExact) :
    RingO1 m K c h
      ⊢ iprop((RingO2 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 2 h) V V hs hd) k) Q) := by
  subst hV
  unfold RingO1 RingO2
  iintro ⟨#Hrec, #Hlev, Htok, Hcl, ⟨%W, Ho⟩, Hat0, Hcr0, Hat1, Hcr1, Hpt, Hany⟩ Hk
  ihave #Hg := (rec_inv m K c 2 h) $$ Hrec
  ihave #Hmw := (mayWait_osend (F := F) c h (OO c (h.val + 1)) (OO_owed c (h.val + 1))) $$ Hlev
  iapply (Rounds.wp_wait_rest_token 𝒱₀ ER (ringRd m) (c : Thread nD τ) none (fun K' => rfl)
      (Set.mem_univ (K (c, some (2, h)))) () ((Nat.zero_add No).trans (expect_osend m c h).symm)) $$ [Hcr0 Ho Hat0]
  · iframe # ∗
  iintro ⟨Ho, Hat0, #Hr, Hpay⟩
  ihave Hpay := (Entails.of_eq (rest_osend m c h)) $$ Hpay
  imod (Rounds.cell_close ER (ringRd m) (g := dCell c 2 h) (Set.mem_univ (K (c, some (2, h)))) (not_unitless m _) (R := 0 + 1)
      (duties_later m (dCell c 2 h))) $$ [Hat0] with Hsv
  · isplitr; · iexact Hg
    iexact Hat0
  ihave Hpt := (outPt_held_take m c h.val).2 $$ [Hpay Hpt]
  · isplitl [Hpay]; · iexact Hpay
    iexact Hpt
  iapply Hk
  iframe # ∗
  iexists (insert (SemLoc.dma (dsem 2 h), ()) W); iexact Ho

theorem wp_out_wrecv (K : Dev nD × CI → ℕ) (c : Dev nD) (h : Fin 31)
    (V : Memref sig .tc .vmem S512x256 .bf16) (hV : V = blkM (srcAt c h.val))
    {α : Type} (Q : α → sProp 𝕄) (k : PUnit → Prog (TpuEff nD τ sig (Elt F) Λ₀ .tc) α)
    (hs : V.view.WordExact) (hd : V.view.WordExact) :
    RingO2 m K c h
      ⊢ iprop((RingO m K c (h.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 3 h) V V hs hd) k) Q) := by
  subst hV
  unfold RingO2 RingO
  iintro ⟨#Hrec, #Hlev, Htok, Hcl, ⟨%W, Ho⟩, Hsv0, Hat1, Hcr1, Hpt, Hany⟩ Hk
  ihave #Hg := (rec_inv m K c 3 h) $$ Hrec
  ihave #Hmw := (mayWait_orecv (F := F) c h) $$ Hlev
  iapply (Rounds.wp_wait_rest_token 𝒱₀ ER (ringRd m) (c : Thread nD τ) none (fun K' => rfl)
      (Set.mem_univ (K (c, some (3, h)))) () ((Nat.zero_add No).trans (expect_orecv m c h).symm)) $$ [Hcr1 Ho Hat1]
  · iframe # ∗
  iintro ⟨Ho, Hat1, #Hr, Hpay⟩
  ihave Hpay := (Entails.of_eq (rest_orecv m c h)) $$ Hpay
  imod (Rounds.cell_close ER (ringRd m) (g := dCell c 3 h) (Set.mem_univ (K (c, some (3, h)))) (not_unitless m _) (R := 0 + 1)
      (duties_later m (dCell c 3 h))) $$ [Hat1] with Hsv1
  · isplitr; · iexact Hg
    iexact Hat1
  ihave Hpt := (outPt_held_succ m c h.val h.isLt).2 $$ [Hpay Hpt]
  · isplitl [Hpay]; · iexact Hpay
    iexact Hpt
  ihave Hcl := (Entails.of_eq (closedO_peel (F := F) c h).symm) $$ [Hsv0 Hsv1 Hcl]
  · isplitr [Hcl]
    · isplitl [Hsv0]; · iexact Hsv0
      iexact Hsv1
    iexact Hcl
  iapply Hk
  iframe # ∗
  iexists (insert (SemLoc.dma (dsem 3 h), ()) W); iexact Ho

end Cert.KernelIdeal.RM

end
-- ==== Proof.RM.EndGlue.lean ====
import proofs.«900986_g7700000000000987_dist_mlpseq_tp1d_bs_rep_b512_d256_h512_v7x_i32_bf16_1_alg».proof.Proof.RM.Regions
import proofs.«900986_g7700000000000987_dist_mlpseq_tp1d_bs_rep_b512_d256_h512_v7x_i32_bf16_1_alg».proof.Proof.RM.Peel
import proofs.«900986_g7700000000000987_dist_mlpseq_tp1d_bs_rep_b512_d256_h512_v7x_i32_bf16_1_alg».proof.Proof.RM.Sched

noncomputable section

namespace Cert.KernelIdeal.RM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem RingW_zero_intro (m : (ℓ : Loc nD τ sig) → Buf (Elt F) ℓ) (K : Dev nD × CI → ℕ) (c : Dev nD) :
    iprop(records m K ∗ levAts L lv ∗ TokW (F := F) c 0 ∗ (∃ W, owes (c : Thread nD τ) (OW c 0) W)
        ∗ wallPt m c {c} ∗ wallAny (F := F) (rgt c) (Finset.univ.erase (rgt c)))
      ⊢ RingW m K c 0 := by
  unfold RingW
  rw [heldW_zero, restW_zero, ClosedW_zero]
  iintro ⟨HR, HL, HT, HO, HP, HA⟩
  iframe

theorem RingO_last_elim (m : (ℓ : Loc nD τ sig) → Buf (Elt F) ℓ) (K : Dev nD × CI → ℕ) (c : Dev nD) :
    RingO m K c 31
      ⊢ iprop(records m K ∗ levAts L lv ∗ ClosedO (F := F) c 31 ∗ (∃ W, owes (c : Thread nD τ) 0 W)
          ∗ (((Memref.whole cc0_stg7_0 : Memref sig .tc .vmem S16384x256 .bf16).view.loc (c : Thread nD τ)) ↦{fullShare} (outFinal m))) := by
  unfold RingO
  rw [OO_31, outPt_last]
  iintro ⟨HR, HL, -, HC, HO, HW, -⟩
  iframe

end Cert.KernelIdeal.RM

end
-- ==== Proof.RM.Body.lean ====
import proofs.«900986_g7700000000000987_dist_mlpseq_tp1d_bs_rep_b512_d256_h512_v7x_i32_bf16_1_alg».proof.Proof.RM.Dats
import proofs.«900986_g7700000000000987_dist_mlpseq_tp1d_bs_rep_b512_d256_h512_v7x_i32_bf16_1_alg».proof.Proof.RM.Glue
import proofs.«900986_g7700000000000987_dist_mlpseq_tp1d_bs_rep_b512_d256_h512_v7x_i32_bf16_1_alg».proof.Proof.RM.Sched
import proofs.«900986_g7700000000000987_dist_mlpseq_tp1d_bs_rep_b512_d256_h512_v7x_i32_bf16_1_alg».proof.Proof.RM.Peel
import proofs.«900986_g7700000000000987_dist_mlpseq_tp1d_bs_rep_b512_d256_h512_v7x_i32_bf16_1_alg».proof.Proof.RM.Regions
import proofs.«900986_g7700000000000987_dist_mlpseq_tp1d_bs_rep_b512_d256_h512_v7x_i32_bf16_1_alg».proof.Proof.RM.Middle
import proofs.«900986_g7700000000000987_dist_mlpseq_tp1d_bs_rep_b512_d256_h512_v7x_i32_bf16_1_alg».proof.Proof.RM.Prologue
import proofs.«900986_g7700000000000987_dist_mlpseq_tp1d_bs_rep_b512_d256_h512_v7x_i32_bf16_1_alg».proof.Proof.RM.StepW
import proofs.«900986_g7700000000000987_dist_mlpseq_tp1d_bs_rep_b512_d256_h512_v7x_i32_bf16_1_alg».proof.Proof.RM.StepO
import proofs.«900986_g7700000000000987_dist_mlpseq_tp1d_bs_rep_b512_d256_h512_v7x_i32_bf16_1_alg».proof.Proof.RM.EndGlue
import proofs.«900986_g7700000000000987_dist_mlpseq_tp1d_bs_rep_b512_d256_h512_v7x_i32_bf16_1_alg».proof.Proof.RM.Launch

noncomputable section

namespace Cert.KernelIdeal.RM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A whole buffer's location, spelt by its reference or through the whole memref's view, is one location by definition.
theorem toView (c : Dev nD) (b : Ref sig .tc) (f : Buf (Elt F) ((c : Thread nD τ).loc b)) :
    ((((c : Thread nD τ).loc b) ↦{fullShare} f : sProp 𝕄)) ⊢ (((Memref.whole b).view.loc (c : Thread nD τ)) ↦{fullShare} f : sProp 𝕄) :=
  Entails.of_eq rfl
theorem ofView (c : Dev nD) (b : Ref sig .tc) (f : Buf (Elt F) ((c : Thread nD τ).loc b)) :
    (((Memref.whole b).view.loc (c : Thread nD τ)) ↦{fullShare} f : sProp 𝕄) ⊢ ((((c : Thread nD τ).loc b) ↦{fullShare} f : sProp 𝕄)) :=
  Entails.of_eq rfl

-- The list of writes put under a variable, with the equation kept.
theorem box_writes (c : Dev nD) (f₀ : Buf (Elt F) ((c : Thread nD τ).loc cc0_scratch0)) (L : List (View.Piece (Elt F) S32x6x512x256 .bf16)) :
    (((wallM : Memref sig .tc .vmem S32x6x512x256 .bf16).view.loc (c : Thread nD τ)) ↦{fullShare}
        (wallM : Memref sig .tc .vmem S32x6x512x256 .bf16).view.writes (Elt F) f₀ L : sProp 𝕄)
      ⊢ iprop(∃ L' : List (View.Piece (Elt F) S32x6x512x256 .bf16), ⌜L' = L⌝ ∗
          (((wallM : Memref sig .tc .vmem S32x6x512x256 .bf16).view.loc (c : Thread nD τ)) ↦{fullShare}
            (wallM : Memref sig .tc .vmem S32x6x512x256 .bf16).view.writes (Elt F) f₀ L')) := by
  iintro H
  iexists L
  isplitr
  · ipureintro; rfl
  · iexact H

theorem wall_after_stores_of (m : (ℓ : Loc nD τ sig) → Buf (Elt F) ℓ) (c : Dev nD) (f₀ : Buf (Elt F) ((c : Thread nD τ).loc cc0_scratch0))
    (L : List (View.Piece (Elt F) S32x6x512x256 .bf16)) (hL : L = storedList m c) :
    (((wallM : Memref sig .tc .vmem S32x6x512x256 .bf16).view.loc (c : Thread nD τ)) ↦{fullShare}
        (wallM : Memref sig .tc .vmem S32x6x512x256 .bf16).view.writes (Elt F) f₀ L : sProp 𝕄)
      ⊢ iprop(wallPt m c {c} ∗ wallAny (F := F) c (Finset.univ.erase c)) := by
  subst hL
  exact wall_after_stores m c f₀

-- Binding a returned value applies the continuation to it.
theorem ret_bind_eq {E : Type → Type} {α β : Type} (a : α) (k : α → Prog E β) : (Prog.ret a).bind k = k a := rfl

set_option maxHeartbeats 16000000 in
-- One device's body: own slot stored, handshake with both neighbours, 31 ring steps of the weights, the three layers, own rows stored, 31 ring steps of the rows.
theorem body_run (m : (ℓ : Loc nD τ sig) → Buf (Elt F) ℓ) (c : Dev nD) :
    bodyPre' m c ⊢ wp frame (wpE (defs₀ (F := F)) 𝒱₀ (c : Thread nD τ) none) Set.univ (bodyProg (F := F)) (fun _ => bodyPost m c) := by
  iintro Hpre
  ihave H := (bodyPre'_elim m c) $$ Hpre
  unfold Φ₀
  icases H with ⟨⟨Hst, ⟨%f8, H8⟩⟩, ⟨%W0, HO⟩, Hins, ⟨%f7, H7⟩⟩
  ihave Hs := (start_elim m c) $$ Hst
  icases Hs with ⟨%K, #Hrec, #Hlev, ⟨HatB, HtBL, HtBR, HcB⟩, HTW, HTO⟩
  unfold Ins
  icases Hins with ⟨H0, H1, H2, H3, H4, H5, H6⟩
  ihave H0 := (toView c cc0_stg0_0 _) $$ H0
  ihave H1 := (toView c cc0_stg1_0 _) $$ H1
  ihave H2 := (toView c cc0_stg2_0 _) $$ H2
  ihave H3 := (toView c cc0_stg3_0 _) $$ H3
  ihave H4 := (toView c cc0_stg4_0 _) $$ H4
  ihave H5 := (toView c cc0_stg5_0 _) $$ H5
  ihave H6 := (toView c cc0_stg6_0 _) $$ H6
  ihave H7 := (toView c cc0_stg7_0 _) $$ H7
  ihave H8 := (toView c cc0_scratch0 _) $$ H8
  unfold bodyProg
  sl_exec_parts

  ihave Hb := (box_writes (F := F) c f8 _) $$ H8
  icases Hb with ⟨%L', %hL', H8⟩
  have hL'' : L' = storedList m c := hL'.trans rfl
  ihave Hw := (wall_after_stores_of m c f8 L' hL'') $$ H8
  icases Hw with ⟨HwOwn, HwGive⟩
  ihave Ho7 := (outAny_own_split (F := F) c f7) $$ H7
  icases Ho7 with ⟨HoOwn, HoGive⟩
  iapply (wp_signal_lft' m K c _ W0 _) $$ [HO HtBL HwGive HoGive]
  · isplitr; · iexact Hrec
    isplitl [HtBL]; · iexact HtBL
    isplitl [HO]; · iexact HO
    isplitl [HwGive]; · iexact HwGive
    iexact HoGive
  iintro HO
  sl_exec_parts
  iapply (wp_signal_rgt' m K c _ W0 _) $$ [HO HtBR]
  · isplitr; · iexact Hrec
    isplitl [HtBR]; · iexact HtBR
    iexact HO
  iintro HO
  sl_exec_parts
  iapply (wp_bar_wait' m K c _ W0 _) $$ [HcB HO HatB]
  · isplitr; · iexact Hrec
    isplitr; · iexact Hlev
    isplitl [HcB]; · iexact HcB
    isplitl [HO]; · iexact HO
    iexact HatB
  iintro ⟨HO, HatB, #HrB, HwR, HoR, #Hrr⟩
  sl_exec_parts

  ihave HR := (RingW_zero_intro m K c) $$ [HTW HO HwOwn HwR]
  · isplitr; · iexact Hrec
    isplitr; · iexact Hlev
    isplitl [HTW]; · iexact HTW
    isplitl [HO]; · iexists _; iexact HO
    isplitl [HwOwn]; · iexact HwOwn
    iexact HwR

  -- A ring step: send the slot received last to the right neighbour, wait until it has been read out, wait for the next slot from the left.
  -- The step's number, the neighbour and the slice moved are read off the goal; what is left to show is the same at every step.
  iterate 31
    iapply (wp_wall_enq m K c _ _ ⟨_, _⟩) $$ HR
    · exact slotM_step_nat c _ (by decide) _ _
    · clear * - c; revert c; decide +kernel
    on_goal 2 => decide
    iintro HR
    sl_exec_parts
    iapply (wp_wall_wsend m K c _) $$ HR
    · exact slotM_step_nat c _ (by decide) _ _
    iintro HR
    sl_exec_parts
    iapply (wp_wall_wrecv m K c _) $$ HR
    · exact slotM_step_nat c _ (by decide) _ _
    iintro HR
    sl_exec_parts

  ihave Hl := (RingW_last_elim m K c) $$ HR
  icases Hl with ⟨-, -, HclW, ⟨%W1, HO⟩, Hwall⟩
  ihave Hwall := (Entails.of_eq (wallPt_univ m c)) $$ Hwall
  rw [readAt_x0]
  iapply (wp_layers_x m c _ _ _ _ _ _ _ _ _ _ _ _ _ _ _ _ _ _ _ _ _ _ _ _ _)
  isplitl [Hwall]; · iexact Hwall
  iintro Hwall
  sl_exec_parts

  iapply (wp_out_load (F := F) c _ _ _) $$ HoOwn
  iintro %vold HoOwn
  iapply (wp_out_store m c _ _ _ _) $$ HoOwn
  iintro HoOwn
  rw [ret_bind_eq]
  sl_exec_parts
  ihave HR := (RingO_zero_intro m K c) $$ [HTO HO HoOwn HoR]
  · isplitr; · iexact Hrec
    isplitr; · iexact Hlev
    isplitl [HTO]; · iexact HTO
    isplitl [HO]; · iexists _; iexact HO
    isplitl [HoOwn]; · iexact HoOwn
    iexact HoR

  -- The same 31 steps for the row blocks of the result.
  iterate 31
    iapply (wp_out_enq m K c _ _ ⟨_, _⟩) $$ HR
    · exact blkM_step_nat c _ (by decide) _
    · clear * - c; revert c; decide +kernel
    on_goal 2 => decide
    iintro HR
    sl_exec_parts
    iapply (wp_out_wsend m K c _) $$ HR
    · exact blkM_step_nat c _ (by decide) _
    iintro HR
    sl_exec_parts
    iapply (wp_out_wrecv m K c _) $$ HR
    · exact blkM_step_nat c _ (by decide) _
    iintro HR
    sl_exec_parts
  sl_step
  ihave He := (RingO_last_elim m K c) $$ HR
  icases He with ⟨-, -, HclO, ⟨%W2, HO⟩, Hout⟩
  iapply (bodyPost_intro m c)
  unfold Φ₁ Ins
  isplitl [Hwall HclW HclO]
  · isplitl [Hwall]; · iapply (ofView c cc0_scratch0 _); iexact Hwall
    iapply (closed_join (F := F) c)
    isplitl [HclW]; · iexact HclW
    iexact HclO
  isplitl [HO]; · iexists _; iexact HO
  isplitl [H0 H1 H2 H3 H4 H5 H6]
  · isplitl [H0]; · iapply (ofView c cc0_stg0_0 _); iexact H0
    isplitl [H1]; · iapply (ofView c cc0_stg1_0 _); iexact H1
    isplitl [H2]; · iapply (ofView c cc0_stg2_0 _); iexact H2
    isplitl [H3]; · iapply (ofView c cc0_stg3_0 _); iexact H3
    isplitl [H4]; · iapply (ofView c cc0_stg4_0 _); iexact H4
    isplitl [H5]; · iapply (ofView c cc0_stg5_0 _); iexact H5
    iapply (ofView c cc0_stg6_0 _); iexact H6
  iapply (ofView c cc0_stg7_0 _); iexact Hout

theorem body_ob (m : (ℓ : Loc nD τ sig) → Buf (Elt F) ℓ) (c : Dev nD) :
    BodyObligation (dats (F := F) m 0 c) (defs₀ (F := F)) 𝒱₀ () Set.univ :=
  body_obligation_of m (fun c => body_run m c) c

end Cert.KernelIdeal.RM

end
-- ==== Proof.RMK.Sets.lean ====
import proofs.«900986_g7700000000000987_dist_mlpseq_tp1d_bs_rep_b512_d256_h512_v7x_i32_bf16_1_alg».proof.Proof.Gen.Kernel

noncomputable section

namespace Cert.Kernel.RM

open Cert.Kernel Cert.Kernel.Gen
open Idealize.ShloMosaic Idealize.SL.Sem

abbrev wallM : Memref sig .tc .vmem S32x6x512x256 .bf16 := Memref.whole cc0_scratch0
abbrev outM : Memref sig .tc .vmem S16384x256 .bf16 := Memref.whole cc0_stg7_0

theorem slot_inb : ∀ (j : Dev nD) (a : Fin 4), (![j.val, 0, 0, 0] : Fin 4 → Nat) a + S1x6x512x256.size a ≤ S32x6x512x256.size a := by decide
theorem blk_inb : ∀ (j : Dev nD) (a : Fin 2), (![512 * j.val, 0] : Fin 2 → Nat) a + S512x256.size a ≤ S16384x256.size a := by decide

def slotM (j : Dev nD) : Memref sig .tc .vmem S6x512x256 .bf16 :=
  (wallM.slice (Rect.unit (s := S32x6x512x256) ![j.val, 0, 0, 0] S1x6x512x256.size (slot_inb j)) (fun _ => rfl)).squeeze S6x512x256 squeezes_S1x6x512x256_S6x512x256

def blkM (j : Dev nD) : Memref sig .tc .vmem S512x256 .bf16 :=
  outM.slice (Rect.unit (s := S16384x256) ![512 * j.val, 0] S512x256.size (blk_inb j)) (fun _ => rfl)

def wallSet (j : Dev nD) : Finset S32x6x512x256.Idx := (slotM j).view.set
def outSet (j : Dev nD) : Finset S16384x256.Idx := (blkM j).view.set
def wallSets (S : Finset (Dev nD)) : Finset S32x6x512x256.Idx := S.biUnion wallSet
def outSets (S : Finset (Dev nD)) : Finset S16384x256.Idx := S.biUnion outSet

end Cert.Kernel.RM

end
-- ==== Proof.RMK.Vals.lean ====
import proofs.«900986_g7700000000000987_dist_mlpseq_tp1d_bs_rep_b512_d256_h512_v7x_i32_bf16_1_alg».proof.Proof.Gen.Kernel.Skeleton
import Idealize.ShloMosaic.Lib.ValueIdx

noncomputable section

namespace Cert.Kernel.RM

open Idealize.ShloMosaic Idealize.SL.Sem Idealize.ShloMosaic.ValueIdx

variable {F : FTy → Type} [FloatOps F]

def piece (m : (ℓ : Loc nD τ sig) → Buf (Elt F) ℓ) (j : Dev nD) (l : Fin 6) : FVec F S1x1x512x256 .bf16 :=
  match l with
  | ⟨0, _⟩ => Gen.k0_pay2 (Gen.k0_pay1 (m ((j.tc : Thread nD τ).loc main_arg1)))
  | ⟨1, _⟩ => Gen.k0_pay3 (m ((j.tc : Thread nD τ).loc main_arg3))
  | ⟨2, _⟩ => Gen.k0_pay4 (m ((j.tc : Thread nD τ).loc main_arg5))
  | ⟨3, _⟩ => Gen.k0_pay5 (m ((j.tc : Thread nD τ).loc main_arg2))
  | ⟨4, _⟩ => Gen.k0_pay6 (m ((j.tc : Thread nD τ).loc main_arg4))
  | ⟨5, _⟩ => Gen.k0_pay7 (m ((j.tc : Thread nD τ).loc main_arg6))

def wallFinal (m : (ℓ : Loc nD τ sig) → Buf (Elt F) ℓ) : (cc0_scratch0 : Ref sig .tc).ty.Contents (Elt F) :=
  fun (i : S32x6x512x256.Idx) =>
    piece m ⟨(i 0).val, (i 0).isLt⟩ ⟨(i 1).val, (i 1).isLt⟩
      (ix4 (0 : Fin 1) (0 : Fin 1) (⟨(i 2).val, (i 2).isLt⟩ : Fin 512) (⟨(i 3).val, (i 3).isLt⟩ : Fin 256))

theorem wallFinal_apply (m : (ℓ : Loc nD τ sig) → Buf (Elt F) ℓ) (t : Fin 32) (l : Fin 6) (p : Fin 512) (q : Fin 256) :
    wallFinal m (ix4 t l p q) = piece m t l (ix4 (0 : Fin 1) (0 : Fin 1) p q) := rfl

theorem rd_inb (t : ℕ) (ht : t < 32) (l : Fin 6) :
    ∀ a, (![t, l.val, 0, 0] : Fin 4 → ℕ) a + S1x1x512x256.size a ≤ S32x6x512x256.size a := by
  intro a
  have hl := l.isLt
  match a with
  | ⟨0, _⟩ => show t + 1 ≤ 32; omega
  | ⟨1, _⟩ => show l.val + 1 ≤ 6; omega
  | ⟨2, _⟩ => show 0 + 512 ≤ 512; omega
  | ⟨3, _⟩ => show 0 + 256 ≤ 256; omega

def rd (m : (ℓ : Loc nD τ sig) → Buf (Elt F) ℓ) (t : ℕ) (l : Fin 6) : Vec F S1x1x512x256 .bf16 :=
  if ht : t < 32 then
    (Memref.whole cc0_scratch0 : Memref sig .tc .vmem S32x6x512x256 .bf16).view.readAt (Elt F)
      (Rect.unit (s := S32x6x512x256) ![t, l.val, 0, 0] S1x1x512x256.size (rd_inb t ht l)).toLoadRect (wallFinal m)
  else piece m 0 l

theorem rd_of_lt (m : (ℓ : Loc nD τ sig) → Buf (Elt F) ℓ) (t : ℕ) (ht : t < 32) (l : Fin 6) :
    rd m t l = (Memref.whole cc0_scratch0 : Memref sig .tc .vmem S32x6x512x256 .bf16).view.readAt (Elt F)
      (Rect.unit (s := S32x6x512x256) ![t, l.val, 0, 0] S1x1x512x256.size (rd_inb t ht l)).toLoadRect (wallFinal m) :=
  dif_pos ht

theorem rd_apply (m : (ℓ : Loc nD τ sig) → Buf (Elt F) ℓ) (t : ℕ) (ht : t < 32) (l : Fin 6) :
    rd m t l = piece m ⟨t, ht⟩ l := by
  rw [rd_of_lt m t ht l]
  funext x
  obtain ⟨a, b, p, q, rfl⟩ : ∃ (a : Fin 1) (b : Fin 1) (p : Fin 512) (q : Fin 256), x = ix4 a b p q :=
    ⟨x 0, x 1, x 2, x 3, eq_ix4 x⟩
  obtain rfl : a = 0 := Subsingleton.elim _ _
  obtain rfl : b = 0 := Subsingleton.elim _ _
  show wallFinal m _ = _
  have hidx : (Rect.unit (s := S32x6x512x256) ![t, l.val, 0, 0] S1x1x512x256.size (rd_inb t ht l)).toLoadRect.idx
      (ix4 (0 : Fin 1) (0 : Fin 1) p q) = ix4 (⟨t, ht⟩ : Fin 32) l p q := by
    funext c
    match c with
    | ⟨0, _⟩ => exact Fin.ext (show t + 1 * 0 = t by omega)
    | ⟨1, _⟩ => exact Fin.ext (show l.val + 1 * 0 = l.val by omega)
    | ⟨2, _⟩ => exact Fin.ext (show 0 + 1 * p.val = p.val by omega)
    | ⟨3, _⟩ => exact Fin.ext (show 0 + 1 * q.val = q.val by omega)
  exact (congrArg (wallFinal m) hidx).trans (wallFinal_apply m ⟨t, ht⟩ l p q)

def accN (m : (ℓ : Loc nD τ sig) → Buf (Elt F) ℓ)
    (pay : FVec F S512x256 .f32 → Vec F S1x1x512x256 .bf16 → Vec F S1x1x512x256 .bf16 → FVec F S512x256 .f32)
    (l : Fin 3) : ℕ → FVec F S512x256 .f32
  | 0 => Gen.k0_pay8
  | n + 1 => pay (accN m pay l n) (rd m n ⟨l.val, by omega⟩) (rd m n ⟨l.val + 3, by omega⟩)

theorem accN_zero (m : (ℓ : Loc nD τ sig) → Buf (Elt F) ℓ)
    (pay : FVec F S512x256 .f32 → Vec F S1x1x512x256 .bf16 → Vec F S1x1x512x256 .bf16 → FVec F S512x256 .f32)
    (l : Fin 3) : accN m pay l 0 = Gen.k0_pay8 := rfl

theorem accN_succ (m : (ℓ : Loc nD τ sig) → Buf (Elt F) ℓ)
    (pay : FVec F S512x256 .f32 → Vec F S1x1x512x256 .bf16 → Vec F S1x1x512x256 .bf16 → FVec F S512x256 .f32)
    (l : Fin 3) (n : ℕ) :
    accN m pay l (n + 1) = pay (accN m pay l n) (rd m n ⟨l.val, by omega⟩) (rd m n ⟨l.val + 3, by omega⟩) := rfl

def y1 (m : (ℓ : Loc nD τ sig) → Buf (Elt F) ℓ) (j : Dev nD) : FVec F S512x256 .f32 :=
  accN m (fun acc a b => Gen.k0_pay9 (m ((j.tc : Thread nD τ).loc main_arg0)) acc a b) 0 32

def y2 (m : (ℓ : Loc nD τ sig) → Buf (Elt F) ℓ) (j : Dev nD) : FVec F S512x256 .f32 :=
  accN m (fun acc a b => Gen.k0_pay11 (y1 m j) acc a b) 1 32

def y3 (m : (ℓ : Loc nD τ sig) → Buf (Elt F) ℓ) (j : Dev nD) : FVec F S512x256 .f32 :=
  accN m (fun acc a b => Gen.k0_pay13 (y2 m j) acc a b) 2 32

def yblk (m : (ℓ : Loc nD τ sig) → Buf (Elt F) ℓ) (j : Dev nD) : FVec F S512x256 .bf16 :=
  Gen.k0_pay14 (y3 m j)

theorem outFinal_row_lt (r : ℕ) (hr : r < 16384) : r / 512 < 32 := by omega

def outFinal (m : (ℓ : Loc nD τ sig) → Buf (Elt F) ℓ) : (cc0_stg7_0 : Ref sig .tc).ty.Contents (Elt F) :=
  fun (i : S16384x256.Idx) =>
    yblk m ⟨(i 0).val / 512, outFinal_row_lt _ (i 0).isLt⟩
      (ix2 (⟨(i 0).val % 512, Nat.mod_lt _ (by norm_num)⟩ : Fin 512) (⟨(i 1).val, (i 1).isLt⟩ : Fin 256))

theorem outFinal_apply (m : (ℓ : Loc nD τ sig) → Buf (Elt F) ℓ) (r : Fin 16384) (q : Fin 256) :
    outFinal m (ix2 r q) = yblk m ⟨r.val / 512, outFinal_row_lt _ r.isLt⟩
      (ix2 (⟨r.val % 512, Nat.mod_lt _ (by norm_num)⟩ : Fin 512) q) := rfl

end Cert.Kernel.RM

end
-- ==== Proof.RMK.Ring.lean ====
import proofs.«900986_g7700000000000987_dist_mlpseq_tp1d_bs_rep_b512_d256_h512_v7x_i32_bf16_1_alg».proof.Proof.Gen.Kernel

set_option synthInstance.maxSize 4096
set_option Elab.async false

namespace Cert.Kernel.RM

open Idealize.ShloMosaic

def posN (l : ℕ) : ℕ :=
  let z := l / 8
  let r := l - 8 * z
  let y := r / 2
  let xb := r - 2 * y
  let x := if y % 2 = 0 then xb else 1 - xb
  let q := 4 * z + (if z % 2 = 0 then y else 3 - y)
  if x = 0 then q else 31 - q

def logN (p : ℕ) : ℕ :=
  let x := if 16 ≤ p then 1 else 0
  let q := if x = 1 then 31 - p else p
  let z := q / 4
  let t := q - 4 * z
  let y := if z % 2 = 0 then t else 3 - t
  let xb := if y % 2 = 0 then x else 1 - x
  8 * z + 2 * y + xb

theorem posN_lt : ∀ l : Fin 32, posN l.val < 32 := by decide +kernel
theorem logN_lt : ∀ p : Fin 32, logN p.val < 32 := by decide +kernel

def posOf (c : Dev nD) : Fin 32 := ⟨posN c.val, posN_lt c⟩

def logOf (p : Fin 32) : Dev nD := ⟨logN p.val, logN_lt p⟩

def rgt (c : Dev nD) : Dev nD := logOf (posOf c + 1)

def lft (c : Dev nD) : Dev nD := logOf (posOf c + 31)

def srcAt (c : Dev nD) (h : ℕ) : Dev nD :=
  logOf ⟨((posOf c).val + 32 * 32 - h % 32) % 32, Nat.mod_lt _ (by decide)⟩

theorem lft_rgt : ∀ c : Dev nD, lft (rgt c) = c := by decide +kernel
theorem rgt_lft : ∀ c : Dev nD, rgt (lft c) = c := by decide +kernel
theorem srcAt_zero : ∀ c : Dev nD, srcAt c 0 = c := by decide +kernel
theorem srcAt_rgt_fin : ∀ c : Dev nD, ∀ h : Fin 31, srcAt (rgt c) (h.val + 1) = srcAt c h.val := by decide +kernel
theorem srcAt_rgt (c : Dev nD) (h : ℕ) (hh : h < 31) : srcAt (rgt c) (h + 1) = srcAt c h :=
  srcAt_rgt_fin c ⟨h, hh⟩

theorem srcAt_inj_fin : ∀ c : Dev nD, ∀ h h' : Fin 32, srcAt c h.val = srcAt c h'.val → h = h' := by decide +kernel
theorem srcAt_injOn (c : Dev nD) (h h' : ℕ) (hh : h < 32) (hh' : h' < 32) (e : srcAt c h = srcAt c h') : h = h' :=
  congrArg Fin.val (srcAt_inj_fin c ⟨h, hh⟩ ⟨h', hh'⟩ e)

theorem srcAt_surj_fin : ∀ c j : Dev nD, ∃ h : Fin 32, srcAt c h.val = j := by decide +kernel
theorem srcAt_surj (c j : Dev nD) : ∃ h, h < 32 ∧ srcAt c h = j :=
  let ⟨h, e⟩ := srcAt_surj_fin c j
  ⟨h.val, h.isLt, e⟩

def ringEquiv : Dev nD ≃ Dev nD := ⟨rgt, lft, lft_rgt, rgt_lft⟩

@[sl_canon] theorem dev1_eq (c : Dev nD) : (⟨Cert.Kernel.k0_dev1 c, Gen.k0_dev1_lt c⟩ : Dev nD) = lft c := by revert c; decide +kernel

@[sl_canon] theorem dev2_eq (c : Dev nD) : (⟨Cert.Kernel.k0_dev2 c, Gen.k0_dev2_lt c⟩ : Dev nD) = rgt c := by revert c; decide +kernel
theorem off7_eq (c : Dev nD) (h : Fin 31) :
    Cert.Kernel.k0_off7 c (BitVec.ofNat 32 h.val) = ![(srcAt c h.val).val, 0, 0, 0] := by
  revert c h; decide +kernel

theorem off15_eq (c : Dev nD) (h : Fin 31) :
    Cert.Kernel.k0_off15 c (BitVec.ofNat 32 h.val) = ![512 * (srcAt c h.val).val, 0] := by
  revert c h; decide +kernel

theorem off7_eq_nat (c : Dev nD) (h : ℕ) (hh : h < 31) :
    Cert.Kernel.k0_off7 c (BitVec.ofNat 32 h) = ![(srcAt c h).val, 0, 0, 0] := off7_eq c ⟨h, hh⟩

theorem off15_eq_nat (c : Dev nD) (h : ℕ) (hh : h < 31) :
    Cert.Kernel.k0_off15 c (BitVec.ofNat 32 h) = ![512 * (srcAt c h).val, 0] := off15_eq c ⟨h, hh⟩

end Cert.Kernel.RM
-- ==== Proof.RMK.Proto.lean ====
import proofs.«900986_g7700000000000987_dist_mlpseq_tp1d_bs_rep_b512_d256_h512_v7x_i32_bf16_1_alg».proof.Proof.RMK.Sets
import proofs.«900986_g7700000000000987_dist_mlpseq_tp1d_bs_rep_b512_d256_h512_v7x_i32_bf16_1_alg».proof.Proof.RMK.Vals
import proofs.«900986_g7700000000000987_dist_mlpseq_tp1d_bs_rep_b512_d256_h512_v7x_i32_bf16_1_alg».proof.Proof.RMK.Ring
import proofs.«900986_g7700000000000987_dist_mlpseq_tp1d_bs_rep_b512_d256_h512_v7x_i32_bf16_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

abbrev barS : Sem sig := (SemArray.scalar (sig.barrier 0 rfl) : Sems sig S_).sem

def semArr : Fin 4 → DmaSems sig S31
  | 0 => cc0_scratch1 | 1 => cc0_scratch2 | 2 => cc0_scratch3 | 3 => cc0_scratch4

theorem sem_inb : ∀ (h : Fin 31) (a : Fin 1), (![h.val] : Fin 1 → Nat) a + S1.size a ≤ S31.size a := by decide

def dsem (k : Fin 4) (h : Fin 31) : DmaSem sig :=
  (((semArr k).slice (Rect.unit (s := S31) ![h.val] S1.size (sem_inb h))).squeeze S_ squeezes_S1_S_).sem

abbrev barCell (c : Dev nD) : GSem nD τ sig := ((c : Thread nD τ), .reg barS)
abbrev dCell (c : Dev nD) (k : Fin 4) (h : Fin 31) : GSem nD τ sig := ((c : Thread nD τ), .dma (dsem k h))

def dk (q : DmaSem sig) : Option (Fin 4 × Fin 31) :=
  if h : 8 ≤ q.val ∧ q.val < 132 then some (⟨(q.val - 8) / 31, by omega⟩, ⟨(q.val - 8) % 31, Nat.mod_lt _ (by decide)⟩) else none

abbrev Nw : ℕ := (slotM 0).view.dmaCredit
abbrev No : ℕ := (blkM 0).view.dmaCredit

def wallPt (c : Dev nD) (S : Finset (Dev nD)) : sProp 𝕄 :=
  ((c : Thread nD τ).loc cc0_scratch0) ↦[wallSets S]{fullShare} (wallFinal m)
def wallAny (c : Dev nD) (S : Finset (Dev nD)) : sProp 𝕄 :=
  iprop(∃ f : Buf (Elt F) ((c : Thread nD τ).loc cc0_scratch0), ((c : Thread nD τ).loc cc0_scratch0) ↦[wallSets S]{fullShare} f)

def outPt (c : Dev nD) (S : Finset (Dev nD)) : sProp 𝕄 :=
  ((c : Thread nD τ).loc cc0_stg7_0) ↦[outSets S]{fullShare} (outFinal m)
def outAny (c : Dev nD) (S : Finset (Dev nD)) : sProp 𝕄 :=
  iprop(∃ f : Buf (Elt F) ((c : Thread nD τ).loc cc0_stg7_0), ((c : Thread nD τ).loc cc0_stg7_0) ↦[outSets S]{fullShare} f)

def barPay (c : Dev nD) : sProp 𝕄 :=
  iprop(wallAny (F := F) (rgt c) (Finset.univ.erase (rgt c)) ∗ outAny (F := F) (rgt c) (Finset.univ.erase (rgt c))
    ∗ bigSep Finset.univ fun h : Fin 31 => iprop(reached ER (dCell (rgt c) 1 h) 0 ∗ reached ER (dCell (rgt c) 3 h) 0))

def dmaPay (c : Dev nD) : Fin 4 × Fin 31 → sProp 𝕄
  | (0, h) => wallPt m c {srcAt c h.val}
  | (1, h) => wallPt m c {srcAt c (h.val + 1)}
  | (2, h) => outPt m c {srcAt c h.val}
  | (3, h) => outPt m c {srcAt c (h.val + 1)}

def ringRd : Rounds.Schedule (GSem nD τ sig) Bool 𝕄 where
  duties g r :=
    if r = 0 ∧ g.1.2 = .tc then
      (match g.2 with
        | .reg s => if s = barS then Finset.univ else ∅
        | .dma q => if (dk q).isSome then {false} else ∅)
    else ∅
  unitless _ := False
  amount g _ _ := match g.2 with
    | .reg _ => 1
    | .dma q => if q.val < 70 then Nw else No
  payload g _ d := match g.2 with
    | .reg s => if s = barS ∧ d = true then barPay (F := F) g.1.1 else iprop(emp)
    | .dma q => match dk q with
      | some kh => dmaPay m g.1.1 kh
      | none => iprop(emp)
  amount_pos g _ _ _ := by
    rcases hg : g.2 with s | q
    · simp only [hg]; exact Nat.one_pos
    · simp only [hg]; split
      · exact View.dmaCredit_pos _ (by decide)
      · exact View.dmaCredit_pos _ (by decide)

def OO (c : Dev nD) (h : ℕ) : CellTallies nD τ sig Unit :=
  ∑ h' ∈ (Finset.univ : Finset (Fin 31)).filter (fun x => h ≤ x.val), tallyAt (dCell (rgt c) 3 h') () No
def OW (c : Dev nD) (h : ℕ) : CellTallies nD τ sig Unit :=
  OO c 0 + ∑ h' ∈ (Finset.univ : Finset (Fin 31)).filter (fun x => h ≤ x.val), tallyAt (dCell (rgt c) 1 h') () Nw

def O₁ (c : Dev nD) : CellTallies nD τ sig Unit := OW c 0 + tallyAt (barCell (rgt c)) () 1
def O₀ (c : Dev nD) : CellTallies nD τ sig Unit := O₁ c + tallyAt (barCell (lft c)) () 1

def L (g : GSem nD τ sig) : Finset Unit := if g.1.2 = .tc then {()} else ∅

def lv (g : GSem nD τ sig) (_ : Unit) : ℕ := match g.2 with
  | .reg _ => 1
  | .dma q => if 39 ≤ q.val ∧ q.val < 70 then q.val - 37 else if 101 ≤ q.val then q.val - 68 else 0

abbrev CI : Type := Option (Fin 4 × Fin 31)
def csem : CI → SemLoc sig
  | none => .reg barS
  | some (k, h) => .dma (dsem k h)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

def stepW (c : Dev nD) (h : Fin 31) : sProp 𝕄 :=
  iprop(dutyTok ER (dCell c 0 h) 0 false ∗ dutyTok ER (dCell (rgt c) 1 h) 0 false
    ∗ atPos ER (dCell c 0 h) 0 ∅ 0 ∗ atPos ER (dCell c 1 h) 0 ∅ 0 ∗ cred (tallyAt (dCell c 1 h) () Nw))
def stepO (c : Dev nD) (h : Fin 31) : sProp 𝕄 :=
  iprop(dutyTok ER (dCell c 2 h) 0 false ∗ dutyTok ER (dCell (rgt c) 3 h) 0 false
    ∗ atPos ER (dCell c 2 h) 0 ∅ 0 ∗ atPos ER (dCell c 3 h) 0 ∅ 0 ∗ cred (tallyAt (dCell c 3 h) () No))
def TokW (c : Dev nD) (h : ℕ) : sProp 𝕄 := bigSep ((Finset.univ : Finset (Fin 31)).filter (fun x => h ≤ x.val)) (stepW (F := F) c)
def TokO (c : Dev nD) (h : ℕ) : sProp 𝕄 := bigSep ((Finset.univ : Finset (Fin 31)).filter (fun x => h ≤ x.val)) (stepO (F := F) c)

def ClosedW (c : Dev nD) (h : ℕ) : sProp 𝕄 :=
  bigSep ((Finset.univ : Finset (Fin 31)).filter (fun x => x.val < h)) fun x => iprop(semVal (dCell c 0 x) 0 ∗ semVal (dCell c 1 x) 0)
def ClosedO (c : Dev nD) (h : ℕ) : sProp 𝕄 :=
  bigSep ((Finset.univ : Finset (Fin 31)).filter (fun x => x.val < h)) fun x => iprop(semVal (dCell c 2 x) 0 ∗ semVal (dCell c 3 x) 0)

def heldW (c : Dev nD) (h : ℕ) : Finset (Dev nD) := (Finset.range (h + 1)).image (srcAt c)
def restW (c : Dev nD) (h : ℕ) : Finset (Dev nD) := (Finset.Ico h 31).image (srcAt c)

def RingW (K : Dev nD × CI → ℕ) (c : Dev nD) (h : ℕ) : sProp 𝕄 :=
  iprop(records m K ∗ levAts L lv ∗ TokW (F := F) c h ∗ ClosedW (F := F) c h ∗ (∃ W, owes (c : Thread nD τ) (OW c h) W)
    ∗ wallPt m c (heldW c h) ∗ wallAny (F := F) (rgt c) (restW c h))
def RingO (K : Dev nD × CI → ℕ) (c : Dev nD) (h : ℕ) : sProp 𝕄 :=
  iprop(records m K ∗ levAts L lv ∗ TokO (F := F) c h ∗ ClosedO (F := F) c h ∗ (∃ W, owes (c : Thread nD τ) (OO c h) W)
    ∗ outPt m c (heldW c h) ∗ outAny (F := F) (rgt c) (restW c h))

def Ins (c : Dev nD) : sProp 𝕄 :=
  iprop((((c : Thread nD τ).loc cc0_stg0_0) ↦{fullShare} (m ((c : Thread nD τ).loc main_arg0)))
    ∗ (((c : Thread nD τ).loc cc0_stg1_0) ↦{fullShare} (m ((c : Thread nD τ).loc main_arg1)))
    ∗ (((c : Thread nD τ).loc cc0_stg2_0) ↦{fullShare} (m ((c : Thread nD τ).loc main_arg2)))
    ∗ (((c : Thread nD τ).loc cc0_stg3_0) ↦{fullShare} (m ((c : Thread nD τ).loc main_arg3)))
    ∗ (((c : Thread nD τ).loc cc0_stg4_0) ↦{fullShare} (m ((c : Thread nD τ).loc main_arg4)))
    ∗ (((c : Thread nD τ).loc cc0_stg5_0) ↦{fullShare} (m ((c : Thread nD τ).loc main_arg5)))
    ∗ (((c : Thread nD τ).loc cc0_stg6_0) ↦{fullShare} (m ((c : Thread nD τ).loc main_arg6))))

end Cert.Kernel.RM

end
-- ==== Proof.RMK.Dats.lean ====
import proofs.«900986_g7700000000000987_dist_mlpseq_tp1d_bs_rep_b512_d256_h512_v7x_i32_bf16_1_alg».proof.Proof.RMK.Proto
import proofs.«900986_g7700000000000987_dist_mlpseq_tp1d_bs_rep_b512_d256_h512_v7x_i32_bf16_1_alg».proof.Proof.Gen.Kernel.Launch
import proofs.«900986_g7700000000000987_dist_mlpseq_tp1d_bs_rep_b512_d256_h512_v7x_i32_bf16_1_alg».proof.Proof.Gen.Kernel.Points

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def payToks (c : Dev nD) : sProp 𝕄 :=
  iprop(dutyTok ER (barCell (lft c)) 0 true ∗ dutyTok ER (barCell (rgt c)) 0 false
    ∗ (bigSep Finset.univ fun h : Fin 31 => dutyTok ER (dCell c 0 h) 0 false)
    ∗ (bigSep Finset.univ fun h : Fin 31 => dutyTok ER (dCell (rgt c) 1 h) 0 false)
    ∗ (bigSep Finset.univ fun h : Fin 31 => dutyTok ER (dCell c 2 h) 0 false)
    ∗ (bigSep Finset.univ fun h : Fin 31 => dutyTok ER (dCell (rgt c) 3 h) 0 false))

def ghost (K : Dev nD × CI → ℕ) (c : Dev nD) : sProp 𝕄 :=
  iprop(records m K ∗ (bigSep Finset.univ fun i : CI => atPos ER (kcell (c, i)) 0 ∅ 0) ∗ payToks (F := F) c)

def launchCreds (c : Dev nD) : sProp 𝕄 :=
  iprop(cred (tallyAt (barCell c) () 2)
    ∗ (bigSep Finset.univ fun h : Fin 31 => cred (tallyAt (dCell c 1 h) () Nw))
    ∗ (bigSep Finset.univ fun h : Fin 31 => cred (tallyAt (dCell c 3 h) () No)))

def start (c : Dev nD) : sProp 𝕄 :=
  iprop((∃ K, ghost m K c) ∗ launchCreds (F := F) c ∗ levAts L lv)

def Φ₀ (c : Dev nD) : sProp 𝕄 :=
  iprop(start m c ∗ ∃ f : Buf (Elt F) ((c : Thread nD τ).loc cc0_scratch0), (((c : Thread nD τ).loc cc0_scratch0) ↦{fullShare} f))

def Φ₁ (c : Dev nD) : sProp 𝕄 :=
  iprop((((c : Thread nD τ).loc cc0_scratch0) ↦{fullShare} wallFinal m)
    ∗ bigSep Finset.univ fun kh : Fin 4 × Fin 31 => semVal (dCell c kh.1 kh.2) 0)

def dats (_ : Fin 1) (c : Dev nD) : Dat τ (Elt F) Unit ℕ UU ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => m ((c : Thread nD τ).loc main_arg4)
    | ⟨5, _⟩ => m ((c : Thread nD τ).loc main_arg5)
    | ⟨6, _⟩ => m ((c : Thread nD τ).loc main_arg6)
    | ⟨7, _⟩ => outFinal m
    | ⟨_ + 8, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m 0 c).owesAt () t0_0.castSucc ∗ bigSep Finset.univ fun w : Fin 8 =>
    iprop(∃ d, owns (c : Thread nD τ) ((cfg0.win w).stage (cfg0.slots t0_0 w)) fullShare ((dats m 0 c).before w t0_0 d)))

def bodyPost (c : Dev nD) : sProp 𝕄 :=
  iprop(Φ₁ m c ∗ (dats m 0 c).owesAt () t0_0.succ ∗ bigSep Finset.univ fun w : Fin 8 =>
    owns (c : Thread nD τ) ((cfg0.win w).stage (cfg0.slots t0_0 w)) fullShare ((dats m 0 c).after w t0_0))

omit [FloatOps F] in
theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) cc0_scratch1 cc0_scratch2 cc0_scratch3 cc0_scratch4

omit [FloatOps F] in
theorem hz_out7 : (fun a => (win0_7.index t0_0) a * main_v1.ty.shape.size a) = fun _ => 0 := funext fun a => by fin_cases a <;> decide

omit [FloatOps F] in
theorem fetch_in : ∀ w : Fin 8, w ≠ 7 → (cfg0.win w).fetch t0_0 = true := by decide +kernel

-- Reading a whole array through its one block, at offset zero, returns the array.
theorem before_in (c : Dev nD) (w : Fin 8) (d) (hw : w ≠ 7 := by decide) : (dats m 0 c).before w t0_0 d = (dats m 0 c).after w t0_0 := by
  unfold Dat.before; rw [if_pos (fetch_in w hw)]
  have R (b : Ref sig .tc) {off} (inb) (h : ∀ a, off a = 0) (f : b.ty.Contents (Elt F)) :
      ((Memref.whole b).access (Rect.unit off b.ty.shape.size inb) : View sig .tc _ _ _).read (Elt F) f = f :=
    Memref.read_access_unit_zero _ b (off := off) (funext h) inb f
  fin_cases w
  · show ((cfg0.win 0).blk t0_0).view.read (Elt F) _ = _; refine R main_arg0 _ ?_ _; decide
  · show ((cfg0.win 1).blk t0_0).view.read (Elt F) _ = _; refine R main_arg1 _ ?_ _; decide
  · show ((cfg0.win 2).blk t0_0).view.read (Elt F) _ = _; refine R main_arg2 _ ?_ _; decide
  · show ((cfg0.win 3).blk t0_0).view.read (Elt F) _ = _; refine R main_arg3 _ ?_ _; decide
  · show ((cfg0.win 4).blk t0_0).view.read (Elt F) _ = _; refine R main_arg4 _ ?_ _; decide
  · show ((cfg0.win 5).blk t0_0).view.read (Elt F) _ = _; refine R main_arg5 _ ?_ _; decide
  · show ((cfg0.win 6).blk t0_0).view.read (Elt F) _ = _; refine R main_arg6 _ ?_ _; decide
  · exact absurd rfl hw

theorem bodyPre'_elim (c : Dev nD) :
    bodyPre' m c ⊢ iprop(Φ₀ m c ∗ (∃ W, owes (c : Thread nD τ) (O₀ c) W) ∗ Ins m c
      ∗ ∃ f : Buf (Elt F) ((c : Thread nD τ).loc cc0_stg7_0), (((c : Thread nD τ).loc cc0_stg7_0) ↦{fullShare} f)) := by
  unfold bodyPre' Ins Dat.owesAt Pipeline.owesWithin
  rw [bigSep_W0]; simp only [owns_whole_eq]
  iintro ⟨HΦ, ⟨%W, -, HO⟩, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩, ⟨%d6, %f6, %e6, H6⟩, ⟨%d7, %f7, -, H7⟩⟩
  rw [before_in m c 0] at e0; rw [before_in m c 1] at e1; rw [before_in m c 2] at e2; rw [before_in m c 3] at e3
  rw [before_in m c 4] at e4; rw [before_in m c 5] at e5; rw [before_in m c 6] at e6
  dsimp only [dats] at e0 e1 e2 e3 e4 e5 e6
  subst e0 e1 e2 e3 e4 e5 e6
  iframe
  isplitl [HO]; · iexists W; iexact HO
  iexists f7; iexact H7

theorem stg_intro (c : Dev nD) {b : Ref sig .tc} {X : b.ty.Contents (Elt F)} :
    ((((c : Thread nD τ).loc b) ↦{fullShare} X) : sProp 𝕄) ⊢ stg c b X := by
  iintro H; iexists X; isplitr; · ipureintro; rfl
  iexact H

theorem bodyPost_intro (c : Dev nD) :
    iprop(Φ₁ m c ∗ (∃ W, owes (c : Thread nD τ) 0 W) ∗ Ins m c ∗ (((c : Thread nD τ).loc cc0_stg7_0) ↦{fullShare} outFinal m))
      ⊢ bodyPost m c := by
  unfold bodyPost Ins Dat.owesAt Pipeline.owesWithin
  rw [bigSep_W0]; simp only [owns_whole_eq]; dsimp only [dats]
  iintro ⟨HΦ, ⟨%W, HO⟩, ⟨H0, H1, H2, H3, H4, H5, H6⟩, H7⟩
  ihave H0 := (stg_intro c) $$ H0
  ihave H1 := (stg_intro c) $$ H1
  ihave H2 := (stg_intro c) $$ H2
  ihave H3 := (stg_intro c) $$ H3
  ihave H4 := (stg_intro c) $$ H4
  ihave H5 := (stg_intro c) $$ H5
  ihave H6 := (stg_intro c) $$ H6
  ihave H7 := (stg_intro c) $$ H7
  iframe
  iexists W
  isplitr; · ipureintro; exact fun _ _ => Or.inl trivial
  iexact HO

end Cert.Kernel.RM

end
-- ==== Proof.RMK.Glue.lean ====
import proofs.«900986_g7700000000000987_dist_mlpseq_tp1d_bs_rep_b512_d256_h512_v7x_i32_bf16_1_alg».proof.Proof.RMK.Dats

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_univ_option {α : Type} [Fintype α] [DecidableEq α] (Φ : Option α → sProp 𝕄) :
    bigSep Finset.univ Φ = iprop(Φ none ∗ bigSep Finset.univ fun a => Φ (some a)) := by
  rw [bigSep_univ_at Φ none, show (Finset.univ : Finset (Option α)).erase none = Finset.univ.map Function.Embedding.some from by
    ext x; cases x <;> simp, bigSep_map]
  rfl

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_rows (Φ : Fin 4 × Fin 31 → sProp 𝕄) :
    bigSep Finset.univ Φ = iprop((bigSep Finset.univ fun h : Fin 31 => Φ (0, h)) ∗ (bigSep Finset.univ fun h : Fin 31 => Φ (1, h))
      ∗ (bigSep Finset.univ fun h : Fin 31 => Φ (2, h)) ∗ (bigSep Finset.univ fun h : Fin 31 => Φ (3, h))) := by
  rw [bigSep_univ_prod]; exact bigSep_univ_eq_bigSepL [0, 1, 2, 3] (by decide) (by decide) _

omit [FloatOps F] in
theorem filter_ge_zero : ((Finset.univ : Finset (Fin 31)).filter fun x => 0 ≤ x.val) = Finset.univ :=
  Finset.filter_true_of_mem fun x _ => Nat.zero_le _
omit [FloatOps F] in
theorem filter_lt_last : ((Finset.univ : Finset (Fin 31)).filter fun x => x.val < 31) = Finset.univ :=
  Finset.filter_true_of_mem fun x _ => x.isLt

theorem start_elim (c : Dev nD) :
    start m c ⊢ iprop(∃ K, records m K ∗ levAts L lv
      ∗ (atPos ER (barCell c) 0 ∅ 0 ∗ dutyTok ER (barCell (lft c)) 0 true ∗ dutyTok ER (barCell (rgt c)) 0 false ∗ cred (tallyAt (barCell c) () 2))
      ∗ TokW (F := F) c 0 ∗ TokO (F := F) c 0) := by
  unfold start ghost payToks launchCreds TokW TokO stepW stepO
  rw [filter_ge_zero, bigSep_univ_option, bigSep_rows]
  simp only [bigSep_sep']
  iintro ⟨⟨%K, HR, ⟨HaB, Ha0, Ha1, Ha2, Ha3⟩, HtL, HtR, Ht0, Ht1, Ht2, Ht3⟩, ⟨HcB, Hc1, Hc3⟩, Hlev⟩
  iexists K
  iframe
  isplitl [HaB]; · iexact HaB
  isplitl [Ha0 Ha1]
  · isplitl [Ha0]; · iexact Ha0
    iexact Ha1
  isplitl [Ha2]; · iexact Ha2
  iexact Ha3

omit [FloatOps F] in
theorem closed_join (c : Dev nD) :
    iprop(ClosedW (F := F) c 31 ∗ ClosedO (F := F) c 31) ⊢ (bigSep Finset.univ fun kh : Fin 4 × Fin 31 => semVal (dCell c kh.1 kh.2) 0 : sProp 𝕄) := by
  unfold ClosedW ClosedO
  rw [filter_lt_last, bigSep_rows]
  simp only [bigSep_sep']
  iintro ⟨⟨H0, H1⟩, H2, H3⟩
  iframe

end Cert.Kernel.RM

end
-- ==== Proof.RMK.Sched.lean ====
import proofs.«900986_g7700000000000987_dist_mlpseq_tp1d_bs_rep_b512_d256_h512_v7x_i32_bf16_1_alg».proof.Proof.RMK.Proto

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

theorem dsem_val : ∀ (k : Fin 4) (h : Fin 31), (dsem k h).val = 8 + 31 * k.val + h.val := by decide +kernel

theorem dsem_val1 (h : Fin 31) : (dsem 1 h).val = 39 + h.val := dsem_val 1 h
theorem dsem_val3 (h : Fin 31) : (dsem 3 h).val = 101 + h.val := dsem_val 3 h

theorem dk_dsem : ∀ (k : Fin 4) (h : Fin 31), dk (dsem k h) = some (k, h) := by decide +kernel

theorem dsem_inj {k k' : Fin 4} {h h' : Fin 31} (e : dsem k h = dsem k' h') : k = k' ∧ h = h' := by
  have := congrArg Fin.val e
  rw [dsem_val, dsem_val] at this
  have hh := h.isLt; have hh' := h'.isLt
  exact ⟨Fin.ext (by omega), Fin.ext (by omega)⟩

theorem dsem_ne_of_ne {k k' : Fin 4} (hk : k ≠ k') (h h' : Fin 31) : dsem k h ≠ dsem k' h' :=
  fun e => hk (dsem_inj e).1

theorem dma_ne_bar (q : DmaSem sig) : (SemLoc.dma q : SemLoc sig) ≠ .reg barS := fun h => by cases h

theorem csem_injective : Function.Injective (csem : CI → SemLoc sig) := by
  intro a b e
  rcases a with _ | ⟨k, h⟩ <;> rcases b with _ | ⟨k', h'⟩
  · rfl
  · exact absurd e.symm (dma_ne_bar _)
  · exact absurd e (dma_ne_bar _)
  · obtain ⟨rfl, rfl⟩ := dsem_inj (SemLoc.dma.inj e); rfl

theorem kcell_injective : Function.Injective (kcell : Dev nD × CI → GSem nD τ sig) := by
  rintro ⟨c, i⟩ ⟨c', i'⟩ e
  have e1 : c = c' := Fin.ext (congrArg (fun g : GSem nD τ sig => g.1.1.val) e)
  have e2 : csem i = csem i' := congrArg Prod.snd e
  rw [e1, csem_injective e2]

theorem not_unitless (g : GSem nD τ sig) : ¬ (ringRd (F := F) m).unitless g := fun h => h

@[sl_rounds] theorem duties_bar (c : Dev nD) :
    (ringRd (F := F) m).duties (barCell c) 0 = Finset.univ := by
  dsimp only [ringRd]
  exact (if_pos ⟨rfl, rfl⟩).trans (if_pos rfl)

@[sl_rounds] theorem duties_dma (c : Dev nD) (k : Fin 4) (h : Fin 31) :
    (ringRd (F := F) m).duties (dCell c k h) 0 = {false} := by
  dsimp only [ringRd]
  refine (if_pos ⟨rfl, rfl⟩).trans ?_
  show (if (dk (dsem k h)).isSome then ({false} : Finset Bool) else ∅) = {false}
  rw [dk_dsem]; rfl

theorem duties_later (g : GSem nD τ sig) :
    ∀ r, 1 ≤ r → (ringRd (F := F) m).duties g r = ∅ :=
  fun r hr => by dsimp only [ringRd]; rw [if_neg fun h => by omega]

@[sl_rounds] theorem amount_bar (c : Dev nD) (d : Bool) :
    (ringRd (F := F) m).amount (barCell c) 0 d = 1 := rfl

theorem amount_dma (c : Dev nD) (k : Fin 4) (h : Fin 31) (d : Bool) :
    (ringRd (F := F) m).amount (dCell c k h) 0 d = if k.val < 2 then Nw else No := by
  show (if (dsem k h).val < 70 then Nw else No) = _
  have := h.isLt
  by_cases hk : k.val < 2
  · rw [if_pos hk, if_pos (by rw [dsem_val]; omega)]
  · rw [if_neg hk, if_neg (by rw [dsem_val]; omega)]

theorem amount_w (c : Dev nD) (k : Fin 4) (h : Fin 31) (d : Bool) (hk : k.val < 2) :
    (ringRd (F := F) m).amount (dCell c k h) 0 d = Nw := by rw [amount_dma, if_pos hk]
theorem amount_o (c : Dev nD) (k : Fin 4) (h : Fin 31) (d : Bool) (hk : 2 ≤ k.val) :
    (ringRd (F := F) m).amount (dCell c k h) 0 d = No := by rw [amount_dma, if_neg (by omega)]

@[sl_rounds] theorem amount_wsend (c : Dev nD) (h : Fin 31) (d : Bool) :
    (ringRd (F := F) m).amount (dCell c 0 h) 0 d = Nw := amount_w m c 0 h d (by decide)
@[sl_rounds] theorem amount_wrecv (c : Dev nD) (h : Fin 31) (d : Bool) :
    (ringRd (F := F) m).amount (dCell c 1 h) 0 d = Nw := amount_w m c 1 h d (by decide)
@[sl_rounds] theorem amount_osend (c : Dev nD) (h : Fin 31) (d : Bool) :
    (ringRd (F := F) m).amount (dCell c 2 h) 0 d = No := amount_o m c 2 h d (by decide)
@[sl_rounds] theorem amount_orecv (c : Dev nD) (h : Fin 31) (d : Bool) :
    (ringRd (F := F) m).amount (dCell c 3 h) 0 d = No := amount_o m c 3 h d (by decide)

@[sl_rounds] theorem expect_bar (c : Dev nD) :
    (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]

theorem expect_dma (c : Dev nD) (k : Fin 4) (h : Fin 31) :
    (ringRd (F := F) m).expect (dCell c k h) 0 = if k.val < 2 then Nw else No := by
  unfold Schedule.expect Schedule.amountOf; rw [duties_dma, Finset.sum_singleton, amount_dma]

theorem expect_w (c : Dev nD) (k : Fin 4) (h : Fin 31) (hk : k.val < 2) :
    (ringRd (F := F) m).expect (dCell c k h) 0 = Nw := by rw [expect_dma, if_pos hk]
theorem expect_o (c : Dev nD) (k : Fin 4) (h : Fin 31) (hk : 2 ≤ k.val) :
    (ringRd (F := F) m).expect (dCell c k h) 0 = No := by rw [expect_dma, if_neg (by omega)]

@[sl_rounds] theorem expect_wsend (c : Dev nD) (h : Fin 31) :
    (ringRd (F := F) m).expect (dCell c 0 h) 0 = Nw := expect_w m c 0 h (by decide)
@[sl_rounds] theorem expect_wrecv (c : Dev nD) (h : Fin 31) :
    (ringRd (F := F) m).expect (dCell c 1 h) 0 = Nw := expect_w m c 1 h (by decide)
@[sl_rounds] theorem expect_osend (c : Dev nD) (h : Fin 31) :
    (ringRd (F := F) m).expect (dCell c 2 h) 0 = No := expect_o m c 2 h (by decide)
@[sl_rounds] theorem expect_orecv (c : Dev nD) (h : Fin 31) :
    (ringRd (F := F) m).expect (dCell c 3 h) 0 = No := expect_o m c 3 h (by decide)

@[sl_rounds] theorem payload_bar_true (c : Dev nD) :
    (ringRd (F := F) m).payload (barCell c) 0 true = barPay (F := F) c := by
  dsimp only [ringRd]; exact if_pos ⟨rfl, rfl⟩
@[sl_rounds] theorem payload_bar_false (c : Dev nD) :
    (ringRd (F := F) m).payload (barCell c) 0 false = iprop(emp) := by
  dsimp only [ringRd]; exact if_neg (fun h => Bool.false_ne_true h.2)

theorem payload_dma (c : Dev nD) (k : Fin 4) (h : Fin 31) (d : Bool) :
    (ringRd (F := F) m).payload (dCell c k h) 0 d = dmaPay m c (k, h) := by
  show (match dk (dsem k h) with | some kh => dmaPay m c kh | none => iprop(emp)) = _
  rw [dk_dsem]

@[sl_rounds] theorem payload_wsend (c : Dev nD) (h : Fin 31) (d : Bool) :
    (ringRd (F := F) m).payload (dCell c 0 h) 0 d = wallPt m c {srcAt c h.val} := payload_dma m c 0 h d
@[sl_rounds] theorem payload_wrecv (c : Dev nD) (h : Fin 31) (d : Bool) :
    (ringRd (F := F) m).payload (dCell c 1 h) 0 d = wallPt m c {srcAt c (h.val + 1)} := payload_dma m c 1 h d
@[sl_rounds] theorem payload_osend (c : Dev nD) (h : Fin 31) (d : Bool) :
    (ringRd (F := F) m).payload (dCell c 2 h) 0 d = outPt m c {srcAt c h.val} := payload_dma m c 2 h d
@[sl_rounds] theorem payload_orecv (c : Dev nD) (h : Fin 31) (d : Bool) :
    (ringRd (F := F) m).payload (dCell c 3 h) 0 d = outPt m c {srcAt c (h.val + 1)} := payload_dma m c 3 h d

theorem rest_bar (c : Dev nD) :
    bigSep ((ringRd (F := F) m).duties (barCell c) 0 \ ∅) (fun d => (ringRd (F := F) m).payload (barCell c) 0 d)
      = iprop(emp ∗ barPay (F := F) c) := by
  rw [Finset.sdiff_empty, duties_bar, bigSep_univ_eq_bigSepL [false, true] (by decide) (by decide), bigSepL_cons_cons, bigSepL_singleton,
    payload_bar_false, payload_bar_true]
  rfl

theorem rest_dma (c : Dev nD) (k : Fin 4) (h : Fin 31) :
    bigSep ((ringRd (F := F) m).duties (dCell c k h) 0 \ ∅) (fun d => (ringRd (F := F) m).payload (dCell c k h) 0 d)
      = dmaPay m c (k, h) := by
  rw [Finset.sdiff_empty, duties_dma, bigSep_singleton, payload_dma]

theorem rest_wsend (c : Dev nD) (h : Fin 31) :
    bigSep ((ringRd (F := F) m).duties (dCell c 0 h) 0 \ ∅) (fun d => (ringRd (F := F) m).payload (dCell c 0 h) 0 d)
      = wallPt m c {srcAt c h.val} := rest_dma m c 0 h
theorem rest_wrecv (c : Dev nD) (h : Fin 31) :
    bigSep ((ringRd (F := F) m).duties (dCell c 1 h) 0 \ ∅) (fun d => (ringRd (F := F) m).payload (dCell c 1 h) 0 d)
      = wallPt m c {srcAt c (h.val + 1)} := rest_dma m c 1 h
theorem rest_osend (c : Dev nD) (h : Fin 31) :
    bigSep ((ringRd (F := F) m).duties (dCell c 2 h) 0 \ ∅) (fun d => (ringRd (F := F) m).payload (dCell c 2 h) 0 d)
      = outPt m c {srcAt c h.val} := rest_dma m c 2 h
theorem rest_orecv (c : Dev nD) (h : Fin 31) :
    bigSep ((ringRd (F := F) m).duties (dCell c 3 h) 0 \ ∅) (fun d => (ringRd (F := F) m).payload (dCell c 3 h) 0 d)
      = outPt m c {srcAt c (h.val + 1)} := rest_dma m c 3 h

instance wallPt_storable (c : Dev nD) (S : Finset (Dev nD)) :
    BI.Storable (upEmb : UEmb _ 𝕄) (wallPt m c S) := by unfold wallPt; infer_instance
instance wallAny_storable (c : Dev nD) (S : Finset (Dev nD)) :
    BI.Storable (upEmb : UEmb _ 𝕄) (wallAny (F := F) c S) := by unfold wallAny; infer_instance
instance outPt_storable (c : Dev nD) (S : Finset (Dev nD)) :
    BI.Storable (upEmb : UEmb _ 𝕄) (outPt m c S) := by unfold outPt; infer_instance
instance outAny_storable (c : Dev nD) (S : Finset (Dev nD)) :
    BI.Storable (upEmb : UEmb _ 𝕄) (outAny (F := F) c S) := by unfold outAny; infer_instance
instance barPay_storable (c : Dev nD) : BI.Storable (upEmb : UEmb _ 𝕄) (barPay (F := F) c) := by
  unfold barPay; infer_instance
instance dmaPay_storable (c : Dev nD) (kh : Fin 4 × Fin 31) :
    BI.Storable (upEmb : UEmb _ 𝕄) (dmaPay m c kh) := by
  obtain ⟨k, h⟩ := kh
  fin_cases k <;> (unfold dmaPay; infer_instance)

instance ringRd_payload_storable (g : GSem nD τ sig) (r : ℕ) (d : Bool) :
    BI.Storable (upEmb : UEmb _ 𝕄) ((ringRd (F := F) m).payload g r d) := by
  rcases g with ⟨t, s | q⟩
  · show BI.Storable upEmb (if s = barS ∧ d = true then barPay (F := F) t.1 else iprop(emp))
    split <;> infer_instance
  · show BI.Storable upEmb (match dk q with | some kh => dmaPay m t.1 kh | none => iprop(emp))
    split <;> infer_instance

private theorem filter_from_succ (h : ℕ) (hh : h < 31) :
    ((Finset.univ : Finset (Fin 31)).filter (fun x => h ≤ x.val))
      = insert (⟨h, hh⟩ : Fin 31) ((Finset.univ : Finset (Fin 31)).filter (fun x => h + 1 ≤ x.val)) := by
  ext x
  simp only [Finset.mem_filter, Finset.mem_univ, true_and, Finset.mem_insert]
  constructor
  · intro hx
    by_cases e : x.val = h
    · exact Or.inl (Fin.ext e)
    · exact Or.inr (by omega)
  · rintro (rfl | hx)
    · exact le_rfl
    · omega

private theorem sum_from_succ {M : Type} [AddCommMonoid M] (f : Fin 31 → M) (h : ℕ) (hh : h < 31) :
    ∑ h' ∈ (Finset.univ : Finset (Fin 31)).filter (fun x => h ≤ x.val), f h'
      = (∑ h' ∈ (Finset.univ : Finset (Fin 31)).filter (fun x => h + 1 ≤ x.val), f h') + f ⟨h, hh⟩ := by
  have hn : (⟨h, hh⟩ : Fin 31) ∉ (Finset.univ : Finset (Fin 31)).filter (fun x => h + 1 ≤ x.val) :=
    fun hm => Nat.not_succ_le_self h (Finset.mem_filter.mp hm).2
  rw [filter_from_succ h hh, Finset.sum_insert hn, add_comm]

private theorem sum_from_31 {M : Type} [AddCommMonoid M] (f : Fin 31 → M) :
    ∑ h' ∈ (Finset.univ : Finset (Fin 31)).filter (fun x => 31 ≤ x.val), f h' = 0 := by
  rw [Finset.filter_false_of_mem (fun x _ => by have := x.isLt; omega), Finset.sum_empty]

theorem OO_succ_nat (c : Dev nD) (h : ℕ) (hh : h < 31) : OO c h = OO c (h + 1) + tallyAt (dCell (rgt c) 3 ⟨h, hh⟩) () No := by
  unfold OO; exact sum_from_succ _ h hh

theorem OW_succ_nat (c : Dev nD) (h : ℕ) (hh : h < 31) : OW c h = OW c (h + 1) + tallyAt (dCell (rgt c) 1 ⟨h, hh⟩) () Nw := by
  unfold OW; rw [sum_from_succ _ h hh, add_assoc]

theorem OO_succ (c : Dev nD) (h : Fin 31) : OO c h.val = OO c (h.val + 1) + tallyAt (dCell (rgt c) 3 h) () No :=
  OO_succ_nat c h.val h.isLt
theorem OW_succ (c : Dev nD) (h : Fin 31) : OW c h.val = OW c (h.val + 1) + tallyAt (dCell (rgt c) 1 h) () Nw :=
  OW_succ_nat c h.val h.isLt

theorem OO_31 (c : Dev nD) : OO c 31 = 0 := by unfold OO; exact sum_from_31 _
theorem O₀_eq (c : Dev nD) : O₀ c = O₁ c + tallyAt (barCell (lft c)) () 1 := rfl
theorem O₁_eq (c : Dev nD) : O₁ c = OW c 0 + tallyAt (barCell (rgt c)) () 1 := rfl

theorem OO_pos {c : Dev nD} {h : ℕ} {g : GSem nD τ sig} {u : Unit} (hp : 0 < OO c h g u) :
    ∃ h' : Fin 31, h ≤ h'.val ∧ g = dCell (rgt c) 3 h' := by
  unfold OO at hp
  obtain ⟨h', hm, hp'⟩ := Pipeline.sum_pos_exists hp
  exact ⟨h', (Finset.mem_filter.mp hm).2, (Pipeline.tallyAt_pos hp').1⟩

theorem OW_pos {c : Dev nD} {h : ℕ} {g : GSem nD τ sig} {u : Unit} (hp : 0 < OW c h g u) :
    (∃ h' : Fin 31, g = dCell (rgt c) 3 h') ∨ ∃ h' : Fin 31, h ≤ h'.val ∧ g = dCell (rgt c) 1 h' := by
  unfold OW at hp
  rcases Pipeline.add_pos_cases hp with hp | hp
  · obtain ⟨h', -, e⟩ := OO_pos hp; exact Or.inl ⟨h', e⟩
  · obtain ⟨h', hm, hp'⟩ := Pipeline.sum_pos_exists hp
    exact Or.inr ⟨h', (Finset.mem_filter.mp hm).2, (Pipeline.tallyAt_pos hp').1⟩

def IsOwed (c : Dev nD) (g : GSem nD τ sig) : Prop :=
  g = barCell (rgt c) ∨ g = barCell (lft c) ∨ (∃ h, g = dCell (rgt c) 1 h) ∨ (∃ h, g = dCell (rgt c) 3 h)

theorem OO_owed (c : Dev nD) (h : ℕ) (g : GSem nD τ sig) (u : Unit) (hp : 0 < OO c h g u) : IsOwed c g := by
  obtain ⟨h', -, e⟩ := OO_pos hp; exact Or.inr (Or.inr (Or.inr ⟨h', e⟩))

theorem OW_owed (c : Dev nD) (h : ℕ) (g : GSem nD τ sig) (u : Unit) (hp : 0 < OW c h g u) : IsOwed c g := by
  rcases OW_pos hp with ⟨h', e⟩ | ⟨h', -, e⟩
  · exact Or.inr (Or.inr (Or.inr ⟨h', e⟩))
  · exact Or.inr (Or.inr (Or.inl ⟨h', e⟩))

theorem O₁_owed (c : Dev nD) (g : GSem nD τ sig) (u : Unit) (hp : 0 < O₁ c g u) : IsOwed c g := by
  unfold O₁ at hp
  rcases Pipeline.add_pos_cases hp with hp | hp
  · exact OW_owed c 0 g u hp
  · exact Or.inl (Pipeline.tallyAt_pos hp).1

theorem O₀_owed (c : Dev nD) (g : GSem nD τ sig) (u : Unit) (hp : 0 < O₀ c g u) : IsOwed c g := by
  unfold O₀ at hp
  rcases Pipeline.add_pos_cases hp with hp | hp
  · exact O₁_owed c g u hp
  · exact Or.inr (Or.inl (Pipeline.tallyAt_pos hp).1)

theorem zero_owed (c : Dev nD) (g : GSem nD τ sig) (u : Unit) (hp : 0 < (0 : CellTallies nD τ sig Unit) g u) : IsOwed c g :=
  absurd hp (Nat.lt_irrefl 0)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl

theorem lv_dCell (c : Dev nD) (k : Fin 4) (h : Fin 31) (u : Unit) :
    lv (dCell c k h) u = if k.val = 1 then 2 + h.val else if k.val = 3 then 33 + h.val else 0 := by
  show (if 39 ≤ (dsem k h).val ∧ (dsem k h).val < 70 then (dsem k h).val - 37
    else if 101 ≤ (dsem k h).val then (dsem k h).val - 68 else 0) = _
  have e := dsem_val k h
  have := h.isLt
  have := k.isLt
  split_ifs <;> omega

theorem lv_wrecv (c : Dev nD) (h : Fin 31) (u : Unit) : lv (dCell c 1 h) u = 2 + h.val := by rw [lv_dCell]; rfl
theorem lv_orecv (c : Dev nD) (h : Fin 31) (u : Unit) : lv (dCell c 3 h) u = 33 + h.val := by rw [lv_dCell]; rfl

theorem lv_low (c : Dev nD) (q : DmaSem sig) (h1 : ∀ h, q ≠ dsem 1 h) (h3 : ∀ h, q ≠ dsem 3 h) (u : Unit) :
    lv ((c : Thread nD τ), .dma q) u = 0 := by
  show (if 39 ≤ q.val ∧ q.val < 70 then q.val - 37 else if 101 ≤ q.val then q.val - 68 else 0) = 0
  have hq : q.val < 132 := q.isLt
  rw [if_neg (fun hb => h1 ⟨q.val - 39, by omega⟩ (Fin.ext (by rw [dsem_val1]; show q.val = 39 + (q.val - 39); omega))),
    if_neg (fun hb => h3 ⟨q.val - 101, by omega⟩ (Fin.ext (by rw [dsem_val3]; show q.val = 101 + (q.val - 101); omega)))]

theorem IsOwed.L_mem {c : Dev nD} {g : GSem nD τ sig} (h : IsOwed c g) : () ∈ L g := by
  rcases h with rfl | rfl | ⟨h', rfl⟩ | ⟨h', rfl⟩ <;> (rw [L_tc]; exact Finset.mem_singleton_self _)

theorem IsOwed.lv_pos {c : Dev nD} {g : GSem nD τ sig} (h : IsOwed c g) (u : Unit) : 0 < lv g u := by
  rcases h with rfl | rfl | ⟨h', rfl⟩ | ⟨h', rfl⟩
  · rw [lv_bar]; decide
  · rw [lv_bar]; decide
  · rw [lv_wrecv]; omega
  · rw [lv_orecv]; omega

omit [FloatOps F] in

theorem mayWait_low (c : Dev nD) (q : DmaSem sig) (h1 : ∀ h, q ≠ dsem 1 h) (h3 : ∀ h, q ≠ dsem 3 h)
    (O : CellTallies nD τ sig Unit) (hO : ∀ g u, 0 < O g u → IsOwed c g) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => (hO g u hg).L_mem)
    (fun p hp => by rw [Finset.mem_singleton.mp hp]; exact (lv_low c q h1 h3 ()).le)
    (fun g u hg => (hO g u hg).lv_pos u)

omit [FloatOps F] in

theorem mayWait_wsend (c : Dev nD) (h : Fin 31) (O : CellTallies nD τ sig Unit) (hO : ∀ g u, 0 < O g u → IsOwed c g) :
    (levAts L lv : sProp 𝕄) ⊢ MayWait (c : Thread nD τ) (.dma (dsem 0 h)) () O :=
  mayWait_low c _ (fun h' => dsem_ne_of_ne (by decide) h h') (fun h' => dsem_ne_of_ne (by decide) h h') O hO

omit [FloatOps F] in

theorem mayWait_osend (c : Dev nD) (h : Fin 31) (O : CellTallies nD τ sig Unit) (hO : ∀ g u, 0 < O g u → IsOwed c g) :
    (levAts L lv : sProp 𝕄) ⊢ MayWait (c : Thread nD τ) (.dma (dsem 2 h)) () O :=
  mayWait_low c _ (fun h' => dsem_ne_of_ne (by decide) h h') (fun h' => dsem_ne_of_ne (by decide) h h') O hO

omit [FloatOps F] in

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O :=
  mayWait_low c q (fun h e => by have := congrArg Fin.val e; rw [dsem_val1] at this; omega)
    (fun h e => by have := congrArg Fin.val e; rw [dsem_val3] at this; omega) O
    (by rcases hO with rfl | rfl
        · exact O₀_owed c
        · exact zero_owed c)

omit [FloatOps F] in

theorem mayWait_bar (c : Dev nD) :
    (levAts L lv : sProp 𝕄) ⊢ MayWait (c : Thread nD τ) (.reg barS) () (OW c 0) :=
  MayOwe.of_cut (L := L) (lev := lv) 1
    (fun p hp => by rw [Finset.mem_singleton.mp hp, L_tc]; exact Finset.mem_singleton_self _)
    (fun g u hg => (OW_owed c 0 g u hg).L_mem)
    (fun p hp => by rw [Finset.mem_singleton.mp hp]; exact (lv_bar c ()).le)
    (fun g u hg => by
      rcases OW_pos hg with ⟨h', rfl⟩ | ⟨h', -, rfl⟩
      · rw [lv_orecv]; omega
      · rw [lv_wrecv]; omega)

omit [FloatOps F] in

theorem mayWait_wrecv (c : Dev nD) (h : Fin 31) :
    (levAts L lv : sProp 𝕄) ⊢ MayWait (c : Thread nD τ) (.dma (dsem 1 h)) () (OW c (h.val + 1)) :=
  MayOwe.of_cut (L := L) (lev := lv) (2 + h.val)
    (fun p hp => by rw [Finset.mem_singleton.mp hp, L_tc]; exact Finset.mem_singleton_self _)
    (fun g u hg => (OW_owed c _ g u hg).L_mem)
    (fun p hp => by rw [Finset.mem_singleton.mp hp]; exact (lv_wrecv c h ()).le)
    (fun g u hg => by
      have := h.isLt
      rcases OW_pos hg with ⟨h', rfl⟩ | ⟨h', hle, rfl⟩
      · rw [lv_orecv]; omega
      · rw [lv_wrecv]; omega)

omit [FloatOps F] in

theorem mayWait_orecv (c : Dev nD) (h : Fin 31) :
    (levAts L lv : sProp 𝕄) ⊢ MayWait (c : Thread nD τ) (.dma (dsem 3 h)) () (OO c (h.val + 1)) :=
  MayOwe.of_cut (L := L) (lev := lv) (33 + h.val)
    (fun p hp => by rw [Finset.mem_singleton.mp hp, L_tc]; exact Finset.mem_singleton_self _)
    (fun g u hg => (OO_owed c _ g u hg).L_mem)
    (fun p hp => by rw [Finset.mem_singleton.mp hp]; exact (lv_orecv c h ()).le)
    (fun g u hg => by
      obtain ⟨h', hle, rfl⟩ := OO_pos hg
      rw [lv_orecv]; omega)

end Cert.Kernel.RM

end
-- ==== Proof.RMK.Peel.lean ====
import proofs.«900986_g7700000000000987_dist_mlpseq_tp1d_bs_rep_b512_d256_h512_v7x_i32_bf16_1_alg».proof.Proof.RMK.Proto

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem stepsFrom_succ (h : ℕ) (hh : h < 31) :
    (Finset.univ : Finset (Fin 31)).filter (fun x => h ≤ x.val)
      = insert (⟨h, hh⟩ : Fin 31) ((Finset.univ : Finset (Fin 31)).filter (fun x => h + 1 ≤ x.val)) := by
  ext x
  simp only [Finset.mem_filter, Finset.mem_univ, true_and, Finset.mem_insert, Fin.ext_iff]
  omega

theorem notMem_stepsFrom_succ (h : ℕ) (hh : h < 31) :
    (⟨h, hh⟩ : Fin 31) ∉ (Finset.univ : Finset (Fin 31)).filter (fun x => h + 1 ≤ x.val) := by
  simp only [Finset.mem_filter, Finset.mem_univ, true_and]
  omega

theorem stepsBefore_succ (h : ℕ) (hh : h < 31) :
    (Finset.univ : Finset (Fin 31)).filter (fun x => x.val < h + 1)
      = insert (⟨h, hh⟩ : Fin 31) ((Finset.univ : Finset (Fin 31)).filter (fun x => x.val < h)) := by
  ext x
  simp only [Finset.mem_filter, Finset.mem_univ, true_and, Finset.mem_insert, Fin.ext_iff]
  omega

theorem notMem_stepsBefore (h : ℕ) (hh : h < 31) :
    (⟨h, hh⟩ : Fin 31) ∉ (Finset.univ : Finset (Fin 31)).filter (fun x => x.val < h) := by
  simp only [Finset.mem_filter, Finset.mem_univ, true_and]
  omega

theorem stepsBefore_zero : (Finset.univ : Finset (Fin 31)).filter (fun x => x.val < 0) = ∅ := by
  ext x
  simp only [Finset.mem_filter, Finset.mem_univ, true_and, Finset.notMem_empty, iff_false]
  omega

theorem TokW_succ {F : FTy → Type} [FloatOps F] (c : Dev nD) (h : ℕ) (hh : h < 31) :
    (TokW (F := F) c h : sProp (MT nD τ sig Unit (Elt F) ℕ UU ℕ)) = iprop(stepW (F := F) c ⟨h, hh⟩ ∗ TokW (F := F) c (h + 1)) := by
  unfold TokW
  rw [stepsFrom_succ h hh, bigSep_insert (notMem_stepsFrom_succ h hh)]
  rfl

theorem TokO_succ {F : FTy → Type} [FloatOps F] (c : Dev nD) (h : ℕ) (hh : h < 31) :
    (TokO (F := F) c h : sProp (MT nD τ sig Unit (Elt F) ℕ UU ℕ)) = iprop(stepO (F := F) c ⟨h, hh⟩ ∗ TokO (F := F) c (h + 1)) := by
  unfold TokO
  rw [stepsFrom_succ h hh, bigSep_insert (notMem_stepsFrom_succ h hh)]
  rfl

theorem ClosedW_zero {F : FTy → Type} [FloatOps F] (c : Dev nD) : (ClosedW (F := F) c 0 : sProp (MT nD τ sig Unit (Elt F) ℕ UU ℕ)) = iprop(emp) := by
  unfold ClosedW
  rw [stepsBefore_zero, bigSep_empty]
  rfl

theorem ClosedO_zero {F : FTy → Type} [FloatOps F] (c : Dev nD) : (ClosedO (F := F) c 0 : sProp (MT nD τ sig Unit (Elt F) ℕ UU ℕ)) = iprop(emp) := by
  unfold ClosedO
  rw [stepsBefore_zero, bigSep_empty]
  rfl

theorem ClosedW_succ {F : FTy → Type} [FloatOps F] (c : Dev nD) (h : ℕ) (hh : h < 31) :
    (ClosedW (F := F) c (h + 1) : sProp (MT nD τ sig Unit (Elt F) ℕ UU ℕ))
      = iprop((semVal (dCell c 0 ⟨h, hh⟩) 0 ∗ semVal (dCell c 1 ⟨h, hh⟩) 0) ∗ ClosedW (F := F) c h) := by
  unfold ClosedW
  rw [stepsBefore_succ h hh, bigSep_insert (notMem_stepsBefore h hh)]
  rfl

theorem ClosedO_succ {F : FTy → Type} [FloatOps F] (c : Dev nD) (h : ℕ) (hh : h < 31) :
    (ClosedO (F := F) c (h + 1) : sProp (MT nD τ sig Unit (Elt F) ℕ UU ℕ))
      = iprop((semVal (dCell c 2 ⟨h, hh⟩) 0 ∗ semVal (dCell c 3 ⟨h, hh⟩) 0) ∗ ClosedO (F := F) c h) := by
  unfold ClosedO
  rw [stepsBefore_succ h hh, bigSep_insert (notMem_stepsBefore h hh)]
  rfl

instance records_persistent {F : FTy → Type} [FloatOps F] (m : (ℓ : Loc nD τ sig) → Buf (Elt F) ℓ) (K : Dev nD × CI → ℕ) :
    Persistent (records m K : sProp (MT nD τ sig Unit (Elt F) ℕ UU ℕ)) := by
  unfold records
  infer_instance

theorem records_cellInv {F : FTy → Type} [FloatOps F] (m : (ℓ : Loc nD τ sig) → Buf (Elt F) ℓ) (K : Dev nD × CI → ℕ) (ck : Dev nD × CI) :
    (records m K : sProp (MT nD τ sig Unit (Elt F) ℕ UU ℕ)) ⊢ cellInv ER (ringRd m) (K ck) (kcell ck) := by
  unfold records
  exact BIBase.Entails.trans (BIBase.Entails.trans Laws.sep_and and_elimL) (bigSep_elim (Finset.mem_univ ck))

theorem records_reached {F : FTy → Type} [FloatOps F] (m : (ℓ : Loc nD τ sig) → Buf (Elt F) ℓ) (K : Dev nD × CI → ℕ) (ck : Dev nD × CI) :
    (records m K : sProp (MT nD τ sig Unit (Elt F) ℕ UU ℕ)) ⊢ reached ER (kcell ck) 0 := by
  unfold records
  exact BIBase.Entails.trans (BIBase.Entails.trans Laws.sep_and and_elimR) (bigSep_elim (Finset.mem_univ ck))

end Cert.Kernel.RM
-- ==== Proof.RMK.Launch.lean ====
import proofs.«900986_g7700000000000987_dist_mlpseq_tp1d_bs_rep_b512_d256_h512_v7x_i32_bf16_1_alg».proof.Proof.RMK.Glue
import proofs.«900986_g7700000000000987_dist_mlpseq_tp1d_bs_rep_b512_d256_h512_v7x_i32_bf16_1_alg».proof.Proof.RMK.Sched
import proofs.«900986_g7700000000000987_dist_mlpseq_tp1d_bs_rep_b512_d256_h512_v7x_i32_bf16_1_alg».proof.Proof.RMK.Peel

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 4 × Fin 31 → SemLoc sig := fun kh => .dma (dsem kh.1 kh.2)

omit [FloatOps F] in
theorem ownSemFacts : Pipeline.OwnSemFacts cfg0.spec osem := by decide +kernel

def ringCells : Finset (GSem nD τ sig) := Finset.univ.map ⟨kcell, kcell_injective⟩

abbrev TI : Type := Bool ⊕ (Fin 4 × Fin 31)
abbrev tokOf (cj : Dev nD × TI) : GSem nD τ sig × ℕ × Bool := match cj.2 with
  | .inl b => (barCell cj.1, 0, b)
  | .inr kh => (dCell cj.1 kh.1 kh.2, 0, false)

omit [FloatOps F] in
theorem tokOf_injective : Function.Injective (tokOf : Dev nD × TI → GSem nD τ sig × ℕ × Bool) := by
  rintro ⟨c, j⟩ ⟨c', j'⟩ h
  have h1 : c = c' := by
    have := congrArg (fun x : GSem nD τ sig × ℕ × Bool => x.1.1.1) h
    rcases j with b | kh <;> rcases j' with b' | kh' <;> exact this
  subst h1
  have h2 : j = j' := by
    rcases j with b | kh <;> rcases j' with b' | kh'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (ownSemFacts.inj (congrArg (fun x : GSem nD τ sig × ℕ × Bool => x.1.2) h))
  subst h2; rfl

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true)
    ∗ bigSep Finset.univ fun kh : Fin 4 × Fin 31 => dutyTok ER (dCell c kh.1 kh.2) 0 false)

def G (c : Dev nD) : sProp 𝕄 :=
  iprop((bigSep Finset.univ fun i : CI => roundState ER (ringRd m) (kcell (c, i)) 0)
    ∗ (bigSep Finset.univ fun i : CI => iprop(atPos ER (kcell (c, i)) 0 ∅ 0 ∗ reached ER (kcell (c, i)) 0)) ∗ toks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in
theorem ownSems0_eq (c : Dev nD) : (Pipeline.ownSems0 osem c : sProp 𝕄)
    = bigSep Finset.univ fun kh : Fin 4 × Fin 31 => semVal (dCell c kh.1 kh.2) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    (iprop(Pipeline.ownSems0 osem c ∗ unscopedSems0 c) : sProp 𝕄)
      ⊢ (bigSep Finset.univ fun i : CI => semVal (kcell (c, i)) 0 : sProp 𝕄) := by
  rw [ownSems0_eq, unscopedSems0_eq, bigSep_univ_option]
  exact sep_comm.1

theorem core_alloc (c : Dev nD) :
    (iprop(Pipeline.ownSems0 osem c ∗ unscopedSems0 c ∗ G m c) : sProp 𝕄)
      ⊢ |={Set.univ}=> iprop((bigSep Finset.univ fun i : CI => iprop(∃ κ : ℕ, cellInv ER (ringRd m) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · iframe
  imod (show iprop((bigSep Finset.univ fun i : CI => semVal (kcell (c, i)) 0) ∗ bigSep Finset.univ fun i : CI => roundState ER (ringRd m) (kcell (c, i)) 0)
      ⊢ (|={Set.univ}=> bigSep Finset.univ fun i : CI => iprop(∃ κ : ℕ, cellInv ER (ringRd m) κ (kcell (c, i))) : sProp 𝕄) from by
        rw [← bigSep_sep']
        exact (bigSep_mono fun i _ => (Rounds.body_intro ER (ringRd m) (kcell (c, i))).trans inv_alloc).trans (bigSep_fupd _ _)) $$ [Hv Hst] with Hinv
  · iframe
  imodintro
  iframe

def linear (c : Dev nD) : sProp 𝕄 :=
  iprop((bigSep Finset.univ fun i : CI => atPos ER (kcell (c, i)) 0 ∅ 0) ∗ payToks (F := F) c)

theorem ghost_intro (K : Dev nD × CI → ℕ) (c : Dev nD) : iprop(records m K ∗ linear (F := F) c) ⊢ G' m c := by
  unfold linear G' ghost
  iintro ⟨#HR, Hat, Htok⟩
  iexists K
  iframe # ∗

abbrev rowToks (k : Fin 4) (c : Dev nD) : sProp 𝕄 := bigSep Finset.univ fun h : Fin 31 => dutyTok ER (dCell c k h) 0 false

omit [FloatOps F] in
theorem toks_eq (c : Dev nD) : (toks c : sProp 𝕄)
    = iprop((dutyTok ER (barCell c) 0 false ∗ dutyTok ER (barCell c) 0 true)
        ∗ rowToks 0 c ∗ rowToks 1 c ∗ rowToks 2 c ∗ rowToks 3 c) := by
  unfold toks; rw [bigSep_rows]

omit [FloatOps F] in
theorem toks_around : (bigSep Finset.univ fun c : Dev nD => (toks c : sProp 𝕄)) ⊢ bigSep Finset.univ fun c : Dev nD => payToks c := by
  simp only [toks_eq]
  unfold payToks
  simp only [bigSep_sep']
  rw [bigSep_univ_equiv ringEquiv (fun c : Dev nD => (dutyTok ER (barCell c) 0 false : sProp 𝕄)),
    bigSep_univ_equiv ringEquiv.symm (fun c : Dev nD => (dutyTok ER (barCell c) 0 true : sProp 𝕄)),
    bigSep_univ_equiv ringEquiv (fun c : Dev nD => (rowToks 1 c : sProp 𝕄)),
    bigSep_univ_equiv ringEquiv (fun c : Dev nD => (rowToks 3 c : sProp 𝕄))]
  iintro ⟨⟨Hf, Ht⟩, H0, H1, H2, H3⟩
  iframe
  isplitl [Ht]; · iexact Ht
  isplitl [Hf]; · iexact Hf
  isplitl [H1]; · iexact H1
  iexact H3

theorem regroup :
    (bigSep Finset.univ fun c : Dev nD => iprop((bigSep Finset.univ fun i : CI => iprop(∃ κ : ℕ, cellInv ER (ringRd m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CI => iprop(∃ κ : ℕ, cellInv ER (ringRd m) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun i : CI => (atPos ER (kcell (c, i)) 0 ∅ 0 : sProp 𝕄)) payToks).symm)
    iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem stage_sem_lt : ∀ (w : Fin 8) (s : Fin (cfg0.win w).nbuf), ((cfg0.win w).sem s).val < 8 := by decide +kernel

theorem waits (c : Dev nD) : (levAts L lv : sProp 𝕄) ⊢ Pipeline.cellsWaits cfgs (dats m) () 0 c :=
  Pipeline.cellsWaits_intro cfgs (dats m) () 0 c fun w s t =>
    mayWait_stage c _ (stage_sem_lt w s) _ (by
      rcases t with ⟨_ | _, ht⟩
      · exact Or.inl rfl
      · exact Or.inr rfl)

omit [FloatOps F] in
theorem cred_two (g : GSem nD τ sig) : iprop(cred (tallyAt g () 1) ∗ cred (tallyAt g () 1)) ⊢ (cred (tallyAt g () 2) : sProp 𝕄) := by
  have e : (tallyAt g () 2 : CellTallies nD τ sig Unit) = tallyAt g () 1 + tallyAt g () 1 := (tallyAt_add g () 1 1).symm
  rw [e]; exact (cred_add _ _).2

omit [FloatOps F] in
theorem cred_row (k : Fin 4) (n : ℕ) (c : Dev nD) :
    (bigSep Finset.univ fun h' : Fin 31 => (Pipeline.launchCred (fun d => tallyAt (dCell (rgt d) k h') () n) c : sProp 𝕄))
      ⊢ bigSep Finset.univ fun h' : Fin 31 => cred (tallyAt (dCell c k h') () n) :=
  bigSep_mono fun h' _ => Pipeline.launchCred_tallyAt (.dma (dsem k h')) rgt lft rgt_lft lft_rgt () n c

omit [FloatOps F] in
theorem creds_intro (c : Dev nD) : (Pipeline.launchCred O₀ c : sProp 𝕄) ⊢ launchCreds c := by
  show (Pipeline.launchCred (fun d => ((_ + _) + _) + _) c : sProp 𝕄) ⊢ _
  unfold OO
  rw [Pipeline.launchCred_add, Pipeline.launchCred_add, Pipeline.launchCred_add, Pipeline.launchCred_sum, Pipeline.launchCred_sum, filter_ge_zero]
  unfold launchCreds
  iintro ⟨⟨⟨H3, H1⟩, HR⟩, HL⟩
  isplitl [HR HL]
  · iapply (cred_two (F := F) (barCell c))
    isplitl [HR]
    · iapply (Pipeline.launchCred_tallyAt (.reg barS) rgt lft rgt_lft lft_rgt () 1 c); iexact HR
    · iapply (Pipeline.launchCred_tallyAt (.reg barS) lft rgt lft_rgt rgt_lft () 1 c); iexact HL
  isplitl [H1]
  · iapply (cred_row (F := F) 1 Nw c); iexact H1
  · iapply (cred_row (F := F) 3 No c); iexact H3

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  iframe
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, Hz⟩
  iframe
  iexists _; iexact Hr

theorem share_eq (c : Dev nD) (w : Fin cfg0.W) : (dats m 0 c).share w = fullShare := by unfold Dat.share; split <;> rfl

theorem body_obligation_of
    (h : ∀ c : Dev nD, bodyPre' m c ⊢ wp frame (wpE (defs₀ (F := F)) 𝒱₀ c none) Set.univ (bodyProg (F := F)) (fun _ => bodyPost m c)) :
    ∀ c : Dev nD, BodyObligation (dats (F := F) m 0 c) (defs₀ (F := F)) 𝒱₀ () Set.univ := fun c t => by
  rw [fin_N0 t]
  exact h c

theorem final_out (c : Dev nD) : (dats m 0 c).arrAt (7 : Fin 8) cfg0.N = outFinal m := by
  have h1 : ((cfg0.win (7 : Fin 8)).blk t0_0).view.read (Elt F) ((dats m 0 c).arrAt (7 : Fin 8) cfg0.N) = (dats m 0 c).flushed (7 : Fin 8) t0_0 := by
    rw [show cfg0.N = (t0_0 : Fin cfg0.N).val + 1 from rfl, (dats m 0 c).arrAt_succ (7 : Fin 8) t0_0, if_pos (flush0_7 t0_0)]
    exact View.read_write_univ _ _
  rw [Memref.read_access_unit_zero (Elt F) main_v1 hz_out7 (fun a => by fin_cases a <;> decide)] at h1
  rw [h1]
  rfl

theorem run_main (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 7).trans (final_out m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _),
      ((h c).1 6).trans ((dats m 0 c).arrAt_in 6 rfl _)⟩)

end Cert.Kernel.RM

end
-- ==== Proof.RMK.Regions.lean ====
import proofs.«900986_g7700000000000987_dist_mlpseq_tp1d_bs_rep_b512_d256_h512_v7x_i32_bf16_1_alg».proof.Proof.RMK.Proto
import Idealize.ShloMosaic.Rules.PointsTo

set_option synthInstance.maxSize 4096

noncomputable section

namespace Cert.Kernel.RM

open Cert.Kernel Cert.Kernel.Gen
open Idealize.ShloMosaic
open Idealize.ShloMosaic.TcCoe
open Idealize.SL
open Idealize.SL.RA Idealize.SL.Sem Idealize.SL.ProofMode
open Idealize.SL.BI (sProp)
open scoped Idealize.SL.BI
open Idealize.SL.BI.BIBase Idealize.SL.BI.Laws

theorem slotM_of_off (j : Dev nD) (off : Fin 4 → Nat) (e : off = ![j.val, 0, 0, 0])
    (inb : ∀ a, off a + S1x6x512x256.size a ≤ S32x6x512x256.size a)
    (sq : S1x6x512x256.Squeezes S6x512x256) :
    (wallM.slice (Rect.unit (s := S32x6x512x256) off S1x6x512x256.size inb) (fun _ => rfl)).squeeze S6x512x256 sq
      = slotM j := by
  subst e; rfl

theorem blkM_of_off (j : Dev nD) (off : Fin 2 → Nat) (e : off = ![512 * j.val, 0])
    (inb : ∀ a, off a + S512x256.size a ≤ S16384x256.size a) :
    outM.slice (Rect.unit (s := S16384x256) off S512x256.size inb) (fun _ => rfl) = blkM j := by
  subst e; rfl

@[sl_canon] theorem slotM_step (c : Dev nD) (h : Fin 31)
    (inb : ∀ a, (Cert.Kernel.k0_off7 c (BitVec.ofNat 32 h.val)) a + S1x6x512x256.size a ≤ S32x6x512x256.size a)
    (sq : S1x6x512x256.Squeezes S6x512x256) :
    (wallM.slice (Rect.unit (s := S32x6x512x256) (Cert.Kernel.k0_off7 c (BitVec.ofNat 32 h.val)) S1x6x512x256.size inb)
        (fun _ => rfl)).squeeze S6x512x256 sq = slotM (srcAt c h.val) :=
  slotM_of_off _ _ (off7_eq c h) inb sq

theorem slotM_step_nat (c : Dev nD) (h : ℕ) (hh : h < 31)
    (inb : ∀ a, (Cert.Kernel.k0_off7 c (BitVec.ofNat 32 h)) a + S1x6x512x256.size a ≤ S32x6x512x256.size a)
    (sq : S1x6x512x256.Squeezes S6x512x256) :
    (wallM.slice (Rect.unit (s := S32x6x512x256) (Cert.Kernel.k0_off7 c (BitVec.ofNat 32 h)) S1x6x512x256.size inb)
        (fun _ => rfl)).squeeze S6x512x256 sq = slotM (srcAt c h) :=
  slotM_of_off _ _ (off7_eq_nat c h hh) inb sq

@[sl_canon] theorem blkM_step (c : Dev nD) (h : Fin 31)
    (inb : ∀ a, (Cert.Kernel.k0_off15 c (BitVec.ofNat 32 h.val)) a + S512x256.size a ≤ S16384x256.size a) :
    outM.slice (Rect.unit (s := S16384x256) (Cert.Kernel.k0_off15 c (BitVec.ofNat 32 h.val)) S512x256.size inb)
        (fun _ => rfl) = blkM (srcAt c h.val) :=
  blkM_of_off _ _ (off15_eq c h) inb

theorem blkM_step_nat (c : Dev nD) (h : ℕ) (hh : h < 31)
    (inb : ∀ a, (Cert.Kernel.k0_off15 c (BitVec.ofNat 32 h)) a + S512x256.size a ≤ S16384x256.size a) :
    outM.slice (Rect.unit (s := S16384x256) (Cert.Kernel.k0_off15 c (BitVec.ofNat 32 h)) S512x256.size inb)
        (fun _ => rfl) = blkM (srcAt c h) :=
  blkM_of_off _ _ (off15_eq_nat c h hh) inb

@[sl_canon] theorem blkM_own (c : Dev nD)
    (inb : ∀ a, (Cert.Kernel.k0_off14 c) a + S512x256.size a ≤ S16384x256.size a) :
    outM.slice (Rect.unit (s := S16384x256) (Cert.Kernel.k0_off14 c) S512x256.size inb) (fun _ => rfl) = blkM c :=
  blkM_of_off _ _ (Gen.k0_off14_eq c) inb

theorem wallSet_eq (j : Dev nD) :
    wallSet j = (Rect.unit (s := S32x6x512x256) ![j.val, 0, 0, 0] S1x6x512x256.size (slot_inb j)).set := by
  unfold wallSet slotM
  exact (View.set_reshape _ _).trans (View.set_slice_whole (sig := sig) (κ := .tc) cc0_scratch0
    (Rect.unit (s := S32x6x512x256) ![j.val, 0, 0, 0] S1x6x512x256.size (slot_inb j)))

theorem mem_wallSet {j : Dev nD} {i : S32x6x512x256.Idx} : i ∈ wallSet j ↔ ((i 0 : Fin 32) : ℕ) = j.val := by
  rw [wallSet_eq, Rect.mem_set_unit]
  constructor
  · intro h
    have h0 := h 0
    change j.val ≤ ((i 0 : Fin 32) : ℕ) ∧ ((i 0 : Fin 32) : ℕ) < j.val + 1 at h0
    omega
  · intro h a
    match a with
    | ⟨0, _⟩ =>
      change j.val ≤ ((i 0 : Fin 32) : ℕ) ∧ ((i 0 : Fin 32) : ℕ) < j.val + 1
      omega
    | ⟨1, _⟩ =>
      have hlt : ((i 1 : Fin 6) : ℕ) < 6 := (i 1).isLt
      change 0 ≤ ((i 1 : Fin 6) : ℕ) ∧ ((i 1 : Fin 6) : ℕ) < 0 + 6
      omega
    | ⟨2, _⟩ =>
      have hlt : ((i 2 : Fin 512) : ℕ) < 512 := (i 2).isLt
      change 0 ≤ ((i 2 : Fin 512) : ℕ) ∧ ((i 2 : Fin 512) : ℕ) < 0 + 512
      omega
    | ⟨3, _⟩ =>
      have hlt : ((i 3 : Fin 256) : ℕ) < 256 := (i 3).isLt
      change 0 ≤ ((i 3 : Fin 256) : ℕ) ∧ ((i 3 : Fin 256) : ℕ) < 0 + 256
      omega
    | ⟨n + 4, hn⟩ => exact absurd hn (Nat.not_lt.2 (Nat.le_add_left 4 n))

theorem mem_wallSets {S : Finset (Dev nD)} {i : S32x6x512x256.Idx} :
    i ∈ wallSets S ↔ ∃ j ∈ S, ((i 0 : Fin 32) : ℕ) = j.val := by
  unfold wallSets
  rw [Finset.mem_biUnion]
  exact exists_congr fun j => and_congr_right fun _ => mem_wallSet

theorem wallSet_disjoint {j j' : Dev nD} (h : j ≠ j') : Disjoint (wallSet j) (wallSet j') :=
  Finset.disjoint_left.mpr fun i hi hi' => h (Fin.ext ((mem_wallSet.mp hi).symm.trans (mem_wallSet.mp hi')))

theorem wallSets_univ : wallSets Finset.univ = Finset.univ := by
  ext i
  simp only [Finset.mem_univ, iff_true]
  exact mem_wallSets.mpr ⟨(i 0 : Fin 32), Finset.mem_univ _, rfl⟩

theorem wallSets_singleton (j : Dev nD) : wallSets {j} = wallSet j := Finset.singleton_biUnion

theorem wallSets_insert (j : Dev nD) (S : Finset (Dev nD)) : wallSets (insert j S) = wallSet j ∪ wallSets S :=
  Finset.biUnion_insert

theorem wallSet_disjoint_wallSets {j : Dev nD} {S : Finset (Dev nD)} (hj : j ∉ S) : Disjoint (wallSet j) (wallSets S) :=
  (Finset.disjoint_biUnion_right _ _ _).mpr fun j' hj' => wallSet_disjoint fun e => hj (e ▸ hj')

theorem outSet_eq (j : Dev nD) :
    outSet j = (Rect.unit (s := S16384x256) ![512 * j.val, 0] S512x256.size (blk_inb j)).set := by
  unfold outSet blkM
  exact View.set_slice_whole (sig := sig) (κ := .tc) cc0_stg7_0
    (Rect.unit (s := S16384x256) ![512 * j.val, 0] S512x256.size (blk_inb j))

theorem mem_outSet {j : Dev nD} {i : S16384x256.Idx} : i ∈ outSet j ↔ ((i 0 : Fin 16384) : ℕ) / 512 = j.val := by
  rw [outSet_eq, Rect.mem_set_unit]
  have hj : j.val < 32 := j.isLt
  constructor
  · intro h
    have h0 := h 0
    change 512 * j.val ≤ ((i 0 : Fin 16384) : ℕ) ∧ ((i 0 : Fin 16384) : ℕ) < 512 * j.val + 512 at h0
    omega
  · intro h a
    match a with
    | ⟨0, _⟩ =>
      change 512 * j.val ≤ ((i 0 : Fin 16384) : ℕ) ∧ ((i 0 : Fin 16384) : ℕ) < 512 * j.val + 512
      omega
    | ⟨1, _⟩ =>
      have hlt : ((i 1 : Fin 256) : ℕ) < 256 := (i 1).isLt
      change 0 ≤ ((i 1 : Fin 256) : ℕ) ∧ ((i 1 : Fin 256) : ℕ) < 0 + 256
      omega
    | ⟨n + 2, hn⟩ => exact absurd hn (Nat.not_lt.2 (Nat.le_add_left 2 n))

theorem mem_outSets {S : Finset (Dev nD)} {i : S16384x256.Idx} :
    i ∈ outSets S ↔ ∃ j ∈ S, ((i 0 : Fin 16384) : ℕ) / 512 = j.val := by
  unfold outSets
  rw [Finset.mem_biUnion]
  exact exists_congr fun j => and_congr_right fun _ => mem_outSet

theorem outSet_disjoint {j j' : Dev nD} (h : j ≠ j') : Disjoint (outSet j) (outSet j') :=
  Finset.disjoint_left.mpr fun i hi hi' => h (Fin.ext ((mem_outSet.mp hi).symm.trans (mem_outSet.mp hi')))

theorem outSets_univ : outSets Finset.univ = Finset.univ := by
  ext i
  simp only [Finset.mem_univ, iff_true]
  have hlt : ((i 0 : Fin 16384) : ℕ) < 16384 := (i 0).isLt
  exact mem_outSets.mpr ⟨⟨((i 0 : Fin 16384) : ℕ) / 512, by show ((i 0 : Fin 16384) : ℕ) / 512 < 32; omega⟩, Finset.mem_univ _, rfl⟩

theorem outSets_singleton (j : Dev nD) : outSets {j} = outSet j := Finset.singleton_biUnion

theorem outSets_insert (j : Dev nD) (S : Finset (Dev nD)) : outSets (insert j S) = outSet j ∪ outSets S :=
  Finset.biUnion_insert

theorem outSet_disjoint_outSets {j : Dev nD} {S : Finset (Dev nD)} (hj : j ∉ S) : Disjoint (outSet j) (outSets S) :=
  (Finset.disjoint_biUnion_right _ _ _).mpr fun j' hj' => outSet_disjoint fun e => hj (e ▸ hj')

theorem wall_split {Ix : Type} [DecidableEq Ix] {Val : EltTy → Type} {Name : Type} [DecidableEq Name]
    {U : Type} [URA U] {Lvl : Type}
    (d : Dev nD) (S : Finset (Dev nD)) (j : Dev nD) (hj : j ∉ S) (q : PosShare TreeShare) (f : Buf Val ((d : Thread nD τ).loc cc0_scratch0)) :
    (((d : Thread nD τ).loc cc0_scratch0) ↦[wallSets (insert j S)]{q} f : sProp (MT nD τ sig Ix Val Name U Lvl))
      ⊣⊢ iprop((((d : Thread nD τ).loc cc0_scratch0) ↦[wallSet j]{q} f) ∗ ((d : Thread nD τ).loc cc0_scratch0) ↦[wallSets S]{q} f) := by
  rw [wallSets_insert]
  exact pointsTo_union (wallSet_disjoint_wallSets hj)

theorem wall_congr_one {Ix : Type} [DecidableEq Ix] {Val : EltTy → Type} {Name : Type} [DecidableEq Name]
    {U : Type} [URA U] {Lvl : Type}
    (d : Dev nD) (j : Dev nD) (q : PosShare TreeShare) (f g : Buf Val ((d : Thread nD τ).loc cc0_scratch0))
    (h : ∀ i : S32x6x512x256.Idx, ((i 0 : Fin 32) : ℕ) = j.val → f i = g i) :
    (((d : Thread nD τ).loc cc0_scratch0) ↦[wallSet j]{q} f : sProp (MT nD τ sig Ix Val Name U Lvl)) = ((d : Thread nD τ).loc cc0_scratch0) ↦[wallSet j]{q} g :=
  pointsTo_congr fun i hi => h i (mem_wallSet.mp hi)

theorem wall_univ {Ix : Type} [DecidableEq Ix] {Val : EltTy → Type} {Name : Type} [DecidableEq Name]
    {U : Type} [URA U] {Lvl : Type}
    (d : Dev nD) (q : PosShare TreeShare) (f : Buf Val ((d : Thread nD τ).loc cc0_scratch0)) :
    (((d : Thread nD τ).loc cc0_scratch0) ↦[Finset.univ]{q} f : sProp (MT nD τ sig Ix Val Name U Lvl)) = ((d : Thread nD τ).loc cc0_scratch0) ↦[wallSets Finset.univ]{q} f := by
  rw [wallSets_univ]

theorem out_split {Ix : Type} [DecidableEq Ix] {Val : EltTy → Type} {Name : Type} [DecidableEq Name]
    {U : Type} [URA U] {Lvl : Type}
    (d : Dev nD) (S : Finset (Dev nD)) (j : Dev nD) (hj : j ∉ S) (q : PosShare TreeShare) (f : Buf Val ((d : Thread nD τ).loc cc0_stg7_0)) :
    (((d : Thread nD τ).loc cc0_stg7_0) ↦[outSets (insert j S)]{q} f : sProp (MT nD τ sig Ix Val Name U Lvl))
      ⊣⊢ iprop((((d : Thread nD τ).loc cc0_stg7_0) ↦[outSet j]{q} f) ∗ ((d : Thread nD τ).loc cc0_stg7_0) ↦[outSets S]{q} f) := by
  rw [outSets_insert]
  exact pointsTo_union (outSet_disjoint_outSets hj)

theorem out_univ {Ix : Type} [DecidableEq Ix] {Val : EltTy → Type} {Name : Type} [DecidableEq Name]
    {U : Type} [URA U] {Lvl : Type}
    (d : Dev nD) (q : PosShare TreeShare) (f : Buf Val ((d : Thread nD τ).loc cc0_stg7_0)) :
    (((d : Thread nD τ).loc cc0_stg7_0) ↦[Finset.univ]{q} f : sProp (MT nD τ sig Ix Val Name U Lvl)) = ((d : Thread nD τ).loc cc0_stg7_0) ↦[outSets Finset.univ]{q} f := by
  rw [outSets_univ]

theorem mem_heldW {c j : Dev nD} {h : ℕ} : j ∈ heldW c h ↔ ∃ k, k < h + 1 ∧ srcAt c k = j := by
  unfold heldW
  rw [Finset.mem_image]
  exact exists_congr fun k => and_congr_left' Finset.mem_range

theorem mem_restW {c j : Dev nD} {h : ℕ} : j ∈ restW c h ↔ ∃ k, (h ≤ k ∧ k < 31) ∧ srcAt c k = j := by
  unfold restW
  rw [Finset.mem_image]
  exact exists_congr fun k => and_congr_left' Finset.mem_Ico

theorem heldW_zero (c : Dev nD) : heldW c 0 = {c} := by
  unfold heldW
  rw [Finset.range_one, Finset.image_singleton, srcAt_zero]

theorem heldW_succ (c : Dev nD) (h : ℕ) : heldW c (h + 1) = insert (srcAt c (h + 1)) (heldW c h) := by
  unfold heldW
  rw [Finset.range_add_one, Finset.image_insert]

theorem srcAt_notMem_heldW (c : Dev nD) (h : ℕ) (hh : h < 31) : srcAt c (h + 1) ∉ heldW c h := by
  intro hm
  obtain ⟨k, hk, e⟩ := mem_heldW.mp hm
  have := srcAt_injOn c k (h + 1) (by omega) (by omega) e
  omega

theorem srcAt_mem_heldW (c : Dev nD) (h : ℕ) : srcAt c h ∈ heldW c h :=
  mem_heldW.mpr ⟨h, Nat.lt_succ_self h, rfl⟩

theorem heldW_last (c : Dev nD) : heldW c 31 = Finset.univ := by
  ext j
  simp only [Finset.mem_univ, iff_true]
  obtain ⟨h, hh, e⟩ := srcAt_surj c j
  exact mem_heldW.mpr ⟨h, hh, e⟩

theorem restW_succ (c : Dev nD) (h : ℕ) (hh : h < 31) : restW c h = insert (srcAt c h) (restW c (h + 1)) := by
  ext j
  rw [Finset.mem_insert, mem_restW, mem_restW]
  constructor
  · rintro ⟨k, ⟨hk, hk'⟩, e⟩
    by_cases hkh : k = h
    · left; rw [← e, hkh]
    · right; exact ⟨k, ⟨by omega, hk'⟩, e⟩
  · rintro (e | ⟨k, ⟨hk, hk'⟩, e⟩)
    · exact ⟨h, ⟨le_refl h, hh⟩, e.symm⟩
    · exact ⟨k, ⟨by omega, hk'⟩, e⟩

theorem srcAt_notMem_restW (c : Dev nD) (h : ℕ) (hh : h < 31) : srcAt c h ∉ restW c (h + 1) := by
  intro hm
  obtain ⟨k, ⟨hk, hk'⟩, e⟩ := mem_restW.mp hm
  have := srcAt_injOn c k h (by omega) (by omega) e
  omega

theorem srcAt_last : ∀ c : Dev nD, srcAt c 31 = rgt c := by decide +kernel

theorem restW_zero (c : Dev nD) : restW c 0 = Finset.univ.erase (rgt c) := by
  ext j
  rw [mem_restW, Finset.mem_erase]
  constructor
  · rintro ⟨k, ⟨_, hk'⟩, e⟩
    refine ⟨fun ej => ?_, Finset.mem_univ _⟩
    have := srcAt_injOn c k 31 (by omega) (by omega) (by rw [e, ej, srcAt_last])
    omega
  · rintro ⟨hne, _⟩
    obtain ⟨k, hk, e⟩ := srcAt_surj c j
    by_cases hk31 : k = 31
    · exact absurd (by rw [← e, hk31, srcAt_last]) hne
    · exact ⟨k, ⟨Nat.zero_le k, by omega⟩, e⟩

section Steps
variable {F : FTy → Type} [FloatOps F]
variable (m : (ℓ : Loc nD τ sig) → Buf (Elt F) ℓ)

theorem wallPt_insert (c : Dev nD) (S : Finset (Dev nD)) (j : Dev nD) (hj : j ∉ S) :
    (wallPt m c (insert j S) : sProp (MT nD τ sig Unit (Elt F) ℕ UU ℕ)) ⊣⊢ iprop(wallPt m c {j} ∗ wallPt m c S) := by
  unfold wallPt
  rw [wallSets_singleton]
  exact wall_split c S j hj fullShare (wallFinal m)

theorem outPt_insert (c : Dev nD) (S : Finset (Dev nD)) (j : Dev nD) (hj : j ∉ S) :
    (outPt m c (insert j S) : sProp (MT nD τ sig Unit (Elt F) ℕ UU ℕ)) ⊣⊢ iprop(outPt m c {j} ∗ outPt m c S) := by
  unfold outPt
  rw [outSets_singleton]
  exact out_split c S j hj fullShare (outFinal m)

theorem wallAny_split (c : Dev nD) (S : Finset (Dev nD)) (j : Dev nD) (hj : j ∉ S) :
    (wallAny (F := F) c (insert j S) : sProp (MT nD τ sig Unit (Elt F) ℕ UU ℕ))
      ⊢ iprop(wallAny (F := F) c {j} ∗ wallAny (F := F) c S) := by
  unfold wallAny
  rw [wallSets_singleton]
  iintro ⟨%f, H⟩
  ihave H' := (wall_split c S j hj fullShare f).1 $$ H
  icases H' with ⟨Hj, HS⟩
  isplitl [Hj]
  · iexists f; iexact Hj
  · iexists f; iexact HS

theorem outAny_split (c : Dev nD) (S : Finset (Dev nD)) (j : Dev nD) (hj : j ∉ S) :
    (outAny (F := F) c (insert j S) : sProp (MT nD τ sig Unit (Elt F) ℕ UU ℕ))
      ⊢ iprop(outAny (F := F) c {j} ∗ outAny (F := F) c S) := by
  unfold outAny
  rw [outSets_singleton]
  iintro ⟨%f, H⟩
  ihave H' := (out_split c S j hj fullShare f).1 $$ H
  icases H' with ⟨Hj, HS⟩
  isplitl [Hj]
  · iexists f; iexact Hj
  · iexists f; iexact HS

theorem wallPt_held_succ (c : Dev nD) (h : ℕ) (hh : h < 31) :
    (wallPt m c (heldW c (h + 1)) : sProp (MT nD τ sig Unit (Elt F) ℕ UU ℕ))
      ⊣⊢ iprop(wallPt m c {srcAt c (h + 1)} ∗ wallPt m c (heldW c h)) := by
  rw [heldW_succ]
  exact wallPt_insert m c _ _ (srcAt_notMem_heldW c h hh)

theorem wallAny_rest_succ (d c : Dev nD) (h : ℕ) (hh : h < 31) :
    (wallAny (F := F) d (restW c h) : sProp (MT nD τ sig Unit (Elt F) ℕ UU ℕ))
      ⊢ iprop(wallAny (F := F) d {srcAt c h} ∗ wallAny (F := F) d (restW c (h + 1))) := by
  rw [restW_succ c h hh]
  exact wallAny_split d _ _ (srcAt_notMem_restW c h hh)

theorem outPt_held_succ (c : Dev nD) (h : ℕ) (hh : h < 31) :
    (outPt m c (heldW c (h + 1)) : sProp (MT nD τ sig Unit (Elt F) ℕ UU ℕ))
      ⊣⊢ iprop(outPt m c {srcAt c (h + 1)} ∗ outPt m c (heldW c h)) := by
  rw [heldW_succ]
  exact outPt_insert m c _ _ (srcAt_notMem_heldW c h hh)

theorem outAny_rest_succ (d c : Dev nD) (h : ℕ) (hh : h < 31) :
    (outAny (F := F) d (restW c h) : sProp (MT nD τ sig Unit (Elt F) ℕ UU ℕ))
      ⊢ iprop(outAny (F := F) d {srcAt c h} ∗ outAny (F := F) d (restW c (h + 1))) := by
  rw [restW_succ c h hh]
  exact outAny_split d _ _ (srcAt_notMem_restW c h hh)

theorem wallPt_held_take (c : Dev nD) (h : ℕ) :
    (wallPt m c (heldW c h) : sProp (MT nD τ sig Unit (Elt F) ℕ UU ℕ))
      ⊣⊢ iprop(wallPt m c {srcAt c h} ∗ wallPt m c ((heldW c h).erase (srcAt c h))) := by
  have e : heldW c h = insert (srcAt c h) ((heldW c h).erase (srcAt c h)) :=
    (Finset.insert_erase (srcAt_mem_heldW c h)).symm
  conv_lhs => rw [e]
  exact wallPt_insert m c _ _ (Finset.notMem_erase _ _)

theorem outPt_held_take (c : Dev nD) (h : ℕ) :
    (outPt m c (heldW c h) : sProp (MT nD τ sig Unit (Elt F) ℕ UU ℕ))
      ⊣⊢ iprop(outPt m c {srcAt c h} ∗ outPt m c ((heldW c h).erase (srcAt c h))) := by
  have e : heldW c h = insert (srcAt c h) ((heldW c h).erase (srcAt c h)) :=
    (Finset.insert_erase (srcAt_mem_heldW c h)).symm
  conv_lhs => rw [e]
  exact outPt_insert m c _ _ (Finset.notMem_erase _ _)

theorem outPt_last (c : Dev nD) :
    (outPt m c (heldW c 31) : sProp (MT nD τ sig Unit (Elt F) ℕ UU ℕ))
      = (((c : Thread nD τ).loc cc0_stg7_0) ↦{fullShare} (outFinal m)) := by
  unfold outPt
  rw [heldW_last, outSets_univ]

end Steps

end Cert.Kernel.RM
-- ==== Proof.RMK.Middle.lean ====
import proofs.«900986_g7700000000000987_dist_mlpseq_tp1d_bs_rep_b512_d256_h512_v7x_i32_bf16_1_alg».proof.Proof.RMK.Proto
import proofs.«900986_g7700000000000987_dist_mlpseq_tp1d_bs_rep_b512_d256_h512_v7x_i32_bf16_1_alg».proof.Proof.RMK.Regions
import proofs.«900986_g7700000000000987_dist_mlpseq_tp1d_bs_rep_b512_d256_h512_v7x_i32_bf16_1_alg».proof.Proof.RMK.Peel
import Idealize.ShloMosaic.Lib.Pipeline.Value

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ)

local notation "𝕄" => MT nD τ sig Unit (Elt F) ℕ UU ℕ

-- `rd m t l` is by definition what the window at `[t, l, 0, 0]` reads, however the offsets are spelt.
theorem readAt_rd (t : ℕ) (ht : t < 32) (l : Fin 6) (off : Fin 4 → ℕ)
    (hoff : off = ![t, l.val, 0, 0]) (hinb : ∀ a, off a + S1x1x512x256.size a ≤ S32x6x512x256.size a) :
    wallM.view.readAt (Elt F) (Rect.unit (s := S32x6x512x256) off S1x1x512x256.size hinb).toLoadRect (wallFinal m) = rd m t l := by
  subst hoff
  exact (rd_of_lt m t ht l).symm

-- Each trip only reads the weight array and applies `pay` to what it reads, which is the recursion defining `accN`: induction on the trips.
theorem wp_layer (c : Dev nD) (l : Fin 3) {w : ℕ} (lp : Scf.Loop w) (ok : lp.OK)
    (htr : Scf.trips lp.lb lp.ub lp.st = 32)
    (pay : FVec F S512x256 .f32 → Vec F S1x1x512x256 .bf16 → Vec F S1x1x512x256 .bf16 → FVec F S512x256 .f32)
    (o1 o2 : Fin lp.trips → Fin 4 → ℕ) (h1 : ∀ k, o1 k = ![k.val, l.val, 0, 0]) (h2 : ∀ k, o2 k = ![k.val, l.val + 3, 0, 0])
    (i1 : ∀ k a, o1 k a + S1x1x512x256.size a ≤ S32x6x512x256.size a)
    (i2 : ∀ k a, o2 k a + S1x1x512x256.size a ≤ S32x6x512x256.size a)
    (Q : FVec F S512x256 .f32 → sProp 𝕄) :
    (wallM.view.loc c.tc ↦{fullShare} wallFinal m) ⊢ iprop(((wallM.view.loc c.tc ↦{fullShare} wallFinal m) -∗ Q (accN m pay l 32)) -∗ wp frame (wpE (defs₀ (F := F)) 𝒱₀ c.tc none) Set.univ
      (Scf.Loop.for lp ok (k0_pay8 (F := F)) fun k acc =>
        .op (.load wallM (Rect.unit (s := S32x6x512x256) (o1 k) S1x1x512x256.size (i1 k)).toLoadRect (View.loadsAt_vmem h_S1x1x512x256)) fun v1 =>
        .op (.load wallM (Rect.unit (s := S32x6x512x256) (o2 k) S1x1x512x256.size (i2 k)).toLoadRect (View.loadsAt_vmem h_S1x1x512x256)) fun v2 =>
        .ret (pay acc v1 v2)) Q) := by
  iintro HW HQ
  iapply (Scf.wp_for frame (wpE (defs₀ (F := F)) 𝒱₀ c.tc none) Set.univ lp.lb lp.ub lp.st ok _ _
    (fun k acc => iprop((wallM.view.loc c.tc ↦{fullShare} wallFinal m) ∗ ⌜acc = accN m pay l k⌝)) fun k acc => by
      have hk : k.val < 32 := htr ▸ k.isLt
      iintro ⟨HW, %hacc⟩
      subst hacc
      iapply (wp_load 𝒱₀ c.tc none Set.univ (S := Finset.univ) (Finset.subset_univ _)) $$ HW
      iintro HW
      rw [readAt_rd m k.val hk ⟨l.val, by omega⟩ _ (h1 k)]
      iapply (wp_load 𝒱₀ c.tc none Set.univ (S := Finset.univ) (Finset.subset_univ _)) $$ HW
      iintro HW
      rw [readAt_rd m k.val hk ⟨l.val + 3, by omega⟩ _ (h2 k)]
      iapply (le_wp_ret _ _ _ _ _)
      iframe
      ipureintro; rfl)
  isplitl [HW]
  · iframe
    ipureintro; rfl
  iintro %acc ⟨HW, %h⟩
  subst h
  rw [htr]
  iapply HQ
  iexact HW

-- The load of the whole block of `x` reads the block.
theorem readAt_x0 (f0 : (cc0_stg0_0 : Ref sig .tc).ty.Contents (Elt F)) :
    (Memref.whole cc0_stg0_0 : Memref sig .tc .vmem S512x256 .f32).view.readAt (Elt F)
      (Rect.unit (s := S512x256) ![0, 0] S512x256.size inb_S512x256_S512x256_0_0).toLoadRect f0 = f0 :=
  Memref.readAt_unit_zero (Elt F) cc0_stg0_0 (by funext a; fin_cases a <;> rfl) inb_S512x256_S512x256_0_0 f0

-- Three layers in a row, each the loop above from the result of the one before: `yblk m c` by its definition.
theorem wp_layers_x (c : Dev nD) (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S16384x256 .bf16) (harg7 : arg7.IsWhole) (harg8 : wallM.IsWhole) (arg9 : DmaSems sig S31) (arg10 : DmaSems sig S31) (arg11 : DmaSems sig S31) (arg12 : DmaSems sig S31)
    (d0 : Dev nD) (v2 : BitVec 32) (v127 : BitVec 32) (Q : FVec F S512x256 .bf16 → sProp 𝕄) :
    iprop((wallM.view.loc c.tc ↦{fullShare} wallFinal m) ∗ ((wallM.view.loc c.tc ↦{fullShare} wallFinal m) -∗ Q (yblk m c))) ⊢ wp frame (wpE (defs₀ (F := F)) 𝒱₀ c.tc none) Set.univ
      (do
        let v2751 ← Scf.Loop.for k0_t1_loop k0_t1_ok (k0_pay8 (F := F)) (k0_t1_body arg0 harg0 arg1 harg1 arg2 harg2 arg3 harg3 arg4 harg4 arg5 harg5 arg6 harg6 arg7 harg7 wallM harg8 arg9 arg10 arg11 arg12 d0 v2 v127 (m (c.tc.loc main_arg0)))
        let v2755 ← Scf.Loop.for k0_t2_loop k0_t2_ok (k0_pay10 (F := F)) (k0_t2_body arg0 harg0 arg1 harg1 arg2 harg2 arg3 harg3 arg4 harg4 arg5 harg5 arg6 harg6 arg7 harg7 wallM harg8 arg9 arg10 arg11 arg12 d0 v2 v127 v2751)
        let v2759 ← Scf.Loop.for k0_t3_loop k0_t3_ok (k0_pay12 (F := F)) (k0_t3_body arg0 harg0 arg1 harg1 arg2 harg2 arg3 harg3 arg4 harg4 arg5 harg5 arg6 harg6 arg7 harg7 wallM harg8 arg9 arg10 arg11 arg12 d0 v2 v127 v2755)
        pure (k0_pay14 v2759)) Q := by
  unfold yblk y3 y2 y1
  simp only [wp_bind, Prog.pure_eq_ret]
  iintro ⟨HW, HQ⟩
  iapply (wp_layer m c 0 k0_t1_loop k0_t1_ok (by decide) _ k0_off8 k0_off9 k0_off8_eq k0_off9_eq k0_off8_inb k0_off9_inb _) $$ HW
  iintro HW
  iapply (wp_layer m c 1 k0_t2_loop k0_t2_ok (by decide) _ k0_off10 k0_off11 k0_off10_eq k0_off11_eq k0_off10_inb k0_off11_inb _) $$ HW
  iintro HW
  iapply (wp_layer m c 2 k0_t3_loop k0_t3_ok (by decide) _ k0_off12 k0_off13 k0_off12_eq k0_off13_eq k0_off12_inb k0_off13_inb _) $$ HW
  iintro HW
  iapply (le_wp_ret _ _ _ _ _)
  iapply HQ
  iexact HW

-- The rows `[512 c, 512 c + 512)` the device loads and stores over.
abbrev ownR (c : Dev nD) : Rect S16384x256 := Rect.unit (s := S16384x256) (k0_off14 c) S512x256.size (k0_off14_inb c)

-- They are row block `c`, however the offsets are spelt.
theorem access_set_eq (c : Dev nD) (off : Fin 2 → ℕ) (hoff : off = ![512 * c.val, 0])
    (hinb : ∀ a, off a + S512x256.size a ≤ S16384x256.size a) :
    (outM.access (Rect.unit (s := S16384x256) off S512x256.size hinb)).set = outSet c := by
  subst hoff
  rfl

-- Entry `y` of the stored block lands in row `512 c + y 0`, which is row `y 0` of row block `c`.
theorem out_write_eq (c : Dev nD) (off : Fin 2 → ℕ)
    (hoff : off = ![512 * c.val, 0]) (hinb : ∀ a, off a + S512x256.size a ≤ S16384x256.size a)
    (f : Buf (Elt F) (outM.view.loc (c : Thread nD τ))) :
    (outM.view.loc c.tc ↦[outSet c]{fullShare} (outM.access (Rect.unit (s := S16384x256) off S512x256.size hinb)).write (Elt F) f (yblk m c) Finset.univ : sProp 𝕄)
      = (outM.view.loc c.tc ↦[outSet c]{fullShare} outFinal m) := by
  subst hoff
  refine pointsTo_congr fun i hi => ?_
  obtain ⟨y, rfl⟩ := View.exists_emb_of_mem_set (blkM c).view hi
  refine (View.write_emb_of_mem (v := outM.access (Rect.unit (s := S16384x256) ![512 * c.val, 0] S512x256.size hinb))
    (Val := Elt F) f (yblk m c) (M := Finset.univ) (x := y) (Finset.mem_univ y)).trans ?_
  have y0 : (y 0).val < 512 := (y 0).isLt
  have y1 : (y 1).val < 256 := (y 1).isLt
  refine (congrArg₂ (yblk m) (x := ⟨(512 * c.val + 1 * (y 0).val) / 512, by omega⟩) (x' := c)
    (y := ValueIdx.ix2 (⟨(512 * c.val + 1 * (y 0).val) % 512, Nat.mod_lt _ (by norm_num)⟩ : Fin 512) (⟨0 + 1 * (y 1).val, by omega⟩ : Fin 256))
    (y' := y) (Fin.ext ?_) ?_).symm
  · show (512 * c.val + 1 * (y 0).val) / 512 = c.val
    omega
  · funext a
    match a with
    | ⟨0, _⟩ => exact Fin.ext (show (512 * c.val + 1 * (y 0).val) % 512 = (y 0).val by omega)
    | ⟨1, _⟩ => exact Fin.ext (show 0 + 1 * (y 1).val = (y 1).val by omega)

-- The device holds its own rows at some contents, which cover what the load reads.
theorem wp_out_load (c : Dev nD) (hl : outM.view.LoadsAt (ownR c).toLoadRect)
    {α : Type} (k : Vec F S512x256 .bf16 → Prog (TpuEff nD τ sig (Elt F) Λ₀ .tc) α) (Q : α → sProp 𝕄) :
    outAny (F := F) c {c} ⊢ iprop((∀ v, outAny (F := F) c {c} -∗ wp frame (wpE (defs₀ (F := F)) 𝒱₀ c.tc none) Set.univ (k v) Q)
      -∗ wp frame (wpE (defs₀ (F := F)) 𝒱₀ c.tc none) Set.univ (.op (.load outM (ownR c).toLoadRect hl) k) Q) := by
  unfold outAny
  rw [outSets_singleton]
  iintro ⟨%f, HO⟩ HK
  iapply (wp_load_rect 𝒱₀ (c : Thread nD τ) none Set.univ (m := outM) (r := ownR c) (S := outSet c) (access_set_eq c _ (k0_off14_eq c) _).subset) $$ HO
  iintro HO
  iapply HK
  iexists f
  iexact HO

-- The store writes exactly the device's own rows, and leaves there the final result's values.
theorem wp_out_store (c : Dev nD) (hx : (outM.access (ownR c)).Stores Finset.univ)
    (hm : (Finset.univ : Finset (ownR c).shape.Idx) = Finset.univ ∨ ∀ a, (ownR c).stride a = 1)
    {α : Type} (k : PUnit → Prog (TpuEff nD τ sig (Elt F) Λ₀ .tc) α) (Q : α → sProp 𝕄) :
    outAny (F := F) c {c} ⊢ iprop((outPt m c {c} -∗ wp frame (wpE (defs₀ (F := F)) 𝒱₀ c.tc none) Set.univ (k ⟨⟩) Q)
      -∗ wp frame (wpE (defs₀ (F := F)) 𝒱₀ c.tc none) Set.univ (.op (.store outM (ownR c) (yblk m c) Finset.univ hx hm) k) Q) := by
  have hS : (outM.access (ownR c)).setOn Finset.univ ⊆ outSet c := by
    rw [View.setOn_univ]; exact (access_set_eq c _ (k0_off14_eq c) _).subset
  unfold outAny outPt
  rw [outSets_singleton]
  iintro ⟨%f, HO⟩ HK
  iapply (wp_store 𝒱₀ (c : Thread nD τ) none Set.univ (m := outM) (r := ownR c) (S := outSet c) hS) $$ HO
  rw [out_write_eq m c _ (k0_off14_eq c)]
  iexact HK

theorem wallPt_univ (c : Dev nD) : (wallPt m c Finset.univ : sProp 𝕄) = (wallM.view.loc c.tc ↦{fullShare} wallFinal m) := by
  unfold wallPt
  rw [wallSets_univ]

-- No step of the first ring is numbered 31 or more, so its sum of dues is empty.
theorem OW_last (c : Dev nD) : OW c 31 = OO c 0 := by
  unfold OW
  rw [Finset.filter_eq_empty_iff.mpr (fun x _ => by have := x.isLt; omega), Finset.sum_empty, add_zero]

-- After 31 steps all 32 slots are held, and what is still owed is the second ring's.
theorem RingW_last_elim (K : Dev nD × CI → ℕ) (c : Dev nD) :
    RingW m K c 31 ⊢ iprop(records m K ∗ levAts L lv ∗ ClosedW (F := F) c 31 ∗ (∃ W, owes c.tc (OO c 0) W) ∗ wallPt m c Finset.univ) := by
  unfold RingW
  rw [OW_last, heldW_last]
  iintro ⟨HR, HL, -, HC, HO, HW, -⟩
  iframe

-- Before step 0 the device holds its own row block only, no cell is closed, and every other block of the right neighbour is to be written.
theorem RingO_zero_intro (K : Dev nD × CI → ℕ) (c : Dev nD) :
    iprop(records m K ∗ levAts L lv ∗ TokO (F := F) c 0 ∗ (∃ W, owes c.tc (OO c 0) W)
        ∗ outPt m c {c} ∗ outAny (F := F) (rgt c) (Finset.univ.erase (rgt c))) ⊢ RingO m K c 0 := by
  unfold RingO
  rw [heldW_zero, restW_zero, ClosedO_zero]
  iintro ⟨HR, HL, HT, HO, HP, HA⟩
  iframe

end Cert.Kernel.RM

end
-- ==== Proof.RMK.Prologue.lean ====
import proofs.«900986_g7700000000000987_dist_mlpseq_tp1d_bs_rep_b512_d256_h512_v7x_i32_bf16_1_alg».proof.Proof.RMK.Sched
import proofs.«900986_g7700000000000987_dist_mlpseq_tp1d_bs_rep_b512_d256_h512_v7x_i32_bf16_1_alg».proof.Proof.RMK.Regions

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

abbrev inM1 : Memref sig .tc .vmem S256x512 .f32 := Memref.whole cc0_stg1_0
abbrev inM2 : Memref sig .tc .vmem S512x256 .f32 := Memref.whole cc0_stg2_0
abbrev inM3 : Memref sig .tc .vmem S256x512 .f32 := Memref.whole cc0_stg3_0
abbrev inM4 : Memref sig .tc .vmem S512x256 .f32 := Memref.whole cc0_stg4_0
abbrev inM5 : Memref sig .tc .vmem S256x512 .f32 := Memref.whole cc0_stg5_0
abbrev inM6 : Memref sig .tc .vmem S512x256 .f32 := Memref.whole cc0_stg6_0

variable (m : (ℓ : Loc nD τ sig) → Buf (Elt F) ℓ)

-- A payload equal to device c's piece l agrees with the final weight array on the window at [c, l, 0, 0].
theorem wallFinal_emb (c : Dev nD) (l : Fin 6) (off : Fin 4 → ℕ) (e : off = ![c.val, l.val, 0, 0])
    (inb : ∀ a, off a + S1x1x512x256.size a ≤ S32x6x512x256.size a) (w : FVec F S1x1x512x256 .bf16) (hw : w = piece m c l)
    (x : S1x1x512x256.Idx) : w x = wallFinal m ((Rect.unit (s := S32x6x512x256) off S1x1x512x256.size inb).emb x) := by
  subst e hw
  exact (congrFun ((rd_of_lt m c.val c.isLt l).symm.trans (rd_apply m c.val c.isLt l)) x).symm

-- An index of slot c whose second coordinate is l lies in the window at [c, l, 0, 0].
theorem mem_window (c : Dev nD) (i : S32x6x512x256.Idx) (hi : ((i 0 : Fin 32) : ℕ) = c.val)
    (l : ℕ) (off : Fin 4 → ℕ) (e : off = ![c.val, l, 0, 0])
    (inb : ∀ a, off a + S1x1x512x256.size a ≤ S32x6x512x256.size a) (hl : ((i 1 : Fin 6) : ℕ) = l) :
    i ∈ (Rect.unit (s := S32x6x512x256) off S1x1x512x256.size inb).set := by
  subst e
  have h2 : ((i 2 : Fin 512) : ℕ) < 512 := (i 2).isLt
  have h3 : ((i 3 : Fin 256) : ℕ) < 256 := (i 3).isLt
  rw [Rect.mem_set_unit]
  intro a
  match a with
  | ⟨0, _⟩ => exact ⟨by show c.val ≤ (i 0).val; omega, by show (i 0).val < c.val + 1; omega⟩
  | ⟨1, _⟩ => exact ⟨by show l ≤ (i 1).val; omega, by show (i 1).val < l + 1; omega⟩
  | ⟨2, _⟩ => exact ⟨by show 0 ≤ (i 2).val; omega, by show (i 2).val < 0 + 512; omega⟩
  | ⟨3, _⟩ => exact ⟨by show 0 ≤ (i 3).val; omega, by show (i 3).val < 0 + 256; omega⟩

-- Over an abstract list of writes, reading the whole scratch back is reading the writes.
theorem writes_eq_wallFinal (c : Dev nD) (f₀ : Buf (Elt F) ((c : Thread nD τ).loc cc0_scratch0))
    (L : List (View.Piece (Elt F) S32x6x512x256 .bf16))
    (hp : ∀ p ∈ L, ∀ x : p.1.shape.Idx, p.2 x = wallFinal m (p.1.emb x))
    (i : S32x6x512x256.Idx) (hc : ∃ p ∈ L, i ∈ p.1.set) :
    wallM.view.writes (Elt F) f₀ L i = wallFinal m i :=
  View.read_writes_apply_of_pieces wallM.view f₀ (wallFinal m) L hp i hc

theorem zero2 : (![0, 0] : Fin 2 → Nat) = fun _ => 0 := funext fun a => by fin_cases a <;> rfl

-- The six pieces device c stores in its own slot, the last store first.
def storedList (c : Dev nD) : List (View.Piece (Elt F) S32x6x512x256 .bf16) :=
  [⟨Rect.unit (k0_off6 c) S1x1x512x256.size (k0_off6_inb c), k0_pay7 (View.readAt (Elt F) inM6.view (Rect.unit ![0, 0] S512x256.size inb_S512x256_S512x256_0_0).toLoadRect (m ((c : Thread nD τ).loc main_arg6)))⟩,
        ⟨Rect.unit (k0_off5 c) S1x1x512x256.size (k0_off5_inb c), k0_pay6 (View.readAt (Elt F) inM4.view (Rect.unit ![0, 0] S512x256.size inb_S512x256_S512x256_0_0).toLoadRect (m ((c : Thread nD τ).loc main_arg4)))⟩,
        ⟨Rect.unit (k0_off4 c) S1x1x512x256.size (k0_off4_inb c), k0_pay5 (View.readAt (Elt F) inM2.view (Rect.unit ![0, 0] S512x256.size inb_S512x256_S512x256_0_0).toLoadRect (m ((c : Thread nD τ).loc main_arg2)))⟩,
        ⟨Rect.unit (k0_off3 c) S1x1x512x256.size (k0_off3_inb c), k0_pay4 (View.readAt (Elt F) inM5.view (Rect.unit ![0, 0] S256x512.size inb_S256x512_S256x512_0_0).toLoadRect (m ((c : Thread nD τ).loc main_arg5)))⟩,
        ⟨Rect.unit (k0_off2 c) S1x1x512x256.size (k0_off2_inb c), k0_pay3 (View.readAt (Elt F) inM3.view (Rect.unit ![0, 0] S256x512.size inb_S256x512_S256x512_0_0).toLoadRect (m ((c : Thread nD τ).loc main_arg3)))⟩,
        ⟨Rect.unit (k0_off1 c) S1x1x512x256.size (k0_off1_inb c), k0_pay2 (k0_pay1 (View.readAt (Elt F) inM1.view (Rect.unit ![0, 0] S256x512.size inb_S256x512_S256x512_0_0).toLoadRect (m ((c : Thread nD τ).loc main_arg1))))⟩]

-- The six stores write device c's six pieces, whose windows cover slot c; the other slots keep what they held.
theorem wall_after_stores (c : Dev nD) (f₀ : Buf (Elt F) ((c : Thread nD τ).loc cc0_scratch0)) :
    ((wallM.view.loc (c : Thread nD τ)) ↦{fullShare}
        wallM.view.writes (Elt F) f₀
      (storedList m c) : sProp 𝕄)
      ⊢ iprop(wallPt m c {c} ∗ wallAny (F := F) c (Finset.univ.erase c)) := by
  show ((((c : Thread nD τ).loc cc0_scratch0) ↦{fullShare} _) : sProp 𝕄) ⊢ _
  refine (Entails.of_eq (wall_univ c fullShare _)).trans ?_
  rw [show wallSets (Finset.univ : Finset (Dev nD)) = wallSets (insert c (Finset.univ.erase c)) by
    rw [Finset.insert_erase (Finset.mem_univ c)]]
  refine (wall_split c _ c (Finset.notMem_erase c _) fullShare _).1.trans (BIClass.sep_mono ?_ ?_)
  · unfold wallPt
    rw [wallSets_singleton]
    refine Entails.of_eq (wall_congr_one c c fullShare _ (wallFinal m) fun i hi =>
      writes_eq_wallFinal m c f₀ _ ?_ i ?_)
    · intro p hp x
      simp only [storedList, List.mem_cons, List.mem_nil_iff, or_false] at hp
      rcases hp with rfl | rfl | rfl | rfl | rfl | rfl
      · exact wallFinal_emb m c 5 _ (k0_off6_eq c) (k0_off6_inb c) _ (congrArg k0_pay7 (Memref.readAt_unit_zero (Elt F) cc0_stg6_0 zero2 _ _)) x
      · exact wallFinal_emb m c 4 _ (k0_off5_eq c) (k0_off5_inb c) _ (congrArg k0_pay6 (Memref.readAt_unit_zero (Elt F) cc0_stg4_0 zero2 _ _)) x
      · exact wallFinal_emb m c 3 _ (k0_off4_eq c) (k0_off4_inb c) _ (congrArg k0_pay5 (Memref.readAt_unit_zero (Elt F) cc0_stg2_0 zero2 _ _)) x
      · exact wallFinal_emb m c 2 _ (k0_off3_eq c) (k0_off3_inb c) _ (congrArg k0_pay4 (Memref.readAt_unit_zero (Elt F) cc0_stg5_0 zero2 _ _)) x
      · exact wallFinal_emb m c 1 _ (k0_off2_eq c) (k0_off2_inb c) _ (congrArg k0_pay3 (Memref.readAt_unit_zero (Elt F) cc0_stg3_0 zero2 _ _)) x
      · exact wallFinal_emb m c 0 _ (k0_off1_eq c) (k0_off1_inb c) _ (congrArg (fun v => k0_pay2 (k0_pay1 v)) (Memref.readAt_unit_zero (Elt F) cc0_stg1_0 zero2 _ _)) x
    · have h1 : ((i 1 : Fin 6) : ℕ) < 6 := (i 1).isLt
      rcases (by omega : ((i 1 : Fin 6) : ℕ) = 0 ∨ ((i 1 : Fin 6) : ℕ) = 1 ∨ ((i 1 : Fin 6) : ℕ) = 2 ∨ ((i 1 : Fin 6) : ℕ) = 3
        ∨ ((i 1 : Fin 6) : ℕ) = 4 ∨ ((i 1 : Fin 6) : ℕ) = 5) with h | h | h | h | h | h
      · exact ⟨_, List.getElem_mem (n := 5) (by show _ < 6; decide), mem_window c i hi 0 _ (k0_off1_eq c) (k0_off1_inb c) h⟩
      · exact ⟨_, List.getElem_mem (n := 4) (by show _ < 6; decide), mem_window c i hi 1 _ (k0_off2_eq c) (k0_off2_inb c) h⟩
      · exact ⟨_, List.getElem_mem (n := 3) (by show _ < 6; decide), mem_window c i hi 2 _ (k0_off3_eq c) (k0_off3_inb c) h⟩
      · exact ⟨_, List.getElem_mem (n := 2) (by show _ < 6; decide), mem_window c i hi 3 _ (k0_off4_eq c) (k0_off4_inb c) h⟩
      · exact ⟨_, List.getElem_mem (n := 1) (by show _ < 6; decide), mem_window c i hi 4 _ (k0_off5_eq c) (k0_off5_inb c) h⟩
      · exact ⟨_, List.getElem_mem (n := 0) (by show _ < 6; decide), mem_window c i hi 5 _ (k0_off6_eq c) (k0_off6_inb c) h⟩
  · unfold wallAny
    iintro H
    iexists _
    iexact H

-- The result buffer, whole at some contents, is device c's own row block and the other 31.
theorem outAny_own_split (c : Dev nD) (f₇ : Buf (Elt F) ((c : Thread nD τ).loc cc0_stg7_0)) :
    ((outM.view.loc (c : Thread nD τ)) ↦{fullShare} f₇ : sProp 𝕄)
      ⊢ iprop(outAny (F := F) c {c} ∗ outAny (F := F) c (Finset.univ.erase c)) := by
  refine (Entails.of_eq (out_univ c fullShare f₇)).trans ?_
  rw [show outSets (Finset.univ : Finset (Dev nD)) = outSets (insert c (Finset.univ.erase c)) by
    rw [Finset.insert_erase (Finset.mem_univ c)]]
  refine BIBase.Entails.trans ?_ (outAny_split c (Finset.univ.erase c) c (Finset.notMem_erase c _))
  unfold outAny
  iintro H
  iexists f₇
  iexact H

theorem inv_bar (K : Dev nD × CI → ℕ) (c : Dev nD) :
    (bigSep Finset.univ fun ck : Dev nD × CI => (cellInv ER (ringRd m) (K ck) (kcell ck) : sProp 𝕄))
      ⊢ cellInv ER (ringRd m) (K (c, none)) (barCell c) :=
  bigSep_elim (Φ := fun ck : Dev nD × CI => (cellInv ER (ringRd m) (K ck) (kcell ck) : sProp 𝕄)) (Finset.mem_univ (c, none))

theorem reached_cell (ck : Dev nD × CI) :
    (bigSep Finset.univ fun ck : Dev nD × CI => (reached ER (kcell ck) 0 : sProp 𝕄)) ⊢ reached ER (kcell ck) 0 :=
  bigSep_elim (Φ := fun ck : Dev nD × CI => (reached ER (kcell ck) 0 : sProp 𝕄)) (Finset.mem_univ ck)

theorem reached_recv (c : Dev nD) :
    (bigSep Finset.univ fun ck : Dev nD × CI => (reached ER (kcell ck) 0 : sProp 𝕄))
      ⊢ bigSep Finset.univ fun h : Fin 31 => iprop(reached ER (dCell c 1 h) 0 ∗ reached ER (dCell c 3 h) 0) := by
  refine bigSep_intro_persistent fun h _ => ?_
  iintro #H
  isplitr
  · iapply (reached_cell (c, some (1, h))); iexact H
  · iapply (reached_cell (c, some (3, h))); iexact H

-- What the first signal carries: c is its left neighbour's right neighbour, and every cell has reached round 0.
theorem barPay_intro (c : Dev nD) :
    iprop(wallAny (F := F) c (Finset.univ.erase c) ∗ outAny (F := F) c (Finset.univ.erase c)
        ∗ bigSep Finset.univ fun ck : Dev nD × CI => (reached ER (kcell ck) 0 : sProp 𝕄))
      ⊢ barPay (F := F) (lft c) := by
  unfold barPay
  rw [rgt_lft]
  iintro ⟨Hw, Ho, #Hrch⟩
  iframe
  iapply (reached_recv c); iexact Hrch

-- The two duties of the barrier cell's round: the left neighbour's carries nothing, the right neighbour's its landing regions.
theorem bar_payloads (c : Dev nD) :
    (bigSep Finset.univ fun d : Bool => (ringRd (F := F) m).payload (barCell c) 0 d)
      ⊢ iprop(wallAny (F := F) (rgt c) (Finset.univ.erase (rgt c)) ∗ outAny (F := F) (rgt c) (Finset.univ.erase (rgt c))
          ∗ bigSep Finset.univ fun h : Fin 31 => iprop(reached ER (dCell (rgt c) 1 h) 0 ∗ reached ER (dCell (rgt c) 3 h) 0)) := by
  have e := rest_bar m c
  rw [Finset.sdiff_empty, duties_bar] at e
  rw [e]
  unfold barPay
  iintro ⟨-, H⟩
  iexact H

-- The first signal pays duty true of the left neighbour's barrier cell with c's landing regions.
theorem wp_signal_lft' (K : Dev nD × CI → ℕ) (c : Dev nD) {α : Type} (Q : α → sProp 𝕄) (W : Waits sig Unit)
    (k : PUnit → Prog (TpuEff nD τ sig (Elt F) Λ₀ .tc) α) :
    iprop(records m K ∗ dutyTok ER (barCell (lft c)) 0 true ∗ owes (c : Thread nD τ) (O₀ c) W
        ∗ wallAny (F := F) c (Finset.univ.erase c) ∗ outAny (F := F) c (Finset.univ.erase c))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((lft c, Proc.tc) : Thread nD τ) barS (1#32).toNat) k) Q) := by
  unfold records
  rw [O₀_eq]
  iintro ⟨⟨#Hinv, #Hrch⟩, Htok, HO, Hw, Ho⟩ Hk
  ihave #Hg := (inv_bar m K (lft c)) $$ Hinv
  ihave #Hr := (reached_cell (lft c, none)) $$ Hrch
  ihave Hpay := (barPay_intro c) $$ [Hw Ho]
  · iframe; iexact Hrch
  sl_exec
  iapply Hk
  iexact HO

-- The second signal pays duty false of the right neighbour's barrier cell, which carries nothing.
theorem wp_signal_rgt' (K : Dev nD × CI → ℕ) (c : Dev nD) {α : Type} (Q : α → sProp 𝕄) (W : Waits sig Unit)
    (k : PUnit → Prog (TpuEff nD τ sig (Elt F) Λ₀ .tc) α) :
    iprop(records m K ∗ dutyTok ER (barCell (rgt c)) 0 false ∗ owes (c : Thread nD τ) (O₁ c) W)
      ⊢ iprop((owes (c : Thread nD τ) (OW c 0) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((rgt c, Proc.tc) : Thread nD τ) barS (1#32).toNat) k) Q) := by
  unfold records
  rw [O₁_eq]
  iintro ⟨⟨#Hinv, #Hrch⟩, Htok, HO⟩ Hk
  ihave #Hg := (inv_bar m K (rgt c)) $$ Hinv
  ihave #Hr := (reached_cell (rgt c, none)) $$ Hrch
  sl_exec
  iapply Hk
  iexact HO

-- The wait for both neighbours' signals brings what the right neighbour's first signal carried.
theorem wp_bar_wait' (K : Dev nD × CI → ℕ) (c : Dev nD) {α : Type} (Q : α → sProp 𝕄) (W : Waits sig Unit)
    (k : PUnit → Prog (TpuEff nD τ sig (Elt F) Λ₀ .tc) α) :
    iprop(records m K ∗ levAts L lv ∗ cred (tallyAt (barCell c) () 2) ∗ owes (c : Thread nD τ) (OW c 0) W
        ∗ atPos ER (barCell c) 0 ∅ 0)
      ⊢ iprop(((owes (c : Thread nD τ) (OW c 0) (insert (SemLoc.reg barS, ()) W) ∗ atPos ER (barCell c) 1 ∅ 0
              ∗ reached ER (barCell c) 1
              ∗ wallAny (F := F) (rgt c) (Finset.univ.erase (rgt c)) ∗ outAny (F := F) (rgt c) (Finset.univ.erase (rgt c))
              ∗ bigSep Finset.univ fun h : Fin 31 => iprop(reached ER (dCell (rgt c) 1 h) 0 ∗ reached ER (dCell (rgt c) 3 h) 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  unfold records
  iintro ⟨⟨#Hinv, #Hrch⟩, #Hlev, Hcr, HO, Hat⟩ Hk
  ihave #Hg := (inv_bar m K c) $$ Hinv
  ihave #Hmw := (mayWait_bar c) $$ Hlev
  sl_exec
  ihave Hpay := (bar_payloads m c) $$ Hat_pay1
  iapply Hk
  iframe

end Cert.Kernel.RM

end
-- ==== Proof.RMK.StepW.lean ====
import proofs.«900986_g7700000000000987_dist_mlpseq_tp1d_bs_rep_b512_d256_h512_v7x_i32_bf16_1_alg».proof.Proof.RMK.Regions
import proofs.«900986_g7700000000000987_dist_mlpseq_tp1d_bs_rep_b512_d256_h512_v7x_i32_bf16_1_alg».proof.Proof.RMK.Sched
import proofs.«900986_g7700000000000987_dist_mlpseq_tp1d_bs_rep_b512_d256_h512_v7x_i32_bf16_1_alg».proof.Proof.RMK.Peel

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem slotPt_eq (d j : Dev nD) :
    ((((d : Thread nD τ).loc cc0_scratch0) ↦[(slotM j).view.set]{fullShare} (wallFinal m)) : sProp 𝕄) = wallPt m d {j} := by
  unfold wallPt; rw [wallSets_singleton]; rfl

theorem slotAny_eq (d j : Dev nD) :
    (iprop(∃ f : Buf (Elt F) ((d : Thread nD τ).loc cc0_scratch0), ((d : Thread nD τ).loc cc0_scratch0) ↦[(slotM j).view.set]{fullShare} f) : sProp 𝕄)
      = wallAny (F := F) d {j} := by
  unfold wallAny; rw [wallSets_singleton]; rfl

theorem slot_landed (d j : Dev nD) (fd : Buf (Elt F) ((d : Thread nD τ).loc cc0_scratch0)) :
    ((((d : Thread nD τ).loc cc0_scratch0) ↦[(slotM j).view.set]{fullShare}
        ((slotM j).view.write (Elt F) fd ((slotM j).view.read (Elt F) (wallFinal m)) Finset.univ)) : sProp 𝕄)
      = wallPt m d {j} := by
  rw [← slotPt_eq]
  refine BI.Region.is_congr fun i hi => ?_
  have e := congrFun (View.write_read_eq_piecewise (v := (slotM j).view) fd (wallFinal m) Finset.univ) i
  exact e.trans (Finset.piecewise_eq_of_mem _ _ _ hi)

theorem rec_inv (K : Dev nD × CI → ℕ) (c : Dev nD) (k : Fin 4) (h : Fin 31) :
    records m K ⊢ cellInv ER (ringRd m) (K (c, some (k, h))) (dCell c k h) :=
  records_cellInv m K (c, some (k, h))

theorem rec_reached (K : Dev nD × CI → ℕ) (c : Dev nD) (k : Fin 4) (h : Fin 31) :
    records m K ⊢ reached ER (dCell c k h) 0 :=
  records_reached m K (c, some (k, h))

theorem tokW_peel (c : Dev nD) (h : Fin 31) :
    TokW (F := F) c h.val = iprop((dutyTok ER (dCell c 0 h) 0 false ∗ dutyTok ER (dCell (rgt c) 1 h) 0 false
      ∗ atPos ER (dCell c 0 h) 0 ∅ 0 ∗ atPos ER (dCell c 1 h) 0 ∅ 0 ∗ cred (tallyAt (dCell c 1 h) () Nw)) ∗ TokW (F := F) c (h.val + 1)) :=
  TokW_succ c h.val h.isLt

theorem closedW_peel (c : Dev nD) (h : Fin 31) :
    ClosedW (F := F) c (h.val + 1) = iprop((semVal (dCell c 0 h) 0 ∗ semVal (dCell c 1 h) 0) ∗ ClosedW (F := F) c h.val) :=
  ClosedW_succ c h.val h.isLt

theorem false_mem_duties (c : Dev nD) (k : Fin 4) (h : Fin 31) : false ∈ (ringRd m).duties (dCell c k h) 0 := by
  rw [duties_dma]; exact Finset.mem_singleton_self _

def RingW1 (K : Dev nD × CI → ℕ) (c : Dev nD) (h : Fin 31) : sProp 𝕄 :=
  iprop(records m K ∗ levAts L lv ∗ TokW (F := F) c (h.val + 1) ∗ ClosedW (F := F) c h.val
    ∗ (∃ W, owes (c : Thread nD τ) (OW c (h.val + 1)) W)
    ∗ atPos ER (dCell c 0 h) 0 ∅ 0 ∗ cred (tallyAt (dCell c 0 h) () Nw)
    ∗ atPos ER (dCell c 1 h) 0 ∅ 0 ∗ cred (tallyAt (dCell c 1 h) () Nw)
    ∗ wallPt m c ((heldW c h.val).erase (srcAt c h.val)) ∗ wallAny (F := F) (rgt c) (restW c (h.val + 1)))

def RingW2 (K : Dev nD × CI → ℕ) (c : Dev nD) (h : Fin 31) : sProp 𝕄 :=
  iprop(records m K ∗ levAts L lv ∗ TokW (F := F) c (h.val + 1) ∗ ClosedW (F := F) c h.val
    ∗ (∃ W, owes (c : Thread nD τ) (OW c (h.val + 1)) W)
    ∗ semVal (dCell c 0 h) 0
    ∗ atPos ER (dCell c 1 h) 0 ∅ 0 ∗ cred (tallyAt (dCell c 1 h) () Nw)
    ∗ wallPt m c (heldW c h.val) ∗ wallAny (F := F) (rgt c) (restW c (h.val + 1)))

theorem wp_wall_enq (K : Dev nD × CI → ℕ) (c n : Dev nD) (hn : n = rgt c) (h : Fin 31)
    (V : Memref sig .tc .vmem S6x512x256 .bf16) (hV : V = slotM (srcAt c h.val))
    {α : Type} (Q : α → sProp 𝕄) (k : PUnit → Prog (TpuEff nD τ sig (Elt F) Λ₀ .tc) α)
    (hsc : V.view.ref.isScScratch = false) (hsrc : V.view.WordExact) (hdst : V.view.WordExact)
    (hsem : DmaTarget.Typed (nD := nD) (τ := τ) .vmem (.dma (dsem 1 h)) (.remote (Dev.tc n) V (.dma (dsem 0 h)) hsc)) :
    RingW m K c h.val
      ⊢ iprop((RingW1 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma V (.remote (Dev.tc n) V (.dma (dsem 0 h)) hsc) (.dma (dsem 1 h)) hsrc hdst hsem) k) Q) := by
  subst hn
  subst hV
  have hp1 : ((((c : Thread nD τ).loc cc0_scratch0) ↦[(slotM (srcAt c h.val)).view.set]{fullShare} (wallFinal m)) : sProp 𝕄)
      ⊢ (ringRd m).payload (dCell c 0 h) 0 false :=
    Entails.of_eq ((slotPt_eq m c (srcAt c h.val)).trans (payload_wsend m c h false).symm)
  have hp2 : ∀ fd : Buf (Elt F) (((rgt c : Dev nD) : Thread nD τ).loc cc0_scratch0),
      ((((rgt c : Dev nD) : Thread nD τ).loc cc0_scratch0) ↦[(slotM (srcAt c h.val)).view.set]{fullShare}
        ((slotM (srcAt c h.val)).view.write (Elt F) fd ((slotM (srcAt c h.val)).view.read (Elt F) (wallFinal m)) Finset.univ) : sProp 𝕄)
      ⊢ (ringRd m).payload (dCell (rgt c) 1 h) 0 false := fun fd =>
    Entails.of_eq ((slot_landed m (rgt c) (srcAt c h.val) fd).trans
      ((congrArg (fun j => wallPt m (rgt c) {j}) (srcAt_rgt c h.val h.isLt).symm).trans (payload_wrecv m (rgt c) h false).symm))
  unfold RingW RingW1
  iintro ⟨#Hrec, #Hlev, Htok, Hcl, ⟨%W, Ho⟩, Hpt, Hany⟩ Hk
  ihave #Hg1 := (rec_inv m K c 0 h) $$ Hrec
  ihave #Hg2 := (rec_inv m K (rgt c) 1 h) $$ Hrec
  ihave #Hr1 := (rec_reached m K c 0 h) $$ Hrec
  ihave #Hr2 := (rec_reached m K (rgt c) 1 h) $$ Hrec
  ihave Htok := (Entails.of_eq (tokW_peel c h)) $$ Htok
  icases Htok with ⟨⟨Ht1, Ht2, Hat0, Hat1, Hcr1⟩, Htok⟩
  ihave Hpt := (wallPt_held_take m c h.val).1 $$ Hpt
  icases Hpt with ⟨Hsrc, Hpt⟩
  ihave Hsrc := (Entails.of_eq (slotPt_eq m c (srcAt c h.val)).symm) $$ Hsrc
  ihave Hany := (wallAny_rest_succ (F := F) (rgt c) c h.val h.isLt) $$ Hany
  icases Hany with ⟨Hdst, Hany⟩
  ihave Hdst := (Entails.of_eq (slotAny_eq (F := F) (rgt c) (srcAt c h.val)).symm) $$ Hdst
  icases Hdst with ⟨%fd, Hdst⟩
  iapply (Rounds.wp_send_pointsTo 𝒱₀ ER (ringRd m) (c : Thread nD τ) none (c' := ((rgt c : Dev nD) : Thread nD τ))
      (src := slotM (srcAt c h.val)) (dst := slotM (srcAt c h.val)) (fs := wallFinal m) (fd := fd)
      (false_mem_duties m c 0 h) (false_mem_duties m (rgt c) 1 h) () () Nw rfl (amount_wsend m c h false)
      (amount_wrecv m (rgt c) h false) (OW c (h.val + 1)) (OW_succ c h) hp1 (hp2 fd)) $$ [Ho Ht1 Ht2 Hsrc Hdst]
  · iframe # ∗
    isplitl [Hsrc]; · iexact Hsrc
    iexact Hdst
  iintro ⟨Hcr0, Ho⟩
  iapply Hk
  iframe # ∗
  iexists W; iexact Ho

theorem wp_wall_wsend (K : Dev nD × CI → ℕ) (c : Dev nD) (h : Fin 31)
    (V : Memref sig .tc .vmem S6x512x256 .bf16) (hV : V = slotM (srcAt c h.val))
    {α : Type} (Q : α → sProp 𝕄) (k : PUnit → Prog (TpuEff nD τ sig (Elt F) Λ₀ .tc) α)
    (hs : V.view.WordExact) (hd : V.view.WordExact) :
    RingW1 m K c h
      ⊢ iprop((RingW2 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 0 h) V V hs hd) k) Q) := by
  subst hV
  unfold RingW1 RingW2
  iintro ⟨#Hrec, #Hlev, Htok, Hcl, ⟨%W, Ho⟩, Hat0, Hcr0, Hat1, Hcr1, Hpt, Hany⟩ Hk
  ihave #Hg := (rec_inv m K c 0 h) $$ Hrec
  ihave #Hmw := (mayWait_wsend (F := F) c h (OW c (h.val + 1)) (OW_owed c (h.val + 1))) $$ Hlev
  iapply (Rounds.wp_wait_rest_token 𝒱₀ ER (ringRd m) (c : Thread nD τ) none (fun K' => rfl)
      (Set.mem_univ (K (c, some (0, h)))) () ((Nat.zero_add Nw).trans (expect_wsend m c h).symm)) $$ [Hcr0 Ho Hat0]
  · iframe # ∗
  iintro ⟨Ho, Hat0, #Hr, Hpay⟩
  ihave Hpay := (Entails.of_eq (rest_wsend m c h)) $$ Hpay
  imod (Rounds.cell_close ER (ringRd m) (g := dCell c 0 h) (Set.mem_univ (K (c, some (0, h)))) (not_unitless m _) (R := 0 + 1)
      (duties_later m (dCell c 0 h))) $$ [Hat0] with Hsv
  · isplitr; · iexact Hg
    iexact Hat0
  ihave Hpt := (wallPt_held_take m c h.val).2 $$ [Hpay Hpt]
  · isplitl [Hpay]; · iexact Hpay
    iexact Hpt
  iapply Hk
  iframe # ∗
  iexists (insert (SemLoc.dma (dsem 0 h), ()) W); iexact Ho

theorem wp_wall_wrecv (K : Dev nD × CI → ℕ) (c : Dev nD) (h : Fin 31)
    (V : Memref sig .tc .vmem S6x512x256 .bf16) (hV : V = slotM (srcAt c h.val))
    {α : Type} (Q : α → sProp 𝕄) (k : PUnit → Prog (TpuEff nD τ sig (Elt F) Λ₀ .tc) α)
    (hs : V.view.WordExact) (hd : V.view.WordExact) :
    RingW2 m K c h
      ⊢ iprop((RingW m K c (h.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 1 h) V V hs hd) k) Q) := by
  subst hV
  unfold RingW2 RingW
  iintro ⟨#Hrec, #Hlev, Htok, Hcl, ⟨%W, Ho⟩, Hsv0, Hat1, Hcr1, Hpt, Hany⟩ Hk
  ihave #Hg := (rec_inv m K c 1 h) $$ Hrec
  ihave #Hmw := (mayWait_wrecv (F := F) c h) $$ Hlev
  iapply (Rounds.wp_wait_rest_token 𝒱₀ ER (ringRd m) (c : Thread nD τ) none (fun K' => rfl)
      (Set.mem_univ (K (c, some (1, h)))) () ((Nat.zero_add Nw).trans (expect_wrecv m c h).symm)) $$ [Hcr1 Ho Hat1]
  · iframe # ∗
  iintro ⟨Ho, Hat1, #Hr, Hpay⟩
  ihave Hpay := (Entails.of_eq (rest_wrecv m c h)) $$ Hpay
  imod (Rounds.cell_close ER (ringRd m) (g := dCell c 1 h) (Set.mem_univ (K (c, some (1, h)))) (not_unitless m _) (R := 0 + 1)
      (duties_later m (dCell c 1 h))) $$ [Hat1] with Hsv1
  · isplitr; · iexact Hg
    iexact Hat1
  ihave Hpt := (wallPt_held_succ m c h.val h.isLt).2 $$ [Hpay Hpt]
  · isplitl [Hpay]; · iexact Hpay
    iexact Hpt
  ihave Hcl := (Entails.of_eq (closedW_peel (F := F) c h).symm) $$ [Hsv0 Hsv1 Hcl]
  · isplitr [Hcl]
    · isplitl [Hsv0]; · iexact Hsv0
      iexact Hsv1
    iexact Hcl
  iapply Hk
  iframe # ∗
  iexists (insert (SemLoc.dma (dsem 1 h), ()) W); iexact Ho

end Cert.Kernel.RM

end
-- ==== Proof.RMK.StepO.lean ====
import proofs.«900986_g7700000000000987_dist_mlpseq_tp1d_bs_rep_b512_d256_h512_v7x_i32_bf16_1_alg».proof.Proof.RMK.StepW

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem blkPt_eq (d j : Dev nD) :
    ((((d : Thread nD τ).loc cc0_stg7_0) ↦[(blkM j).view.set]{fullShare} (outFinal m)) : sProp 𝕄) = outPt m d {j} := by
  unfold outPt; rw [outSets_singleton]; rfl

theorem blkAny_eq (d j : Dev nD) :
    (iprop(∃ f : Buf (Elt F) ((d : Thread nD τ).loc cc0_stg7_0), ((d : Thread nD τ).loc cc0_stg7_0) ↦[(blkM j).view.set]{fullShare} f) : sProp 𝕄)
      = outAny (F := F) d {j} := by
  unfold outAny; rw [outSets_singleton]; rfl

theorem blk_landed (d j : Dev nD) (fd : Buf (Elt F) ((d : Thread nD τ).loc cc0_stg7_0)) :
    ((((d : Thread nD τ).loc cc0_stg7_0) ↦[(blkM j).view.set]{fullShare}
        ((blkM j).view.write (Elt F) fd ((blkM j).view.read (Elt F) (outFinal m)) Finset.univ)) : sProp 𝕄)
      = outPt m d {j} := by
  rw [← blkPt_eq]
  refine BI.Region.is_congr fun i hi => ?_
  have e := congrFun (View.write_read_eq_piecewise (v := (blkM j).view) fd (outFinal m) Finset.univ) i
  exact e.trans (Finset.piecewise_eq_of_mem _ _ _ hi)

theorem tokO_peel (c : Dev nD) (h : Fin 31) :
    TokO (F := F) c h.val = iprop((dutyTok ER (dCell c 2 h) 0 false ∗ dutyTok ER (dCell (rgt c) 3 h) 0 false
      ∗ atPos ER (dCell c 2 h) 0 ∅ 0 ∗ atPos ER (dCell c 3 h) 0 ∅ 0 ∗ cred (tallyAt (dCell c 3 h) () No)) ∗ TokO (F := F) c (h.val + 1)) :=
  TokO_succ c h.val h.isLt

theorem closedO_peel (c : Dev nD) (h : Fin 31) :
    ClosedO (F := F) c (h.val + 1) = iprop((semVal (dCell c 2 h) 0 ∗ semVal (dCell c 3 h) 0) ∗ ClosedO (F := F) c h.val) :=
  ClosedO_succ c h.val h.isLt

def RingO1 (K : Dev nD × CI → ℕ) (c : Dev nD) (h : Fin 31) : sProp 𝕄 :=
  iprop(records m K ∗ levAts L lv ∗ TokO (F := F) c (h.val + 1) ∗ ClosedO (F := F) c h.val
    ∗ (∃ W, owes (c : Thread nD τ) (OO c (h.val + 1)) W)
    ∗ atPos ER (dCell c 2 h) 0 ∅ 0 ∗ cred (tallyAt (dCell c 2 h) () No)
    ∗ atPos ER (dCell c 3 h) 0 ∅ 0 ∗ cred (tallyAt (dCell c 3 h) () No)
    ∗ outPt m c ((heldW c h.val).erase (srcAt c h.val)) ∗ outAny (F := F) (rgt c) (restW c (h.val + 1)))

def RingO2 (K : Dev nD × CI → ℕ) (c : Dev nD) (h : Fin 31) : sProp 𝕄 :=
  iprop(records m K ∗ levAts L lv ∗ TokO (F := F) c (h.val + 1) ∗ ClosedO (F := F) c h.val
    ∗ (∃ W, owes (c : Thread nD τ) (OO c (h.val + 1)) W)
    ∗ semVal (dCell c 2 h) 0
    ∗ atPos ER (dCell c 3 h) 0 ∅ 0 ∗ cred (tallyAt (dCell c 3 h) () No)
    ∗ outPt m c (heldW c h.val) ∗ outAny (F := F) (rgt c) (restW c (h.val + 1)))

theorem wp_out_enq (K : Dev nD × CI → ℕ) (c n : Dev nD) (hn : n = rgt c) (h : Fin 31)
    (V : Memref sig .tc .vmem S512x256 .bf16) (hV : V = blkM (srcAt c h.val))
    {α : Type} (Q : α → sProp 𝕄) (k : PUnit → Prog (TpuEff nD τ sig (Elt F) Λ₀ .tc) α)
    (hsc : V.view.ref.isScScratch = false) (hsrc : V.view.WordExact) (hdst : V.view.WordExact)
    (hsem : DmaTarget.Typed (nD := nD) (τ := τ) .vmem (.dma (dsem 3 h)) (.remote (Dev.tc n) V (.dma (dsem 2 h)) hsc)) :
    RingO m K c h.val
      ⊢ iprop((RingO1 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma V (.remote (Dev.tc n) V (.dma (dsem 2 h)) hsc) (.dma (dsem 3 h)) hsrc hdst hsem) k) Q) := by
  subst hn
  subst hV
  have hp1 : ((((c : Thread nD τ).loc cc0_stg7_0) ↦[(blkM (srcAt c h.val)).view.set]{fullShare} (outFinal m)) : sProp 𝕄)
      ⊢ (ringRd m).payload (dCell c 2 h) 0 false :=
    Entails.of_eq ((blkPt_eq m c (srcAt c h.val)).trans (payload_osend m c h false).symm)
  have hp2 : ∀ fd : Buf (Elt F) (((rgt c : Dev nD) : Thread nD τ).loc cc0_stg7_0),
      ((((rgt c : Dev nD) : Thread nD τ).loc cc0_stg7_0) ↦[(blkM (srcAt c h.val)).view.set]{fullShare}
        ((blkM (srcAt c h.val)).view.write (Elt F) fd ((blkM (srcAt c h.val)).view.read (Elt F) (outFinal m)) Finset.univ) : sProp 𝕄)
      ⊢ (ringRd m).payload (dCell (rgt c) 3 h) 0 false := fun fd =>
    Entails.of_eq ((blk_landed m (rgt c) (srcAt c h.val) fd).trans
      ((congrArg (fun j => outPt m (rgt c) {j}) (srcAt_rgt c h.val h.isLt).symm).trans (payload_orecv m (rgt c) h false).symm))
  unfold RingO RingO1
  iintro ⟨#Hrec, #Hlev, Htok, Hcl, ⟨%W, Ho⟩, Hpt, Hany⟩ Hk
  ihave #Hg1 := (rec_inv m K c 2 h) $$ Hrec
  ihave #Hg2 := (rec_inv m K (rgt c) 3 h) $$ Hrec
  ihave #Hr1 := (rec_reached m K c 2 h) $$ Hrec
  ihave #Hr2 := (rec_reached m K (rgt c) 3 h) $$ Hrec
  ihave Htok := (Entails.of_eq (tokO_peel c h)) $$ Htok
  icases Htok with ⟨⟨Ht1, Ht2, Hat0, Hat1, Hcr1⟩, Htok⟩
  ihave Hpt := (outPt_held_take m c h.val).1 $$ Hpt
  icases Hpt with ⟨Hsrc, Hpt⟩
  ihave Hsrc := (Entails.of_eq (blkPt_eq m c (srcAt c h.val)).symm) $$ Hsrc
  ihave Hany := (outAny_rest_succ (F := F) (rgt c) c h.val h.isLt) $$ Hany
  icases Hany with ⟨Hdst, Hany⟩
  ihave Hdst := (Entails.of_eq (blkAny_eq (F := F) (rgt c) (srcAt c h.val)).symm) $$ Hdst
  icases Hdst with ⟨%fd, Hdst⟩
  iapply (Rounds.wp_send_pointsTo 𝒱₀ ER (ringRd m) (c : Thread nD τ) none (c' := ((rgt c : Dev nD) : Thread nD τ))
      (src := blkM (srcAt c h.val)) (dst := blkM (srcAt c h.val)) (fs := outFinal m) (fd := fd)
      (false_mem_duties m c 2 h) (false_mem_duties m (rgt c) 3 h) () () No rfl (amount_osend m c h false)
      (amount_orecv m (rgt c) h false) (OO c (h.val + 1)) (OO_succ c h) hp1 (hp2 fd)) $$ [Ho Ht1 Ht2 Hsrc Hdst]
  · iframe # ∗
    isplitl [Hsrc]; · iexact Hsrc
    iexact Hdst
  iintro ⟨Hcr0, Ho⟩
  iapply Hk
  iframe # ∗
  iexists W; iexact Ho

theorem wp_out_wsend (K : Dev nD × CI → ℕ) (c : Dev nD) (h : Fin 31)
    (V : Memref sig .tc .vmem S512x256 .bf16) (hV : V = blkM (srcAt c h.val))
    {α : Type} (Q : α → sProp 𝕄) (k : PUnit → Prog (TpuEff nD τ sig (Elt F) Λ₀ .tc) α)
    (hs : V.view.WordExact) (hd : V.view.WordExact) :
    RingO1 m K c h
      ⊢ iprop((RingO2 m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 2 h) V V hs hd) k) Q) := by
  subst hV
  unfold RingO1 RingO2
  iintro ⟨#Hrec, #Hlev, Htok, Hcl, ⟨%W, Ho⟩, Hat0, Hcr0, Hat1, Hcr1, Hpt, Hany⟩ Hk
  ihave #Hg := (rec_inv m K c 2 h) $$ Hrec
  ihave #Hmw := (mayWait_osend (F := F) c h (OO c (h.val + 1)) (OO_owed c (h.val + 1))) $$ Hlev
  iapply (Rounds.wp_wait_rest_token 𝒱₀ ER (ringRd m) (c : Thread nD τ) none (fun K' => rfl)
      (Set.mem_univ (K (c, some (2, h)))) () ((Nat.zero_add No).trans (expect_osend m c h).symm)) $$ [Hcr0 Ho Hat0]
  · iframe # ∗
  iintro ⟨Ho, Hat0, #Hr, Hpay⟩
  ihave Hpay := (Entails.of_eq (rest_osend m c h)) $$ Hpay
  imod (Rounds.cell_close ER (ringRd m) (g := dCell c 2 h) (Set.mem_univ (K (c, some (2, h)))) (not_unitless m _) (R := 0 + 1)
      (duties_later m (dCell c 2 h))) $$ [Hat0] with Hsv
  · isplitr; · iexact Hg
    iexact Hat0
  ihave Hpt := (outPt_held_take m c h.val).2 $$ [Hpay Hpt]
  · isplitl [Hpay]; · iexact Hpay
    iexact Hpt
  iapply Hk
  iframe # ∗
  iexists (insert (SemLoc.dma (dsem 2 h), ()) W); iexact Ho

theorem wp_out_wrecv (K : Dev nD × CI → ℕ) (c : Dev nD) (h : Fin 31)
    (V : Memref sig .tc .vmem S512x256 .bf16) (hV : V = blkM (srcAt c h.val))
    {α : Type} (Q : α → sProp 𝕄) (k : PUnit → Prog (TpuEff nD τ sig (Elt F) Λ₀ .tc) α)
    (hs : V.view.WordExact) (hd : V.view.WordExact) :
    RingO2 m K c h
      ⊢ iprop((RingO m K c (h.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 3 h) V V hs hd) k) Q) := by
  subst hV
  unfold RingO2 RingO
  iintro ⟨#Hrec, #Hlev, Htok, Hcl, ⟨%W, Ho⟩, Hsv0, Hat1, Hcr1, Hpt, Hany⟩ Hk
  ihave #Hg := (rec_inv m K c 3 h) $$ Hrec
  ihave #Hmw := (mayWait_orecv (F := F) c h) $$ Hlev
  iapply (Rounds.wp_wait_rest_token 𝒱₀ ER (ringRd m) (c : Thread nD τ) none (fun K' => rfl)
      (Set.mem_univ (K (c, some (3, h)))) () ((Nat.zero_add No).trans (expect_orecv m c h).symm)) $$ [Hcr1 Ho Hat1]
  · iframe # ∗
  iintro ⟨Ho, Hat1, #Hr, Hpay⟩
  ihave Hpay := (Entails.of_eq (rest_orecv m c h)) $$ Hpay
  imod (Rounds.cell_close ER (ringRd m) (g := dCell c 3 h) (Set.mem_univ (K (c, some (3, h)))) (not_unitless m _) (R := 0 + 1)
      (duties_later m (dCell c 3 h))) $$ [Hat1] with Hsv1
  · isplitr; · iexact Hg
    iexact Hat1
  ihave Hpt := (outPt_held_succ m c h.val h.isLt).2 $$ [Hpay Hpt]
  · isplitl [Hpay]; · iexact Hpay
    iexact Hpt
  ihave Hcl := (Entails.of_eq (closedO_peel (F := F) c h).symm) $$ [Hsv0 Hsv1 Hcl]
  · isplitr [Hcl]
    · isplitl [Hsv0]; · iexact Hsv0
      iexact Hsv1
    iexact Hcl
  iapply Hk
  iframe # ∗
  iexists (insert (SemLoc.dma (dsem 3 h), ()) W); iexact Ho

end Cert.Kernel.RM

end
-- ==== Proof.RMK.EndGlue.lean ====
import proofs.«900986_g7700000000000987_dist_mlpseq_tp1d_bs_rep_b512_d256_h512_v7x_i32_bf16_1_alg».proof.Proof.RMK.Regions
import proofs.«900986_g7700000000000987_dist_mlpseq_tp1d_bs_rep_b512_d256_h512_v7x_i32_bf16_1_alg».proof.Proof.RMK.Peel
import proofs.«900986_g7700000000000987_dist_mlpseq_tp1d_bs_rep_b512_d256_h512_v7x_i32_bf16_1_alg».proof.Proof.RMK.Sched

noncomputable section

namespace Cert.Kernel.RM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem RingW_zero_intro (m : (ℓ : Loc nD τ sig) → Buf (Elt F) ℓ) (K : Dev nD × CI → ℕ) (c : Dev nD) :
    iprop(records m K ∗ levAts L lv ∗ TokW (F := F) c 0 ∗ (∃ W, owes (c : Thread nD τ) (OW c 0) W)
        ∗ wallPt m c {c} ∗ wallAny (F := F) (rgt c) (Finset.univ.erase (rgt c)))
      ⊢ RingW m K c 0 := by
  unfold RingW
  rw [heldW_zero, restW_zero, ClosedW_zero]
  iintro ⟨HR, HL, HT, HO, HP, HA⟩
  iframe

theorem RingO_last_elim (m : (ℓ : Loc nD τ sig) → Buf (Elt F) ℓ) (K : Dev nD × CI → ℕ) (c : Dev nD) :
    RingO m K c 31
      ⊢ iprop(records m K ∗ levAts L lv ∗ ClosedO (F := F) c 31 ∗ (∃ W, owes (c : Thread nD τ) 0 W)
          ∗ (((Memref.whole cc0_stg7_0 : Memref sig .tc .vmem S16384x256 .bf16).view.loc (c : Thread nD τ)) ↦{fullShare} (outFinal m))) := by
  unfold RingO
  rw [OO_31, outPt_last]
  iintro ⟨HR, HL, -, HC, HO, HW, -⟩
  iframe

end Cert.Kernel.RM

end
-- ==== Proof.RMK.Body.lean ====
import proofs.«900986_g7700000000000987_dist_mlpseq_tp1d_bs_rep_b512_d256_h512_v7x_i32_bf16_1_alg».proof.Proof.RMK.Dats
import proofs.«900986_g7700000000000987_dist_mlpseq_tp1d_bs_rep_b512_d256_h512_v7x_i32_bf16_1_alg».proof.Proof.RMK.Glue
import proofs.«900986_g7700000000000987_dist_mlpseq_tp1d_bs_rep_b512_d256_h512_v7x_i32_bf16_1_alg».proof.Proof.RMK.Sched
import proofs.«900986_g7700000000000987_dist_mlpseq_tp1d_bs_rep_b512_d256_h512_v7x_i32_bf16_1_alg».proof.Proof.RMK.Peel
import proofs.«900986_g7700000000000987_dist_mlpseq_tp1d_bs_rep_b512_d256_h512_v7x_i32_bf16_1_alg».proof.Proof.RMK.Regions
import proofs.«900986_g7700000000000987_dist_mlpseq_tp1d_bs_rep_b512_d256_h512_v7x_i32_bf16_1_alg».proof.Proof.RMK.Middle
import proofs.«900986_g7700000000000987_dist_mlpseq_tp1d_bs_rep_b512_d256_h512_v7x_i32_bf16_1_alg».proof.Proof.RMK.Prologue
import proofs.«900986_g7700000000000987_dist_mlpseq_tp1d_bs_rep_b512_d256_h512_v7x_i32_bf16_1_alg».proof.Proof.RMK.StepW
import proofs.«900986_g7700000000000987_dist_mlpseq_tp1d_bs_rep_b512_d256_h512_v7x_i32_bf16_1_alg».proof.Proof.RMK.StepO
import proofs.«900986_g7700000000000987_dist_mlpseq_tp1d_bs_rep_b512_d256_h512_v7x_i32_bf16_1_alg».proof.Proof.RMK.EndGlue
import proofs.«900986_g7700000000000987_dist_mlpseq_tp1d_bs_rep_b512_d256_h512_v7x_i32_bf16_1_alg».proof.Proof.RMK.Launch

noncomputable section

namespace Cert.Kernel.RM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A whole buffer's location, spelt by its reference or through the whole memref's view, is one location by definition.
theorem toView (c : Dev nD) (b : Ref sig .tc) (f : Buf (Elt F) ((c : Thread nD τ).loc b)) :
    ((((c : Thread nD τ).loc b) ↦{fullShare} f : sProp 𝕄)) ⊢ (((Memref.whole b).view.loc (c : Thread nD τ)) ↦{fullShare} f : sProp 𝕄) :=
  Entails.of_eq rfl
theorem ofView (c : Dev nD) (b : Ref sig .tc) (f : Buf (Elt F) ((c : Thread nD τ).loc b)) :
    (((Memref.whole b).view.loc (c : Thread nD τ)) ↦{fullShare} f : sProp 𝕄) ⊢ ((((c : Thread nD τ).loc b) ↦{fullShare} f : sProp 𝕄)) :=
  Entails.of_eq rfl

-- The list of writes put under a variable, with the equation kept.
theorem box_writes (c : Dev nD) (f₀ : Buf (Elt F) ((c : Thread nD τ).loc cc0_scratch0)) (L : List (View.Piece (Elt F) S32x6x512x256 .bf16)) :
    (((wallM : Memref sig .tc .vmem S32x6x512x256 .bf16).view.loc (c : Thread nD τ)) ↦{fullShare}
        (wallM : Memref sig .tc .vmem S32x6x512x256 .bf16).view.writes (Elt F) f₀ L : sProp 𝕄)
      ⊢ iprop(∃ L' : List (View.Piece (Elt F) S32x6x512x256 .bf16), ⌜L' = L⌝ ∗
          (((wallM : Memref sig .tc .vmem S32x6x512x256 .bf16).view.loc (c : Thread nD τ)) ↦{fullShare}
            (wallM : Memref sig .tc .vmem S32x6x512x256 .bf16).view.writes (Elt F) f₀ L')) := by
  iintro H
  iexists L
  isplitr
  · ipureintro; rfl
  · iexact H

theorem wall_after_stores_of (m : (ℓ : Loc nD τ sig) → Buf (Elt F) ℓ) (c : Dev nD) (f₀ : Buf (Elt F) ((c : Thread nD τ).loc cc0_scratch0))
    (L : List (View.Piece (Elt F) S32x6x512x256 .bf16)) (hL : L = storedList m c) :
    (((wallM : Memref sig .tc .vmem S32x6x512x256 .bf16).view.loc (c : Thread nD τ)) ↦{fullShare}
        (wallM : Memref sig .tc .vmem S32x6x512x256 .bf16).view.writes (Elt F) f₀ L : sProp 𝕄)
      ⊢ iprop(wallPt m c {c} ∗ wallAny (F := F) c (Finset.univ.erase c)) := by
  subst hL
  exact wall_after_stores m c f₀

-- Binding a returned value applies the continuation to it.
theorem ret_bind_eq {E : Type → Type} {α β : Type} (a : α) (k : α → Prog E β) : (Prog.ret a).bind k = k a := rfl

set_option maxHeartbeats 16000000 in
-- One device's body: own slot stored, handshake with both neighbours, 31 ring steps of the weights, the three layers, own rows stored, 31 ring steps of the rows.
theorem body_run (m : (ℓ : Loc nD τ sig) → Buf (Elt F) ℓ) (c : Dev nD) :
    bodyPre' m c ⊢ wp frame (wpE (defs₀ (F := F)) 𝒱₀ (c : Thread nD τ) none) Set.univ (bodyProg (F := F)) (fun _ => bodyPost m c) := by
  iintro Hpre
  ihave H := (bodyPre'_elim m c) $$ Hpre
  unfold Φ₀
  icases H with ⟨⟨Hst, ⟨%f8, H8⟩⟩, ⟨%W0, HO⟩, Hins, ⟨%f7, H7⟩⟩
  ihave Hs := (start_elim m c) $$ Hst
  icases Hs with ⟨%K, #Hrec, #Hlev, ⟨HatB, HtBL, HtBR, HcB⟩, HTW, HTO⟩
  unfold Ins
  icases Hins with ⟨H0, H1, H2, H3, H4, H5, H6⟩
  ihave H0 := (toView c cc0_stg0_0 _) $$ H0
  ihave H1 := (toView c cc0_stg1_0 _) $$ H1
  ihave H2 := (toView c cc0_stg2_0 _) $$ H2
  ihave H3 := (toView c cc0_stg3_0 _) $$ H3
  ihave H4 := (toView c cc0_stg4_0 _) $$ H4
  ihave H5 := (toView c cc0_stg5_0 _) $$ H5
  ihave H6 := (toView c cc0_stg6_0 _) $$ H6
  ihave H7 := (toView c cc0_stg7_0 _) $$ H7
  ihave H8 := (toView c cc0_scratch0 _) $$ H8
  unfold bodyProg
  sl_exec_parts

  ihave Hb := (box_writes (F := F) c f8 _) $$ H8
  icases Hb with ⟨%L', %hL', H8⟩
  have hL'' : L' = storedList m c := hL'.trans rfl
  ihave Hw := (wall_after_stores_of m c f8 L' hL'') $$ H8
  icases Hw with ⟨HwOwn, HwGive⟩
  ihave Ho7 := (outAny_own_split (F := F) c f7) $$ H7
  icases Ho7 with ⟨HoOwn, HoGive⟩
  iapply (wp_signal_lft' m K c _ W0 _) $$ [HO HtBL HwGive HoGive]
  · isplitr; · iexact Hrec
    isplitl [HtBL]; · iexact HtBL
    isplitl [HO]; · iexact HO
    isplitl [HwGive]; · iexact HwGive
    iexact HoGive
  iintro HO
  sl_exec_parts
  iapply (wp_signal_rgt' m K c _ W0 _) $$ [HO HtBR]
  · isplitr; · iexact Hrec
    isplitl [HtBR]; · iexact HtBR
    iexact HO
  iintro HO
  sl_exec_parts
  iapply (wp_bar_wait' m K c _ W0 _) $$ [HcB HO HatB]
  · isplitr; · iexact Hrec
    isplitr; · iexact Hlev
    isplitl [HcB]; · iexact HcB
    isplitl [HO]; · iexact HO
    iexact HatB
  iintro ⟨HO, HatB, #HrB, HwR, HoR, #Hrr⟩
  sl_exec_parts

  ihave HR := (RingW_zero_intro m K c) $$ [HTW HO HwOwn HwR]
  · isplitr; · iexact Hrec
    isplitr; · iexact Hlev
    isplitl [HTW]; · iexact HTW
    isplitl [HO]; · iexists _; iexact HO
    isplitl [HwOwn]; · iexact HwOwn
    iexact HwR

  -- A ring step: send the slot received last to the right neighbour, wait until it has been read out, wait for the next slot from the left.
  -- The step's number, the neighbour and the slice moved are read off the goal; what is left to show is the same at every step.
  iterate 31
    iapply (wp_wall_enq m K c _ _ ⟨_, _⟩) $$ HR
    · exact slotM_step_nat c _ (by decide) _ _
    · clear * - c; revert c; decide +kernel
    on_goal 2 => decide
    iintro HR
    sl_exec_parts
    iapply (wp_wall_wsend m K c _) $$ HR
    · exact slotM_step_nat c _ (by decide) _ _
    iintro HR
    sl_exec_parts
    iapply (wp_wall_wrecv m K c _) $$ HR
    · exact slotM_step_nat c _ (by decide) _ _
    iintro HR
    sl_exec_parts

  ihave Hl := (RingW_last_elim m K c) $$ HR
  icases Hl with ⟨-, -, HclW, ⟨%W1, HO⟩, Hwall⟩
  ihave Hwall := (Entails.of_eq (wallPt_univ m c)) $$ Hwall
  rw [readAt_x0]
  iapply (wp_layers_x m c _ _ _ _ _ _ _ _ _ _ _ _ _ _ _ _ _ _ _ _ _ _ _ _ _)
  isplitl [Hwall]; · iexact Hwall
  iintro Hwall
  sl_exec_parts

  iapply (wp_out_load (F := F) c _ _ _) $$ HoOwn
  iintro %vold HoOwn
  iapply (wp_out_store m c _ _ _ _) $$ HoOwn
  iintro HoOwn
  rw [ret_bind_eq]
  sl_exec_parts
  ihave HR := (RingO_zero_intro m K c) $$ [HTO HO HoOwn HoR]
  · isplitr; · iexact Hrec
    isplitr; · iexact Hlev
    isplitl [HTO]; · iexact HTO
    isplitl [HO]; · iexists _; iexact HO
    isplitl [HoOwn]; · iexact HoOwn
    iexact HoR

  -- The same 31 steps for the row blocks of the result.
  iterate 31
    iapply (wp_out_enq m K c _ _ ⟨_, _⟩) $$ HR
    · exact blkM_step_nat c _ (by decide) _
    · clear * - c; revert c; decide +kernel
    on_goal 2 => decide
    iintro HR
    sl_exec_parts
    iapply (wp_out_wsend m K c _) $$ HR
    · exact blkM_step_nat c _ (by decide) _
    iintro HR
    sl_exec_parts
    iapply (wp_out_wrecv m K c _) $$ HR
    · exact blkM_step_nat c _ (by decide) _
    iintro HR
    sl_exec_parts
  sl_step
  ihave He := (RingO_last_elim m K c) $$ HR
  icases He with ⟨-, -, HclO, ⟨%W2, HO⟩, Hout⟩
  iapply (bodyPost_intro m c)
  unfold Φ₁ Ins
  isplitl [Hwall HclW HclO]
  · isplitl [Hwall]; · iapply (ofView c cc0_scratch0 _); iexact Hwall
    iapply (closed_join (F := F) c)
    isplitl [HclW]; · iexact HclW
    iexact HclO
  isplitl [HO]; · iexists _; iexact HO
  isplitl [H0 H1 H2 H3 H4 H5 H6]
  · isplitl [H0]; · iapply (ofView c cc0_stg0_0 _); iexact H0
    isplitl [H1]; · iapply (ofView c cc0_stg1_0 _); iexact H1
    isplitl [H2]; · iapply (ofView c cc0_stg2_0 _); iexact H2
    isplitl [H3]; · iapply (ofView c cc0_stg3_0 _); iexact H3
    isplitl [H4]; · iapply (ofView c cc0_stg4_0 _); iexact H4
    isplitl [H5]; · iapply (ofView c cc0_stg5_0 _); iexact H5
    iapply (ofView c cc0_stg6_0 _); iexact H6
  iapply (ofView c cc0_stg7_0 _); iexact Hout

theorem body_ob (m : (ℓ : Loc nD τ sig) → Buf (Elt F) ℓ) (c : Dev nD) :
    BodyObligation (dats (F := F) m 0 c) (defs₀ (F := F)) 𝒱₀ () Set.univ :=
  body_obligation_of m (fun c => body_run m c) c

end Cert.Kernel.RM

end
-- ==== Proof.Assembly.lean ====
import proofs.«900986_g7700000000000987_dist_mlpseq_tp1d_bs_rep_b512_d256_h512_v7x_i32_bf16_1_alg».proof.Defs
import proofs.«900986_g7700000000000987_dist_mlpseq_tp1d_bs_rep_b512_d256_h512_v7x_i32_bf16_1_alg».proof.Proof.Gen.Kernel
import proofs.«900986_g7700000000000987_dist_mlpseq_tp1d_bs_rep_b512_d256_h512_v7x_i32_bf16_1_alg».proof.Proof.Gen.KernelIdeal
import proofs.«900986_g7700000000000987_dist_mlpseq_tp1d_bs_rep_b512_d256_h512_v7x_i32_bf16_1_alg».proof.Proof.Gen.ReferenceIdeal
import proofs.«900986_g7700000000000987_dist_mlpseq_tp1d_bs_rep_b512_d256_h512_v7x_i32_bf16_1_alg».proof.Proof.Gen.Pre_finite_inputs_Kernel
import proofs.«900986_g7700000000000987_dist_mlpseq_tp1d_bs_rep_b512_d256_h512_v7x_i32_bf16_1_alg».proof.Proof.Gen.Pre_finite_inputs_ReferenceIdeal
import proofs.«900986_g7700000000000987_dist_mlpseq_tp1d_bs_rep_b512_d256_h512_v7x_i32_bf16_1_alg».proof.Proof.RefFrame
import proofs.«900986_g7700000000000987_dist_mlpseq_tp1d_bs_rep_b512_d256_h512_v7x_i32_bf16_1_alg».proof.Proof.RM.Value
import proofs.«900986_g7700000000000987_dist_mlpseq_tp1d_bs_rep_b512_d256_h512_v7x_i32_bf16_1_alg».proof.Proof.RM.Launch
import proofs.«900986_g7700000000000987_dist_mlpseq_tp1d_bs_rep_b512_d256_h512_v7x_i32_bf16_1_alg».proof.Proof.RM.Body
import proofs.«900986_g7700000000000987_dist_mlpseq_tp1d_bs_rep_b512_d256_h512_v7x_i32_bf16_1_alg».proof.Proof.RMK.Launch
import proofs.«900986_g7700000000000987_dist_mlpseq_tp1d_bs_rep_b512_d256_h512_v7x_i32_bf16_1_alg».proof.Proof.RMK.Body

noncomputable section

namespace Cert.Proof.Assembly

open Idealize.ShloMosaic Idealize.SL.Sem

theorem all : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m ρ _ => (θ_run (Cert.Kernel.defs (F := Bits)) _ _).mono (fun _ hr c => (hr c).2)
      (Cert.Kernel.RM.run_main (F := Bits) m ρ (Cert.Kernel.RM.body_ob m)),
    fun m ρ _ => (θ_run (Cert.KernelIdeal.defs (F := Ideal)) _ _).mono (fun _ hr c => (hr c).2)
      (Cert.KernelIdeal.RM.run_main (F := Ideal) m ρ (Cert.KernelIdeal.RM.body_ob m)),
    Cert.Proof.RefFrame.frame_ri, trivial,
    fun m g m' g' _ hagree => ⟨Cert.KernelIdeal.RM.outFinal (F := Ideal) m,
      Cert.KernelIdeal.RM.run_main (F := Ideal) m g (Cert.KernelIdeal.RM.body_ob m),
      (θ_run (Cert.ReferenceIdeal.defs (F := Ideal)) _ _).mono
        (fun _ hr => ⟨(hr 0).1.trans (Cert.KernelIdeal.RM.outFinal_eq_ref m m' hagree).symm, (hr 0).2⟩)
        (Cert.ReferenceIdeal.Value.run (F := Ideal) m' g')⟩⟩

end Cert.Proof.Assembly

end
-- ==== Proof.lean ====
import proofs.«900986_g7700000000000987_dist_mlpseq_tp1d_bs_rep_b512_d256_h512_v7x_i32_bf16_1_alg».proof.Defs
import proofs.«900986_g7700000000000987_dist_mlpseq_tp1d_bs_rep_b512_d256_h512_v7x_i32_bf16_1_alg».proof.Proof.Assembly

noncomputable section

namespace Cert.Proof

theorem claim : Cert.Claim := Cert.Proof.Assembly.all

end Cert.Proof

end
